-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v378)) (v1 : (c : Dev Cert.KernelIdeal.nD) → Buf (Elt Ideal) ((c.tc : Thread Cert.KernelIdeal.nD Cert.KernelIdeal.τ).loc Cert.KernelIdeal.main_v381)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v378) = v0 c
          ∧ r.2.mem ((c.tc : Thread Cert.KernelIdeal.nD Cert.KernelIdeal.τ).loc Cert.KernelIdeal.main_v381) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S10000x128 : Shape := ⟨2, ![10000, 128]⟩
abbrev S30000 : Shape := ⟨1, ![30000]⟩
abbrev S30000x1 : Shape := ⟨2, ![30000, 1]⟩
abbrev S128x128 : Shape := ⟨2, ![128, 128]⟩
abbrev S128 : Shape := ⟨1, ![128]⟩
abbrev S4x65 : Shape := ⟨2, ![4, 65]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S30000x1 : S_.BroadcastsInDim S30000x1 (![] : Fin 0 → Fin S30000x1.rank)
  reducesTo_S30000x1_S_d0_1 : S30000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x65 : S_.BroadcastsInDim S4x65 (![] : Fin 0 → Fin S4x65.rank)
  reducesTo_S4x65_S_d0_1 : S4x65.ReducesTo [0, 1] S_

variable [Facts]

def fn_part4 {F : FTy → Type} [FloatOps F] (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg20
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg17 : FVec F S4x65 .f32) (main_arg18 : FVec F S128 .f32) (main_arg19 : FVec F S128 .f32) (main_arg20 : FVec F S128 .f32) (main_arg21 : FVec F S128 .f32) (main_v48 : IVec S_ 1) (main_v49 : FVec F S4x65 .f32) (main_v50 : FVec F S4x65 .f32) : IVec S_ 1 :=
  let main_v51 : IVec S4x65 1 := cmpf .olt main_v49 main_v50
  let main_c_19 : IVec S_ 1 := constantI S_ 1 1#1
  let main_v52 : IVec S_ 1 := (fun x v => Host.reduce IntOp.andi x v reducesTo_S4x65_S_d0_1 h_S_) main_v51 main_c_19
  let main_v53 : IVec S_ 1 := andi main_v48 main_v52
  let main_v54 : FVec F S4x65 .f32 := Host.absf main_arg17
  let main_cst_20 : FVec F S_ .f32 := constant S_ .f32 0x7F800000#32
  let main_v55 : FVec F S4x65 .f32 := broadcastInDim S4x65 ![] bcast_S_S4x65 main_cst_20
  let main_v56 : IVec S4x65 1 := cmpf .olt main_v54 main_v55
  let main_c_21 : IVec S_ 1 := constantI S_ 1 1#1
  let main_v57 : IVec S_ 1 := (fun x v => Host.reduce IntOp.andi x v reducesTo_S4x65_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg20 main_arg21 main_v63 main_v67

def fn_part2 {F : FTy → Type} [FloatOps F] (main_arg13 : FVec F S128x128 .f32) (main_arg14 : FVec F S128 .f32) (main_arg15 : FVec F S4x65 .f32) (main_arg16 : FVec F S4x65 .f32) (main_arg17 : FVec F S4x65 .f32) (main_arg18 : FVec F S128 .f32) (main_arg19 : FVec F S128 .f32) (main_arg20 : FVec F S128 .f32) (main_arg21 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4x65 .f32 := Host.absf main_arg15
  let main_cst_16 : FVec F S_ .f32 := constant S_ .f32 0x7F800000#32
  let main_v45 : FVec F S4x65 .f32 := broadcastInDim S4x65 ![] bcast_S_S4x65 main_cst_16
  let main_v46 : IVec S4x65 1 := cmpf .olt main_v44 main_v45
  let main_c_17 : IVec S_ 1 := constantI S_ 1 1#1
  let main_v47 : IVec S_ 1 := (fun x v => Host.reduce IntOp.andi x v reducesTo_S4x65_S_d0_1 h_S_) main_v46 main_c_17
  let main_v48 : IVec S_ 1 := andi main_v43 main_v47
  let main_v49 : FVec F S4x65 .f32 := Host.absf main_arg16
  let main_cst_18 : FVec F S_ .f32 := constant S_ .f32 0x7F800000#32
  let main_v50 : FVec F S4x65 .f32 := broadcastInDim S4x65 ![] bcast_S_S4x65 main_cst_18
  fn_part3 (F := F) main_arg17 main_arg18 main_arg19 main_arg20 main_arg21 main_v48 main_v49 main_v50

def fn_part1 {F : FTy → Type} [FloatOps F] (main_arg10 : FVec F S30000x1 .f32) (main_arg11 : FVec F S128x128 .f32) (main_arg12 : FVec F S128 .f32) (main_arg13 : FVec F S128x128 .f32) (main_arg14 : FVec F S128 .f32) (main_arg15 : FVec F S4x65 .f32) (main_arg16 : FVec F S4x65 .f32) (main_arg17 : FVec F S4x65 .f32) (main_arg18 : FVec F S128 .f32) (main_arg19 : FVec F S128 .f32) (main_arg20 : FVec F S128 .f32) (main_arg21 : FVec F S128 .f32) (main_v13 : IVec S_ 1) (main_v16 : IVec S30000x1 1) : IVec S_ 1 :=
  let main_c_5 : IVec S_ 1 := constantI S_ 1 1#1
  let main_v17 : IVec S_ 1 := (fun x v => Host.reduce IntOp.andi x v reducesTo_S30000x1_S_d0_1 h_S_) main_v16 main_c_5
  let main_v18 : IVec S_ 1 := andi main_v13 main_v17
  let main_v19 : FVec F S30000x1 .f32 := Host.absf main_arg10
  let main_cst_6 : FVec F S_ .f32 := constant S_ .f32 0x7F800000#32
  let main_v20 : FVec F S30000x1 .f32 := broadcastInDim S30000x1 ![] bcast_S_S30000x1 main_cst_6
  let main_v21 : IVec S30000x1 1 := cmpf .olt main_v19 main_v20
  let main_c_7 : IVec S_ 1 := constantI S_ 1 1#1
  let main_v22 : IVec S_ 1 := (fun x v => Host.reduce IntOp.andi x v reducesTo_S30000x1_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_v33

def fn {F : FTy → Type} [FloatOps F] (main_arg0 : FVec F S100000x128 .f32) (main_arg1 : FVec F S10000x128 .f32) (main_arg2 : IVec S30000 32) (main_arg3 : IVec S30000 32) (main_arg4 : IVec S30000 32) (main_arg5 : IVec S30000 32) (main_arg6 : IVec S30000 32) (main_arg7 : IVec S30000 32) (main_arg8 : FVec F S30000x1 .f32) (main_arg9 : FVec F S30000x1 .f32) (main_arg10 : FVec F S30000x1 .f32) (main_arg11 : FVec F S128x128 .f32) (main_arg12 : FVec F S128 .f32) (main_arg13 : FVec F S128x128 .f32) (main_arg14 : FVec F S128 .f32) (main_arg15 : FVec F S4x65 .f32) (main_arg16 : FVec F S4x65 .f32) (main_arg17 : FVec F S4x65 .f32) (main_arg18 : FVec F S128 .f32) (main_arg19 : FVec F S128 .f32) (main_arg20 : FVec F S128 .f32) (main_arg21 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S30000x1 .f32 := Host.absf main_arg8
  let main_cst_2 : FVec F S_ .f32 := constant S_ .f32 0x7F800000#32
  let main_v10 : FVec F S30000x1 .f32 := broadcastInDim S30000x1 ![] bcast_S_S30000x1 main_cst_2
  let main_v11 : IVec S30000x1 1 := cmpf .olt main_v9 main_v10
  let main_c_3 : IVec S_ 1 := constantI S_ 1 1#1
  let main_v12 : IVec S_ 1 := (fun x v => Host.reduce IntOp.andi x v reducesTo_S30000x1_S_d0_1 h_S_) main_v11 main_c_3
  let main_v13 : IVec S_ 1 := andi main_v8 main_v12
  let main_v14 : FVec F S30000x1 .f32 := Host.absf main_arg9
  let main_cst_4 : FVec F S_ .f32 := constant S_ .f32 0x7F800000#32
  let main_v15 : FVec F S30000x1 .f32 := broadcastInDim S30000x1 ![] bcast_S_S30000x1 main_cst_4
  let main_v16 : IVec S30000x1 1 := cmpf .olt main_v14 main_v15
  fn_part1 (F := F) main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S10000x128 : Shape := ⟨2, ![10000, 128]⟩
abbrev S30000 : Shape := ⟨1, ![30000]⟩
abbrev S30000x1 : Shape := ⟨2, ![30000, 1]⟩
abbrev S128x128 : Shape := ⟨2, ![128, 128]⟩
abbrev S128 : Shape := ⟨1, ![128]⟩
abbrev S4x65 : Shape := ⟨2, ![4, 65]⟩
abbrev S_ : Shape := ⟨0, ![]⟩
abbrev S1x32 : Shape := ⟨2, ![1, 32]⟩
abbrev S32 : Shape := ⟨1, ![32]⟩
abbrev S1 : Shape := ⟨1, ![1]⟩
abbrev S128x1 : Shape := ⟨2, ![128, 1]⟩
abbrev S128x16 : Shape := ⟨2, ![128, 16]⟩
abbrev S1x128 : Shape := ⟨2, ![1, 128]⟩
abbrev S100000x16 : Shape := ⟨2, ![100000, 16]⟩
abbrev S2000x128 : Shape := ⟨2, ![2000, 128]⟩
abbrev S2000x16 : Shape := ⟨2, ![2000, 16]⟩
abbrev S10000x16 : Shape := ⟨2, ![10000, 16]⟩
abbrev S4x1 : Shape := ⟨2, ![4, 1]⟩
abbrev S4 : Shape := ⟨1, ![4]⟩
abbrev S30000x2 : Shape := ⟨2, ![30000, 2]⟩
abbrev S30000x4 : Shape := ⟨2, ![30000, 4]⟩
abbrev S1x4 : Shape := ⟨2, ![1, 4]⟩
abbrev S100000x4 : Shape := ⟨2, ![100000, 4]⟩
abbrev S30000x128 : Shape := ⟨2, ![30000, 128]⟩
abbrev S30000x4x32 : Shape := ⟨3, ![30000, 4, 32]⟩
abbrev S10000x4 : Shape := ⟨2, ![10000, 4]⟩
abbrev S2000 : Shape := ⟨1, ![2000]⟩
abbrev S2000x1 : Shape := ⟨2, ![2000, 1]⟩

abbrev nBuf : Space → Nat
  | .hbm => 540
  | .vmem => 34
  | .smem => 0
  | _ => 0

abbrev hbmTy0_0 (i : Nat) : BufTy := match i % 128 with
  | 0 => ⟨S100000x128, .f32⟩
  | 1 => ⟨S10000x128, .f32⟩
  | 2 => ⟨S30000, .i32⟩
  | 3 => ⟨S30000, .i32⟩
  | 4 => ⟨S30000, .i32⟩
  | 5 => ⟨S30000, .i32⟩
  | 6 => ⟨S30000, .i32⟩
  | 7 => ⟨S30000, .i32⟩
  | 8 => ⟨S30000x1, .f32⟩
  | 9 => ⟨S30000x1, .f32⟩
  | 10 => ⟨S30000x1, .f32⟩
  | 11 => ⟨S128x128, .f32⟩
  | 12 => ⟨S128, .f32⟩
  | 13 => ⟨S128x128, .f32⟩
  | 14 => ⟨S128, .f32⟩
  | 15 => ⟨S4x65, .f32⟩
  | 16 => ⟨S4x65, .f32⟩
  | 17 => ⟨S4x65, .f32⟩
  | 18 => ⟨S128, .f32⟩
  | 19 => ⟨S128, .f32⟩
  | 20 => ⟨S128, .f32⟩
  | 21 => ⟨S128, .f32⟩
  | 22 => ⟨S_, .f32⟩
  | 23 => ⟨S128, .f32⟩
  | 24 => ⟨S1x32, .f32⟩
  | 25 => ⟨S32, .f32⟩
  | 26 => ⟨S_, .i32⟩
  | 27 => ⟨S1, .i32⟩
  | 28 => ⟨S128, .f32⟩
  | 29 => ⟨S_, .f32⟩
  | 30 => ⟨S128, .f32⟩
  | 31 => ⟨S1x32, .f32⟩
  | 32 => ⟨S32, .f32⟩
  | 33 => ⟨S_, .i32⟩
  | 34 => ⟨S1, .i32⟩
  | 35 => ⟨S128, .f32⟩
  | 36 => ⟨S_, .f32⟩
  | 37 => ⟨S128, .f32⟩
  | 38 => ⟨S1x32, .f32⟩
  | 39 => ⟨S32, .f32⟩
  | 40 => ⟨S_, .i32⟩
  | 41 => ⟨S1, .i32⟩
  | 42 => ⟨S128, .f32⟩
  | 43 => ⟨S_, .f32⟩
  | 44 => ⟨S128, .f32⟩
  | 45 => ⟨S1x32, .f32⟩
  | 46 => ⟨S32, .f32⟩
  | 47 => ⟨S_, .i32⟩
  | 48 => ⟨S1, .i32⟩
  | 49 => ⟨S128, .f32⟩
  | 50 => ⟨S_, .f32⟩
  | 51 => ⟨S128, .f32⟩
  | 52 => ⟨S1x32, .f32⟩
  | 53 => ⟨S32, .f32⟩
  | 54 => ⟨S_, .i32⟩
  | 55 => ⟨S1, .i32⟩
  | 56 => ⟨S128, .f32⟩
  | 57 => ⟨S_, .f32⟩
  | 58 => ⟨S128, .f32⟩
  | 59 => ⟨S1x32, .f32⟩
  | 60 => ⟨S32, .f32⟩
  | 61 => ⟨S_, .i32⟩
  | 62 => ⟨S1, .i32⟩
  | 63 => ⟨S128, .f32⟩
  | 64 => ⟨S_, .f32⟩
  | 65 => ⟨S128, .f32⟩
  | 66 => ⟨S1x32, .f32⟩
  | 67 => ⟨S32, .f32⟩
  | 68 => ⟨S_, .i32⟩
  | 69 => ⟨S1, .i32⟩
  | 70 => ⟨S128, .f32⟩
  | 71 => ⟨S_, .f32⟩
  | 72 => ⟨S128, .f32⟩
  | 73 => ⟨S1x32, .f32⟩
  | 74 => ⟨S32, .f32⟩
  | 75 => ⟨S_, .i32⟩
  | 76 => ⟨S1, .i32⟩
  | 77 => ⟨S128, .f32⟩
  | 78 => ⟨S_, .f32⟩
  | 79 => ⟨S128, .f32⟩
  | 80 => ⟨S1x32, .f32⟩
  | 81 => ⟨S32, .f32⟩
  | 82 => ⟨S_, .i32⟩
  | 83 => ⟨S1, .i32⟩
  | 84 => ⟨S128, .f32⟩
  | 85 => ⟨S_, .f32⟩
  | 86 => ⟨S128, .f32⟩
  | 87 => ⟨S1x32, .f32⟩
  | 88 => ⟨S32, .f32⟩
  | 89 => ⟨S_, .i32⟩
  | 90 => ⟨S1, .i32⟩
  | 91 => ⟨S128, .f32⟩
  | 92 => ⟨S_, .f32⟩
  | 93 => ⟨S128, .f32⟩
  | 94 => ⟨S1x32, .f32⟩
  | 95 => ⟨S32, .f32⟩
  | 96 => ⟨S_, .i32⟩
  | 97 => ⟨S1, .i32⟩
  | 98 => ⟨S128, .f32⟩
  | 99 => ⟨S_, .f32⟩
  | 100 => ⟨S128, .f32⟩
  | 101 => ⟨S1x32, .f32⟩
  | 102 => ⟨S32, .f32⟩
  | 103 => ⟨S_, .i32⟩
  | 104 => ⟨S1, .i32⟩
  | 105 => ⟨S128, .f32⟩
  | 106 => ⟨S_, .f32⟩
  | 107 => ⟨S128, .f32⟩
  | 108 => ⟨S1x32, .f32⟩
  | 109 => ⟨S32, .f32⟩
  | 110 => ⟨S_, .i32⟩
  | 111 => ⟨S1, .i32⟩
  | 112 => ⟨S128, .f32⟩
  | 113 => ⟨S_, .f32⟩
  | 114 => ⟨S128, .f32⟩
  | 115 => ⟨S1x32, .f32⟩
  | 116 => ⟨S32, .f32⟩
  | 117 => ⟨S_, .i32⟩
  | 118 => ⟨S1, .i32⟩
  | 119 => ⟨S128, .f32⟩
  | 120 => ⟨S_, .f32⟩
  | 121 => ⟨S128, .f32⟩
  | 122 => ⟨S1x32, .f32⟩
  | 123 => ⟨S32, .f32⟩
  | 124 => ⟨S_, .i32⟩
  | 125 => ⟨S1, .i32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S1x32, .f32⟩
  | 2 => ⟨S32, .f32⟩
  | 3 => ⟨S_, .i32⟩
  | 4 => ⟨S1, .i32⟩
  | 5 => ⟨S128, .f32⟩
  | 6 => ⟨S_, .f32⟩
  | 7 => ⟨S128, .f32⟩
  | 8 => ⟨S1x32, .f32⟩
  | 9 => ⟨S32, .f32⟩
  | 10 => ⟨S_, .i32⟩
  | 11 => ⟨S1, .i32⟩
  | 12 => ⟨S128, .f32⟩
  | 13 => ⟨S_, .f32⟩
  | 14 => ⟨S128, .f32⟩
  | 15 => ⟨S1x32, .f32⟩
  | 16 => ⟨S32, .f32⟩
  | 17 => ⟨S_, .i32⟩
  | 18 => ⟨S1, .i32⟩
  | 19 => ⟨S128, .f32⟩
  | 20 => ⟨S_, .f32⟩
  | 21 => ⟨S128, .f32⟩
  | 22 => ⟨S1x32, .f32⟩
  | 23 => ⟨S32, .f32⟩
  | 24 => ⟨S_, .i32⟩
  | 25 => ⟨S1, .i32⟩
  | 26 => ⟨S128, .f32⟩
  | 27 => ⟨S_, .f32⟩
  | 28 => ⟨S128, .f32⟩
  | 29 => ⟨S1x32, .f32⟩
  | 30 => ⟨S32, .f32⟩
  | 31 => ⟨S_, .i32⟩
  | 32 => ⟨S1, .i32⟩
  | 33 => ⟨S128, .f32⟩
  | 34 => ⟨S_, .f32⟩
  | 35 => ⟨S128, .f32⟩
  | 36 => ⟨S1x32, .f32⟩
  | 37 => ⟨S32, .f32⟩
  | 38 => ⟨S_, .i32⟩
  | 39 => ⟨S1, .i32⟩
  | 40 => ⟨S128, .f32⟩
  | 41 => ⟨S_, .f32⟩
  | 42 => ⟨S128, .f32⟩
  | 43 => ⟨S1x32, .f32⟩
  | 44 => ⟨S32, .f32⟩
  | 45 => ⟨S_, .i32⟩
  | 46 => ⟨S1, .i32⟩
  | 47 => ⟨S128, .f32⟩
  | 48 => ⟨S_, .f32⟩
  | 49 => ⟨S128, .f32⟩
  | 50 => ⟨S1x32, .f32⟩
  | 51 => ⟨S32, .f32⟩
  | 52 => ⟨S_, .i32⟩
  | 53 => ⟨S1, .i32⟩
  | 54 => ⟨S128, .f32⟩
  | 55 => ⟨S_, .f32⟩
  | 56 => ⟨S128, .f32⟩
  | 57 => ⟨S1x32, .f32⟩
  | 58 => ⟨S32, .f32⟩
  | 59 => ⟨S_, .i32⟩
  | 60 => ⟨S1, .i32⟩
  | 61 => ⟨S128, .f32⟩
  | 62 => ⟨S_, .f32⟩
  | 63 => ⟨S128, .f32⟩
  | 64 => ⟨S_, .f32⟩
  | 65 => ⟨S128, .f32⟩
  | 66 => ⟨S_, .f32⟩
  | 67 => ⟨S128, .f32⟩
  | 68 => ⟨S_, .f32⟩
  | 69 => ⟨S128, .f32⟩
  | 70 => ⟨S_, .f32⟩
  | 71 => ⟨S128, .f32⟩
  | 72 => ⟨S_, .f32⟩
  | 73 => ⟨S128, .f32⟩
  | 74 => ⟨S_, .f32⟩
  | 75 => ⟨S128, .f32⟩
  | 76 => ⟨S_, .f32⟩
  | 77 => ⟨S128, .f32⟩
  | 78 => ⟨S128x1, .f32⟩
  | 79 => ⟨S128x1, .f32⟩
  | 80 => ⟨S128x1, .f32⟩
  | 81 => ⟨S128x1, .f32⟩
  | 82 => ⟨S128x1, .f32⟩
  | 83 => ⟨S128x1, .f32⟩
  | 84 => ⟨S128x1, .f32⟩
  | 85 => ⟨S128x1, .f32⟩
  | 86 => ⟨S128x1, .f32⟩
  | 87 => ⟨S128x1, .f32⟩
  | 88 => ⟨S128x1, .f32⟩
  | 89 => ⟨S128x1, .f32⟩
  | 90 => ⟨S128x1, .f32⟩
  | 91 => ⟨S128x1, .f32⟩
  | 92 => ⟨S128x1, .f32⟩
  | 93 => ⟨S128x1, .f32⟩
  | 94 => ⟨S128x16, .f32⟩
  | 95 => ⟨S128x1, .f32⟩
  | 96 => ⟨S128x1, .f32⟩
  | 97 => ⟨S128x1, .f32⟩
  | 98 => ⟨S128x1, .f32⟩
  | 99 => ⟨S128x1, .f32⟩
  | 100 => ⟨S128x1, .f32⟩
  | 101 => ⟨S128x1, .f32⟩
  | 102 => ⟨S128x1, .f32⟩
  | 103 => ⟨S128x1, .f32⟩
  | 104 => ⟨S128x1, .f32⟩
  | 105 => ⟨S128x1, .f32⟩
  | 106 => ⟨S128x1, .f32⟩
  | 107 => ⟨S128x1, .f32⟩
  | 108 => ⟨S128x1, .f32⟩
  | 109 => ⟨S128x1, .f32⟩
  | 110 => ⟨S128x1, .f32⟩
  | 111 => ⟨S128x16, .f32⟩
  | 112 => ⟨S128x128, .f32⟩
  | 113 => ⟨S1x128, .f32⟩
  | 114 => ⟨S100000x128, .f32⟩
  | 115 => ⟨S100000x16, .f32⟩
  | 116 => ⟨S128x128, .f32⟩
  | 117 => ⟨S1x128, .f32⟩
  | 118 => ⟨S10000x128, .f32⟩
  | 119 => ⟨S10000x16, .f32⟩
  | 120 => ⟨S4x1, .f32⟩
  | 121 => ⟨S4, .f32⟩
  | 122 => ⟨S_, .i32⟩
  | 123 => ⟨S30000, .i32⟩
  | 124 => ⟨S30000, .i1⟩
  | 125 => ⟨S_, .i32⟩
  | 126 => ⟨S30000, .i32⟩
  | 127 => ⟨S30000, .i32⟩
  | _ => ⟨S100000x128, .f32⟩

abbrev hbmTy0_2 (i : Nat) : BufTy := match i % 128 with
  | 0 => ⟨S30000, .i32⟩
  | 1 => ⟨S30000x1, .i32⟩
  | 2 => ⟨S_, .i32⟩
  | 3 => ⟨S30000x1, .i32⟩
  | 4 => ⟨S30000x2, .i32⟩
  | 5 => ⟨S30000x4, .f32⟩
  | 6 => ⟨S_, .i32⟩
  | 7 => ⟨S30000, .i32⟩
  | 8 => ⟨S30000, .i1⟩
  | 9 => ⟨S_, .i32⟩
  | 10 => ⟨S30000, .i32⟩
  | 11 => ⟨S30000, .i32⟩
  | 12 => ⟨S30000, .i32⟩
  | 13 => ⟨S30000x1, .i32⟩
  | 14 => ⟨S_, .i32⟩
  | 15 => ⟨S30000x1, .i32⟩
  | 16 => ⟨S30000x2, .i32⟩
  | 17 => ⟨S30000x4, .f32⟩
  | 18 => ⟨S30000x4, .f32⟩
  | 19 => ⟨S1x4, .f32⟩
  | 20 => ⟨S30000x4, .f32⟩
  | 21 => ⟨S30000x4, .f32⟩
  | 22 => ⟨S30000x4, .f32⟩
  | 23 => ⟨S30000x4, .f32⟩
  | 24 => ⟨S_, .f32⟩
  | 25 => ⟨S30000x4, .f32⟩
  | 26 => ⟨S30000x4, .i1⟩
  | 27 => ⟨S_, .f32⟩
  | 28 => ⟨S30000x4, .f32⟩
  | 29 => ⟨S30000x4, .f32⟩
  | 30 => ⟨S30000x4, .f32⟩
  | 31 => ⟨S_, .f32⟩
  | 32 => ⟨S_, .f32⟩
  | 33 => ⟨S_, .f32⟩
  | 34 => ⟨S30000x4, .f32⟩
  | 35 => ⟨S30000x4, .f32⟩
  | 36 => ⟨S_, .f32⟩
  | 37 => ⟨S30000x4, .f32⟩
  | 38 => ⟨S30000x4, .f32⟩
  | 39 => ⟨S30000x4, .f32⟩
  | 40 => ⟨S_, .f32⟩
  | 41 => ⟨S100000x4, .f32⟩
  | 42 => ⟨S_, .i32⟩
  | 43 => ⟨S30000, .i32⟩
  | 44 => ⟨S30000, .i1⟩
  | 45 => ⟨S_, .i32⟩
  | 46 => ⟨S30000, .i32⟩
  | 47 => ⟨S30000, .i32⟩
  | 48 => ⟨S30000, .i32⟩
  | 49 => ⟨S30000x1, .i32⟩
  | 50 => ⟨S100000x4, .f32⟩
  | 51 => ⟨S_, .i32⟩
  | 52 => ⟨S30000, .i32⟩
  | 53 => ⟨S30000, .i1⟩
  | 54 => ⟨S_, .i32⟩
  | 55 => ⟨S30000, .i32⟩
  | 56 => ⟨S30000, .i32⟩
  | 57 => ⟨S30000, .i32⟩
  | 58 => ⟨S30000x1, .i32⟩
  | 59 => ⟨S30000x4, .f32⟩
  | 60 => ⟨S_, .f32⟩
  | 61 => ⟨S30000x4, .f32⟩
  | 62 => ⟨S30000x4, .f32⟩
  | 63 => ⟨S30000x4, .f32⟩
  | 64 => ⟨S_, .i32⟩
  | 65 => ⟨S30000, .i32⟩
  | 66 => ⟨S30000, .i1⟩
  | 67 => ⟨S_, .i32⟩
  | 68 => ⟨S30000, .i32⟩
  | 69 => ⟨S30000, .i32⟩
  | 70 => ⟨S30000, .i32⟩
  | 71 => ⟨S30000x1, .i32⟩
  | 72 => ⟨S30000x128, .f32⟩
  | 73 => ⟨S30000x4x32, .f32⟩
  | 74 => ⟨S30000x128, .f32⟩
  | 75 => ⟨S30000x128, .f32⟩
  | 76 => ⟨S_, .f32⟩
  | 77 => ⟨S100000x128, .f32⟩
  | 78 => ⟨S_, .i32⟩
  | 79 => ⟨S30000, .i32⟩
  | 80 => ⟨S30000, .i1⟩
  | 81 => ⟨S_, .i32⟩
  | 82 => ⟨S30000, .i32⟩
  | 83 => ⟨S30000, .i32⟩
  | 84 => ⟨S30000, .i32⟩
  | 85 => ⟨S30000x1, .i32⟩
  | 86 => ⟨S100000x128, .f32⟩
  | 87 => ⟨S4x1, .f32⟩
  | 88 => ⟨S4, .f32⟩
  | 89 => ⟨S_, .i32⟩
  | 90 => ⟨S30000, .i32⟩
  | 91 => ⟨S30000, .i1⟩
  | 92 => ⟨S_, .i32⟩
  | 93 => ⟨S30000, .i32⟩
  | 94 => ⟨S30000, .i32⟩
  | 95 => ⟨S30000, .i32⟩
  | 96 => ⟨S30000x1, .i32⟩
  | 97 => ⟨S_, .i32⟩
  | 98 => ⟨S30000x1, .i32⟩
  | 99 => ⟨S30000x2, .i32⟩
  | 100 => ⟨S30000x4, .f32⟩
  | 101 => ⟨S_, .i32⟩
  | 102 => ⟨S30000, .i32⟩
  | 103 => ⟨S30000, .i1⟩
  | 104 => ⟨S_, .i32⟩
  | 105 => ⟨S30000, .i32⟩
  | 106 => ⟨S30000, .i32⟩
  | 107 => ⟨S30000, .i32⟩
  | 108 => ⟨S30000x1, .i32⟩
  | 109 => ⟨S_, .i32⟩
  | 110 => ⟨S30000x1, .i32⟩
  | 111 => ⟨S30000x2, .i32⟩
  | 112 => ⟨S30000x4, .f32⟩
  | 113 => ⟨S30000x4, .f32⟩
  | 114 => ⟨S1x4, .f32⟩
  | 115 => ⟨S30000x4, .f32⟩
  | 116 => ⟨S30000x4, .f32⟩
  | 117 => ⟨S30000x4, .f32⟩
  | 118 => ⟨S30000x4, .f32⟩
  | 119 => ⟨S_, .f32⟩
  | 120 => ⟨S30000x4, .f32⟩
  | 121 => ⟨S30000x4, .i1⟩
  | 122 => ⟨S_, .f32⟩
  | 123 => ⟨S30000x4, .f32⟩
  | 124 => ⟨S30000x4, .f32⟩
  | 125 => ⟨S30000x4, .f32⟩
  | 126 => ⟨S_, .f32⟩
  | 127 => ⟨S_, .f32⟩
  | _ => ⟨S100000x128, .f32⟩

abbrev hbmTy0_3 (i : Nat) : BufTy := match i % 128 with
  | 0 => ⟨S_, .f32⟩
  | 1 => ⟨S30000x4, .f32⟩
  | 2 => ⟨S30000x4, .f32⟩
  | 3 => ⟨S_, .f32⟩
  | 4 => ⟨S30000x4, .f32⟩
  | 5 => ⟨S30000x4, .f32⟩
  | 6 => ⟨S30000x4, .f32⟩
  | 7 => ⟨S_, .f32⟩
  | 8 => ⟨S100000x4, .f32⟩
  | 9 => ⟨S_, .i32⟩
  | 10 => ⟨S30000, .i32⟩
  | 11 => ⟨S30000, .i1⟩
  | 12 => ⟨S_, .i32⟩
  | 13 => ⟨S30000, .i32⟩
  | 14 => ⟨S30000, .i32⟩
  | 15 => ⟨S30000, .i32⟩
  | 16 => ⟨S30000x1, .i32⟩
  | 17 => ⟨S100000x4, .f32⟩
  | 18 => ⟨S_, .i32⟩
  | 19 => ⟨S30000, .i32⟩
  | 20 => ⟨S30000, .i1⟩
  | 21 => ⟨S_, .i32⟩
  | 22 => ⟨S30000, .i32⟩
  | 23 => ⟨S30000, .i32⟩
  | 24 => ⟨S30000, .i32⟩
  | 25 => ⟨S30000x1, .i32⟩
  | 26 => ⟨S30000x4, .f32⟩
  | 27 => ⟨S_, .f32⟩
  | 28 => ⟨S30000x4, .f32⟩
  | 29 => ⟨S30000x4, .f32⟩
  | 30 => ⟨S30000x4, .f32⟩
  | 31 => ⟨S_, .i32⟩
  | 32 => ⟨S30000, .i32⟩
  | 33 => ⟨S30000, .i1⟩
  | 34 => ⟨S_, .i32⟩
  | 35 => ⟨S30000, .i32⟩
  | 36 => ⟨S30000, .i32⟩
  | 37 => ⟨S30000, .i32⟩
  | 38 => ⟨S30000x1, .i32⟩
  | 39 => ⟨S30000x128, .f32⟩
  | 40 => ⟨S30000x4x32, .f32⟩
  | 41 => ⟨S30000x128, .f32⟩
  | 42 => ⟨S30000x128, .f32⟩
  | 43 => ⟨S_, .f32⟩
  | 44 => ⟨S100000x128, .f32⟩
  | 45 => ⟨S_, .i32⟩
  | 46 => ⟨S30000, .i32⟩
  | 47 => ⟨S30000, .i1⟩
  | 48 => ⟨S_, .i32⟩
  | 49 => ⟨S30000, .i32⟩
  | 50 => ⟨S30000, .i32⟩
  | 51 => ⟨S30000, .i32⟩
  | 52 => ⟨S30000x1, .i32⟩
  | 53 => ⟨S100000x128, .f32⟩
  | 54 => ⟨S100000x128, .f32⟩
  | 55 => ⟨S4x1, .f32⟩
  | 56 => ⟨S4, .f32⟩
  | 57 => ⟨S_, .i32⟩
  | 58 => ⟨S30000, .i32⟩
  | 59 => ⟨S30000, .i1⟩
  | 60 => ⟨S_, .i32⟩
  | 61 => ⟨S30000, .i32⟩
  | 62 => ⟨S30000, .i32⟩
  | 63 => ⟨S30000, .i32⟩
  | 64 => ⟨S30000x1, .i32⟩
  | 65 => ⟨S_, .i32⟩
  | 66 => ⟨S30000x1, .i32⟩
  | 67 => ⟨S30000x2, .i32⟩
  | 68 => ⟨S30000x4, .f32⟩
  | 69 => ⟨S_, .i32⟩
  | 70 => ⟨S30000, .i32⟩
  | 71 => ⟨S30000, .i1⟩
  | 72 => ⟨S_, .i32⟩
  | 73 => ⟨S30000, .i32⟩
  | 74 => ⟨S30000, .i32⟩
  | 75 => ⟨S30000, .i32⟩
  | 76 => ⟨S30000x1, .i32⟩
  | 77 => ⟨S_, .i32⟩
  | 78 => ⟨S30000x1, .i32⟩
  | 79 => ⟨S30000x2, .i32⟩
  | 80 => ⟨S30000x4, .f32⟩
  | 81 => ⟨S30000x4, .f32⟩
  | 82 => ⟨S1x4, .f32⟩
  | 83 => ⟨S30000x4, .f32⟩
  | 84 => ⟨S30000x4, .f32⟩
  | 85 => ⟨S30000x4, .f32⟩
  | 86 => ⟨S30000x4, .f32⟩
  | 87 => ⟨S_, .f32⟩
  | 88 => ⟨S30000x4, .f32⟩
  | 89 => ⟨S30000x4, .i1⟩
  | 90 => ⟨S_, .f32⟩
  | 91 => ⟨S30000x4, .f32⟩
  | 92 => ⟨S30000x4, .f32⟩
  | 93 => ⟨S30000x4, .f32⟩
  | 94 => ⟨S_, .f32⟩
  | 95 => ⟨S_, .f32⟩
  | 96 => ⟨S_, .f32⟩
  | 97 => ⟨S30000x4, .f32⟩
  | 98 => ⟨S30000x4, .f32⟩
  | 99 => ⟨S_, .f32⟩
  | 100 => ⟨S30000x4, .f32⟩
  | 101 => ⟨S30000x4, .f32⟩
  | 102 => ⟨S30000x4, .f32⟩
  | 103 => ⟨S_, .f32⟩
  | 104 => ⟨S10000x4, .f32⟩
  | 105 => ⟨S_, .i32⟩
  | 106 => ⟨S30000, .i32⟩
  | 107 => ⟨S30000, .i1⟩
  | 108 => ⟨S_, .i32⟩
  | 109 => ⟨S30000, .i32⟩
  | 110 => ⟨S30000, .i32⟩
  | 111 => ⟨S30000, .i32⟩
  | 112 => ⟨S30000x1, .i32⟩
  | 113 => ⟨S10000x4, .f32⟩
  | 114 => ⟨S_, .i32⟩
  | 115 => ⟨S30000, .i32⟩
  | 116 => ⟨S30000, .i1⟩
  | 117 => ⟨S_, .i32⟩
  | 118 => ⟨S30000, .i32⟩
  | 119 => ⟨S30000, .i32⟩
  | 120 => ⟨S30000, .i32⟩
  | 121 => ⟨S30000x1, .i32⟩
  | 122 => ⟨S30000x4, .f32⟩
  | 123 => ⟨S_, .f32⟩
  | 124 => ⟨S30000x4, .f32⟩
  | 125 => ⟨S30000x4, .f32⟩
  | 126 => ⟨S30000x4, .f32⟩
  | 127 => ⟨S_, .i32⟩
  | _ => ⟨S100000x128, .f32⟩

abbrev hbmTy0_4 (i : Nat) : BufTy := match i % 128 with
  | 0 => ⟨S30000, .i32⟩
  | 1 => ⟨S30000, .i1⟩
  | 2 => ⟨S_, .i32⟩
  | 3 => ⟨S30000, .i32⟩
  | 4 => ⟨S30000, .i32⟩
  | 5 => ⟨S30000, .i32⟩
  | 6 => ⟨S30000x1, .i32⟩
  | 7 => ⟨S30000x128, .f32⟩
  | 8 => ⟨S30000x4x32, .f32⟩
  | 9 => ⟨S30000x128, .f32⟩
  | 10 => ⟨S30000x128, .f32⟩
  | 11 => ⟨S_, .f32⟩
  | 12 => ⟨S10000x128, .f32⟩
  | 13 => ⟨S_, .i32⟩
  | 14 => ⟨S30000, .i32⟩
  | 15 => ⟨S30000, .i1⟩
  | 16 => ⟨S_, .i32⟩
  | 17 => ⟨S30000, .i32⟩
  | 18 => ⟨S30000, .i32⟩
  | 19 => ⟨S30000, .i32⟩
  | 20 => ⟨S30000x1, .i32⟩
  | 21 => ⟨S10000x128, .f32⟩
  | 22 => ⟨S1x128, .f32⟩
  | 23 => ⟨S1x128, .f32⟩
  | 24 => ⟨S100000x128, .f32⟩
  | 25 => ⟨S1x128, .f32⟩
  | 26 => ⟨S1x128, .f32⟩
  | 27 => ⟨S10000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x16, .f32⟩
  | .local _ .vmem, ⟨5, _⟩ => ⟨S2000x128, .f32⟩
  | .local _ .vmem, ⟨6, _⟩ => ⟨S2000x128, .f32⟩
  | .local _ .vmem, ⟨7, _⟩ => ⟨S2000x16, .f32⟩
  | .local _ .vmem, ⟨8, _⟩ => ⟨S2000x16, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S128x16, .f32⟩
  | .local _ .vmem, ⟨14, _⟩ => ⟨S2000x128, .f32⟩
  | .local _ .vmem, ⟨15, _⟩ => ⟨S2000x128, .f32⟩
  | .local _ .vmem, ⟨16, _⟩ => ⟨S2000x16, .f32⟩
  | .local _ .vmem, ⟨17, _⟩ => ⟨S2000x16, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S1x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v9 : Ref sig .tc := ⟨.hbm, 35, rfl⟩
abbrev main_cst_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_cst_4 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_cst_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_cst_8 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_9 : Ref sig .tc := ⟨.hbm, 61, rfl⟩
abbrev main_v28 : Ref sig .tc := ⟨.hbm, 62, rfl⟩
abbrev main_v29 : Ref sig .tc := ⟨.hbm, 63, rfl⟩
abbrev main_cst_10 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_11 : Ref sig .tc := ⟨.hbm, 68, rfl⟩
abbrev main_v33 : Ref sig .tc := ⟨.hbm, 69, rfl⟩
abbrev main_v34 : Ref sig .tc := ⟨.hbm, 70, rfl⟩
abbrev main_cst_12 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_13 : Ref sig .tc := ⟨.hbm, 75, rfl⟩
abbrev main_v38 : Ref sig .tc := ⟨.hbm, 76, rfl⟩
abbrev main_v39 : Ref sig .tc := ⟨.hbm, 77, rfl⟩
abbrev main_cst_14 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_15 : Ref sig .tc := ⟨.hbm, 82, rfl⟩
abbrev main_v43 : Ref sig .tc := ⟨.hbm, 83, rfl⟩
abbrev main_v44 : Ref sig .tc := ⟨.hbm, 84, rfl⟩
abbrev main_cst_16 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_17 : Ref sig .tc := ⟨.hbm, 89, rfl⟩
abbrev main_v48 : Ref sig .tc := ⟨.hbm, 90, rfl⟩
abbrev main_v49 : Ref sig .tc := ⟨.hbm, 91, rfl⟩
abbrev main_cst_18 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_19 : Ref sig .tc := ⟨.hbm, 96, rfl⟩
abbrev main_v53 : Ref sig .tc := ⟨.hbm, 97, rfl⟩
abbrev main_v54 : Ref sig .tc := ⟨.hbm, 98, rfl⟩
abbrev main_cst_20 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_c_21 : Ref sig .tc := ⟨.hbm, 103, rfl⟩
abbrev main_v58 : Ref sig .tc := ⟨.hbm, 104, rfl⟩
abbrev main_v59 : Ref sig .tc := ⟨.hbm, 105, rfl⟩
abbrev main_cst_22 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_23 : Ref sig .tc := ⟨.hbm, 110, rfl⟩
abbrev main_v63 : Ref sig .tc := ⟨.hbm, 111, rfl⟩
abbrev main_v64 : Ref sig .tc := ⟨.hbm, 112, rfl⟩
abbrev main_cst_24 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_25 : Ref sig .tc := ⟨.hbm, 117, rfl⟩
abbrev main_v68 : Ref sig .tc := ⟨.hbm, 118, rfl⟩
abbrev main_v69 : Ref sig .tc := ⟨.hbm, 119, rfl⟩
abbrev main_cst_26 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_27 : Ref sig .tc := ⟨.hbm, 124, rfl⟩
abbrev main_v73 : Ref sig .tc := ⟨.hbm, 125, rfl⟩
abbrev main_v74 : Ref sig .tc := ⟨.hbm, 126, rfl⟩
abbrev main_cst_28 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_c_29 : Ref sig .tc := ⟨.hbm, 131, rfl⟩
abbrev main_v78 : Ref sig .tc := ⟨.hbm, 132, rfl⟩
abbrev main_v79 : Ref sig .tc := ⟨.hbm, 133, rfl⟩
abbrev main_cst_30 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_31 : Ref sig .tc := ⟨.hbm, 138, rfl⟩
abbrev main_v83 : Ref sig .tc := ⟨.hbm, 139, rfl⟩
abbrev main_v84 : Ref sig .tc := ⟨.hbm, 140, rfl⟩
abbrev main_cst_32 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_c_33 : Ref sig .tc := ⟨.hbm, 145, rfl⟩
abbrev main_v88 : Ref sig .tc := ⟨.hbm, 146, rfl⟩
abbrev main_v89 : Ref sig .tc := ⟨.hbm, 147, rfl⟩
abbrev main_cst_34 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_c_35 : Ref sig .tc := ⟨.hbm, 152, rfl⟩
abbrev main_v93 : Ref sig .tc := ⟨.hbm, 153, rfl⟩
abbrev main_v94 : Ref sig .tc := ⟨.hbm, 154, rfl⟩
abbrev main_cst_36 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_c_37 : Ref sig .tc := ⟨.hbm, 159, rfl⟩
abbrev main_v98 : Ref sig .tc := ⟨.hbm, 160, rfl⟩
abbrev main_v99 : Ref sig .tc := ⟨.hbm, 161, rfl⟩
abbrev main_cst_38 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_39 : Ref sig .tc := ⟨.hbm, 166, rfl⟩
abbrev main_v103 : Ref sig .tc := ⟨.hbm, 167, rfl⟩
abbrev main_v104 : Ref sig .tc := ⟨.hbm, 168, rfl⟩
abbrev main_cst_40 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_c_41 : Ref sig .tc := ⟨.hbm, 173, rfl⟩
abbrev main_v108 : Ref sig .tc := ⟨.hbm, 174, rfl⟩
abbrev main_v109 : Ref sig .tc := ⟨.hbm, 175, rfl⟩
abbrev main_cst_42 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_c_43 : Ref sig .tc := ⟨.hbm, 180, rfl⟩
abbrev main_v113 : Ref sig .tc := ⟨.hbm, 181, rfl⟩
abbrev main_v114 : Ref sig .tc := ⟨.hbm, 182, rfl⟩
abbrev main_cst_44 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_c_45 : Ref sig .tc := ⟨.hbm, 187, rfl⟩
abbrev main_v118 : Ref sig .tc := ⟨.hbm, 188, rfl⟩
abbrev main_v119 : Ref sig .tc := ⟨.hbm, 189, rfl⟩
abbrev main_cst_46 : Ref sig .tc := ⟨.hbm, 190, rfl⟩
abbrev main_v120 : Ref sig .tc := ⟨.hbm, 191, rfl⟩
abbrev main_cst_47 : Ref sig .tc := ⟨.hbm, 192, rfl⟩
abbrev main_v121 : Ref sig .tc := ⟨.hbm, 193, rfl⟩
abbrev main_cst_48 : Ref sig .tc := ⟨.hbm, 194, rfl⟩
abbrev main_v122 : Ref sig .tc := ⟨.hbm, 195, rfl⟩
abbrev main_cst_49 : Ref sig .tc := ⟨.hbm, 196, rfl⟩
abbrev main_v123 : Ref sig .tc := ⟨.hbm, 197, rfl⟩
abbrev main_cst_50 : Ref sig .tc := ⟨.hbm, 198, rfl⟩
abbrev main_v124 : Ref sig .tc := ⟨.hbm, 199, rfl⟩
abbrev main_cst_51 : Ref sig .tc := ⟨.hbm, 200, rfl⟩
abbrev main_v125 : Ref sig .tc := ⟨.hbm, 201, rfl⟩
abbrev main_cst_52 : Ref sig .tc := ⟨.hbm, 202, rfl⟩
abbrev main_v126 : Ref sig .tc := ⟨.hbm, 203, rfl⟩
abbrev main_cst_53 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164_0 : Ref sig .tc := ⟨.hbm, 242, rfl⟩
abbrev main_v164_1 : Ref sig .tc := ⟨.hbm, 243, rfl⟩
abbrev main_v165 : Ref sig .tc := ⟨.hbm, 244, rfl⟩
abbrev main_v166 : Ref sig .tc := ⟨.hbm, 245, rfl⟩
abbrev main_v167_0 : Ref sig .tc := ⟨.hbm, 246, rfl⟩
abbrev main_v167_1 : Ref sig .tc := ⟨.hbm, 247, rfl⟩
abbrev main_v168 : Ref sig .tc := ⟨.hbm, 248, rfl⟩
abbrev main_v169 : Ref sig .tc := ⟨.hbm, 249, rfl⟩
abbrev main_c_54 : Ref sig .tc := ⟨.hbm, 250, rfl⟩
abbrev main_v170 : Ref sig .tc := ⟨.hbm, 251, rfl⟩
abbrev main_v171 : Ref sig .tc := ⟨.hbm, 252, rfl⟩
abbrev main_c_55 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_c_56 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_c_57 : Ref sig .tc := ⟨.hbm, 262, rfl⟩
abbrev main_v179 : Ref sig .tc := ⟨.hbm, 263, rfl⟩
abbrev main_v180 : Ref sig .tc := ⟨.hbm, 264, rfl⟩
abbrev main_c_58 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_c_59 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_60 : Ref sig .tc := ⟨.hbm, 280, rfl⟩
abbrev main_v194 : Ref sig .tc := ⟨.hbm, 281, rfl⟩
abbrev main_v195 : Ref sig .tc := ⟨.hbm, 282, rfl⟩
abbrev main_cst_61 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_cst_62 : Ref sig .tc := ⟨.hbm, 287, rfl⟩
abbrev main_cst_63 : Ref sig .tc := ⟨.hbm, 288, rfl⟩
abbrev main_call1_v0 : Ref sig .tc := ⟨.hbm, 289, rfl⟩
abbrev main_call1_v1 : Ref sig .tc := ⟨.hbm, 290, rfl⟩
abbrev main_call1_v2 : Ref sig .tc := ⟨.hbm, 291, rfl⟩
abbrev main_call1_v3 : Ref sig .tc := ⟨.hbm, 292, rfl⟩
abbrev main_call1_v4 : Ref sig .tc := ⟨.hbm, 293, rfl⟩
abbrev main_v199 : Ref sig .tc := ⟨.hbm, 294, rfl⟩
abbrev main_v200 : Ref sig .tc := ⟨.hbm, 295, rfl⟩
abbrev main_cst_64 : Ref sig .tc := ⟨.hbm, 296, rfl⟩
abbrev main_v201 : Ref sig .tc := ⟨.hbm, 297, rfl⟩
abbrev main_c_65 : Ref sig .tc := ⟨.hbm, 298, rfl⟩
abbrev main_v202 : Ref sig .tc := ⟨.hbm, 299, rfl⟩
abbrev main_v203 : Ref sig .tc := ⟨.hbm, 300, rfl⟩
abbrev main_c_66 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_c_67 : Ref sig .tc := ⟨.hbm, 307, rfl⟩
abbrev main_v209 : Ref sig .tc := ⟨.hbm, 308, rfl⟩
abbrev main_v210 : Ref sig .tc := ⟨.hbm, 309, rfl⟩
abbrev main_c_68 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_cst_69 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_c_70 : Ref sig .tc := ⟨.hbm, 320, rfl⟩
abbrev main_v219 : Ref sig .tc := ⟨.hbm, 321, rfl⟩
abbrev main_v220 : Ref sig .tc := ⟨.hbm, 322, rfl⟩
abbrev main_c_71 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_cst_72 : Ref sig .tc := ⟨.hbm, 332, rfl⟩
abbrev main_v229 : Ref sig .tc := ⟨.hbm, 333, rfl⟩
abbrev main_c_73 : Ref sig .tc := ⟨.hbm, 334, rfl⟩
abbrev main_v230 : Ref sig .tc := ⟨.hbm, 335, rfl⟩
abbrev main_v231 : Ref sig .tc := ⟨.hbm, 336, rfl⟩
abbrev main_c_74 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_c_75 : Ref sig .tc := ⟨.hbm, 345, rfl⟩
abbrev main_v239 : Ref sig .tc := ⟨.hbm, 346, rfl⟩
abbrev main_v240 : Ref sig .tc := ⟨.hbm, 347, rfl⟩
abbrev main_c_76 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_c_77 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_c_78 : Ref sig .tc := ⟨.hbm, 357, rfl⟩
abbrev main_v248 : Ref sig .tc := ⟨.hbm, 358, rfl⟩
abbrev main_v249 : Ref sig .tc := ⟨.hbm, 359, rfl⟩
abbrev main_c_79 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_c_80 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_cst_81 : Ref sig .tc := ⟨.hbm, 375, rfl⟩
abbrev main_v263 : Ref sig .tc := ⟨.hbm, 376, rfl⟩
abbrev main_v264 : Ref sig .tc := ⟨.hbm, 377, rfl⟩
abbrev main_cst_82 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_cst_83 : Ref sig .tc := ⟨.hbm, 382, rfl⟩
abbrev main_cst_84 : Ref sig .tc := ⟨.hbm, 383, rfl⟩
abbrev main_call3_v0 : Ref sig .tc := ⟨.hbm, 384, rfl⟩
abbrev main_call3_v1 : Ref sig .tc := ⟨.hbm, 385, rfl⟩
abbrev main_call3_v2 : Ref sig .tc := ⟨.hbm, 386, rfl⟩
abbrev main_call3_v3 : Ref sig .tc := ⟨.hbm, 387, rfl⟩
abbrev main_call3_v4 : Ref sig .tc := ⟨.hbm, 388, rfl⟩
abbrev main_v268 : Ref sig .tc := ⟨.hbm, 389, rfl⟩
abbrev main_v269 : Ref sig .tc := ⟨.hbm, 390, rfl⟩
abbrev main_cst_85 : Ref sig .tc := ⟨.hbm, 391, rfl⟩
abbrev main_v270 : Ref sig .tc := ⟨.hbm, 392, rfl⟩
abbrev main_c_86 : Ref sig .tc := ⟨.hbm, 393, rfl⟩
abbrev main_v271 : Ref sig .tc := ⟨.hbm, 394, rfl⟩
abbrev main_v272 : Ref sig .tc := ⟨.hbm, 395, rfl⟩
abbrev main_c_87 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_c_88 : Ref sig .tc := ⟨.hbm, 402, rfl⟩
abbrev main_v278 : Ref sig .tc := ⟨.hbm, 403, rfl⟩
abbrev main_v279 : Ref sig .tc := ⟨.hbm, 404, rfl⟩
abbrev main_c_89 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_cst_90 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_c_91 : Ref sig .tc := ⟨.hbm, 415, rfl⟩
abbrev main_v288 : Ref sig .tc := ⟨.hbm, 416, rfl⟩
abbrev main_v289 : Ref sig .tc := ⟨.hbm, 417, rfl⟩
abbrev main_c_92 : Ref sig .tc := ⟨.hbm, 418, rfl⟩
abbrev main_v290 : Ref sig .tc := ⟨.hbm, 419, rfl⟩
abbrev main_v291 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_v295 : Ref sig .tc := ⟨.hbm, 424, rfl⟩
abbrev main_v296 : Ref sig .tc := ⟨.hbm, 425, rfl⟩
abbrev main_v297 : Ref sig .tc := ⟨.hbm, 426, rfl⟩
abbrev main_cst_93 : Ref sig .tc := ⟨.hbm, 427, rfl⟩
abbrev main_v298 : Ref sig .tc := ⟨.hbm, 428, rfl⟩
abbrev main_c_94 : Ref sig .tc := ⟨.hbm, 429, rfl⟩
abbrev main_v299 : Ref sig .tc := ⟨.hbm, 430, rfl⟩
abbrev main_v300 : Ref sig .tc := ⟨.hbm, 431, rfl⟩
abbrev main_c_95 : Ref sig .tc := ⟨.hbm, 432, rfl⟩
abbrev main_v301 : Ref sig .tc := ⟨.hbm, 433, rfl⟩
abbrev main_v302 : Ref sig .tc := ⟨.hbm, 434, rfl⟩
abbrev main_v303 : Ref sig .tc := ⟨.hbm, 435, rfl⟩
abbrev main_v304 : Ref sig .tc := ⟨.hbm, 436, rfl⟩
abbrev main_v305 : Ref sig .tc := ⟨.hbm, 437, rfl⟩
abbrev main_v306 : Ref sig .tc := ⟨.hbm, 438, rfl⟩
abbrev main_v307 : Ref sig .tc := ⟨.hbm, 439, rfl⟩
abbrev main_v308 : Ref sig .tc := ⟨.hbm, 440, rfl⟩
abbrev main_c_96 : Ref sig .tc := ⟨.hbm, 441, rfl⟩
abbrev main_v309 : Ref sig .tc := ⟨.hbm, 442, rfl⟩
abbrev main_v310 : Ref sig .tc := ⟨.hbm, 443, rfl⟩
abbrev main_c_97 : Ref sig .tc := ⟨.hbm, 444, rfl⟩
abbrev main_v311 : Ref sig .tc := ⟨.hbm, 445, rfl⟩
abbrev main_v312 : Ref sig .tc := ⟨.hbm, 446, rfl⟩
abbrev main_v313 : Ref sig .tc := ⟨.hbm, 447, rfl⟩
abbrev main_v314 : Ref sig .tc := ⟨.hbm, 448, rfl⟩
abbrev main_c_98 : Ref sig .tc := ⟨.hbm, 449, rfl⟩
abbrev main_v315 : Ref sig .tc := ⟨.hbm, 450, rfl⟩
abbrev main_v316 : Ref sig .tc := ⟨.hbm, 451, rfl⟩
abbrev main_v317 : Ref sig .tc := ⟨.hbm, 452, rfl⟩
abbrev main_c_99 : Ref sig .tc := ⟨.hbm, 453, rfl⟩
abbrev main_v318 : Ref sig .tc := ⟨.hbm, 454, rfl⟩
abbrev main_v319 : Ref sig .tc := ⟨.hbm, 455, rfl⟩
abbrev main_c_100 : Ref sig .tc := ⟨.hbm, 456, rfl⟩
abbrev main_v320 : Ref sig .tc := ⟨.hbm, 457, rfl⟩
abbrev main_v321 : Ref sig .tc := ⟨.hbm, 458, rfl⟩
abbrev main_v322 : Ref sig .tc := ⟨.hbm, 459, rfl⟩
abbrev main_v323 : Ref sig .tc := ⟨.hbm, 460, rfl⟩
abbrev main_c_101 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_v327 : Ref sig .tc := ⟨.hbm, 465, rfl⟩
abbrev main_v328 : Ref sig .tc := ⟨.hbm, 466, rfl⟩
abbrev main_v329 : Ref sig .tc := ⟨.hbm, 467, rfl⟩
abbrev main_v330 : Ref sig .tc := ⟨.hbm, 468, rfl⟩
abbrev main_v331 : Ref sig .tc := ⟨.hbm, 469, rfl⟩
abbrev main_v332 : Ref sig .tc := ⟨.hbm, 470, rfl⟩
abbrev main_cst_102 : Ref sig .tc := ⟨.hbm, 471, rfl⟩
abbrev main_v333 : Ref sig .tc := ⟨.hbm, 472, rfl⟩
abbrev main_v334 : Ref sig .tc := ⟨.hbm, 473, rfl⟩
abbrev main_cst_103 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_cst_104 : Ref sig .tc := ⟨.hbm, 478, rfl⟩
abbrev main_cst_105 : Ref sig .tc := ⟨.hbm, 479, rfl⟩
abbrev main_call5_v0 : Ref sig .tc := ⟨.hbm, 480, rfl⟩
abbrev main_call5_v1 : Ref sig .tc := ⟨.hbm, 481, rfl⟩
abbrev main_call5_v2 : Ref sig .tc := ⟨.hbm, 482, rfl⟩
abbrev main_call5_v3 : Ref sig .tc := ⟨.hbm, 483, rfl⟩
abbrev main_call5_v4 : Ref sig .tc := ⟨.hbm, 484, rfl⟩
abbrev main_v338 : Ref sig .tc := ⟨.hbm, 485, rfl⟩
abbrev main_v339 : Ref sig .tc := ⟨.hbm, 486, rfl⟩
abbrev main_cst_106 : Ref sig .tc := ⟨.hbm, 487, rfl⟩
abbrev main_v340 : Ref sig .tc := ⟨.hbm, 488, rfl⟩
abbrev main_c_107 : Ref sig .tc := ⟨.hbm, 489, rfl⟩
abbrev main_v341 : Ref sig .tc := ⟨.hbm, 490, rfl⟩
abbrev main_v342 : Ref sig .tc := ⟨.hbm, 491, rfl⟩
abbrev main_c_108 : Ref sig .tc := ⟨.hbm, 492, rfl⟩
abbrev main_v343 : Ref sig .tc := ⟨.hbm, 493, rfl⟩
abbrev main_v344 : Ref sig .tc := ⟨.hbm, 494, rfl⟩
abbrev main_v345 : Ref sig .tc := ⟨.hbm, 495, rfl⟩
abbrev main_v346 : Ref sig .tc := ⟨.hbm, 496, rfl⟩
abbrev main_v347 : Ref sig .tc := ⟨.hbm, 497, rfl⟩
abbrev main_c_109 : Ref sig .tc := ⟨.hbm, 498, rfl⟩
abbrev main_v348 : Ref sig .tc := ⟨.hbm, 499, rfl⟩
abbrev main_v349 : Ref sig .tc := ⟨.hbm, 500, rfl⟩
abbrev main_c_110 : Ref sig .tc := ⟨.hbm, 501, rfl⟩
abbrev main_v350 : Ref sig .tc := ⟨.hbm, 502, rfl⟩
abbrev main_v351 : Ref sig .tc := ⟨.hbm, 503, rfl⟩
abbrev main_v352 : Ref sig .tc := ⟨.hbm, 504, rfl⟩
abbrev main_v353 : Ref sig .tc := ⟨.hbm, 505, rfl⟩
abbrev main_v354 : Ref sig .tc := ⟨.hbm, 506, rfl⟩
abbrev main_cst_111 : Ref sig .tc := ⟨.hbm, 507, rfl⟩
abbrev main_v355 : Ref sig .tc := ⟨.hbm, 508, rfl⟩
abbrev main_v356 : Ref sig .tc := ⟨.hbm, 509, rfl⟩
abbrev main_v357 : Ref sig .tc := ⟨.hbm, 510, rfl⟩
abbrev main_c_112 : Ref sig .tc := ⟨.hbm, 511, rfl⟩
abbrev main_v358 : Ref sig .tc := ⟨.hbm, 512, rfl⟩
abbrev main_v359 : Ref sig .tc := ⟨.hbm, 513, rfl⟩
abbrev main_c_113 : Ref sig .tc := ⟨.hbm, 514, rfl⟩
abbrev main_v360 : Ref sig .tc := ⟨.hbm, 515, rfl⟩
abbrev main_v361 : Ref sig .tc := ⟨.hbm, 516, rfl⟩
abbrev main_v362 : Ref sig .tc := ⟨.hbm, 517, rfl⟩
abbrev main_v363 : Ref sig .tc := ⟨.hbm, 518, rfl⟩
abbrev main_v364 : Ref sig .tc := ⟨.hbm, 519, rfl⟩
abbrev main_v365 : Ref sig .tc := ⟨.hbm, 520, rfl⟩
abbrev main_v366 : Ref sig .tc := ⟨.hbm, 521, rfl⟩
abbrev main_v367 : Ref sig .tc := ⟨.hbm, 522, rfl⟩
abbrev main_cst_114 : Ref sig .tc := ⟨.hbm, 523, rfl⟩
abbrev main_v368 : Ref sig .tc := ⟨.hbm, 524, rfl⟩
abbrev main_c_115 : Ref sig .tc := ⟨.hbm, 525, rfl⟩
abbrev main_v369 : Ref sig .tc := ⟨.hbm, 526, rfl⟩
abbrev main_v370 : Ref sig .tc := ⟨.hbm, 527, rfl⟩
abbrev main_c_116 : Ref sig .tc := ⟨.hbm, 528, rfl⟩
abbrev main_v371 : Ref sig .tc := ⟨.hbm, 529, rfl⟩
abbrev main_v372 : Ref sig .tc := ⟨.hbm, 530, rfl⟩
abbrev main_v373 : Ref sig .tc := ⟨.hbm, 531, rfl⟩
abbrev main_v374 : Ref sig .tc := ⟨.hbm, 532, rfl⟩
abbrev main_v375 : Ref sig .tc := ⟨.hbm, 533, rfl⟩
abbrev main_v376 : Ref sig .tc := ⟨.hbm, 534, rfl⟩
abbrev main_v377 : Ref sig .tc := ⟨.hbm, 535, rfl⟩
abbrev main_v378 : Ref sig .tc := ⟨.hbm, 536, rfl⟩
abbrev main_v379 : Ref sig .tc := ⟨.hbm, 537, rfl⟩
abbrev main_v380 : Ref sig .tc := ⟨.hbm, 538, rfl⟩
abbrev main_v381 : Ref sig .tc := ⟨.hbm, 539, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S128 : S_.BroadcastsInDim S128 (![] : Fin 0 → Fin S128.rank)
  slices_S4x65_S1x32_0_0 : S4x65.Slices ![0, 0] S1x32
  shapeCasts_S1x32_S32 : S1x32.ShapeCasts S32
  bcast_S_S1 : S_.BroadcastsInDim S1 (![] : Fin 0 → Fin S1.rank)
  slices_S4x65_S1x32_1_0 : S4x65.Slices ![1, 0] S1x32
  slices_S4x65_S1x32_2_0 : S4x65.Slices ![2, 0] S1x32
  slices_S4x65_S1x32_3_0 : S4x65.Slices ![3, 0] S1x32
  slices_S4x65_S1x32_0_32 : S4x65.Slices ![0, 32] S1x32
  slices_S4x65_S1x32_1_32 : S4x65.Slices ![1, 32] S1x32
  slices_S4x65_S1x32_2_32 : S4x65.Slices ![2, 32] S1x32
  slices_S4x65_S1x32_3_32 : S4x65.Slices ![3, 32] S1x32
  bcast_S128_S128x1_0 : S128.BroadcastsInDim S128x1 (![0] : Fin 1 → Fin S128x1.rank)
  concatenates_S128x1_S128x1_S128x1_S128x1_S128x1_S128x1_S128x1_S128x1_S128x1_S128x1_S128x1_S128x1_S128x1_S128x1_S128x1_S128x1_S128x16_d1 : Shape.Concatenates [S128x1, S128x1, S128x1, S128x1, S128x1, S128x1, S128x1, S128x1, S128x1, S128x1, S128x1, S128x1, S128x1, S128x1, S128x1, S128x1] S128x16 1
  transposes_S128x128_S128x128_1_0 : S128x128.Transposes [1, 0] S128x128
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S2000x16_S2000x16_0_0 : ∀ a, (![0, 0] : Fin 2 → Nat) a + S2000x16.size a ≤ S2000x16.size a
  h_S2000x16 : 0 < S2000x16.numel
  slices_S4x65_S4x1_0_64 : S4x65.Slices ![0, 64] S4x1
  shapeCasts_S4x1_S4 : S4x1.ShapeCasts S4
  bcast_S_S30000 : S_.BroadcastsInDim S30000 (![] : Fin 0 → Fin S30000.rank)
  bcast_S30000_S30000x1_0 : S30000.BroadcastsInDim S30000x1 (![0] : Fin 1 → Fin S30000x1.rank)
  bcast_S_S30000x1 : S_.BroadcastsInDim S30000x1 (![] : Fin 0 → Fin S30000x1.rank)
  concatenates_S30000x1_S30000x1_S30000x2_d1 : Shape.Concatenates [S30000x1, S30000x1] S30000x2 1
  bcast_S4_S1x4_1 : S4.BroadcastsInDim S1x4 (![1] : Fin 1 → Fin S1x4.rank)
  bcast_S30000x1_S30000x4_0_1 : S30000x1.BroadcastsInDim S30000x4 (![0, 1] : Fin 2 → Fin S30000x4.rank)
  bcast_S1x4_S30000x4_0_1 : S1x4.BroadcastsInDim S30000x4 (![0, 1] : Fin 2 → Fin S30000x4.rank)
  bcast_S_S30000x4 : S_.BroadcastsInDim S30000x4 (![] : Fin 0 → Fin S30000x4.rank)
  bcast_S_S100000x4 : S_.BroadcastsInDim S100000x4 (![] : Fin 0 → Fin S100000x4.rank)
  bcast_S30000x4_S30000x4x32_0_1 : S30000x4.BroadcastsInDim S30000x4x32 (![0, 1] : Fin 2 → Fin S30000x4x32.rank)
  shapeCasts_S30000x4x32_S30000x128 : S30000x4x32.ShapeCasts S30000x128
  bcast_S_S100000x128 : S_.BroadcastsInDim S100000x128 (![] : Fin 0 → Fin S100000x128.rank)
  bcast_S_S10000x4 : S_.BroadcastsInDim S10000x4 (![] : Fin 0 → Fin S10000x4.rank)
  bcast_S_S10000x128 : S_.BroadcastsInDim S10000x128 (![] : Fin 0 → Fin S10000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  scatter_S128_S1_S32_0_n_0_0_wf : ScatterDims.WF S128 S1 S32 [0] [] [0] 0
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  gather_S100000x16_S30000x2_S30000x4_1_0_n_n_01_1_14_wf : GatherDims.WF S100000x16 S30000x2 S30000x4 [1] [0] [] [0, 1] [] 1 ![1, 4]
  scatter_S100000x4_S30000x1_S30000x4_1_0_0_1_wf : ScatterDims.WF S100000x4 S30000x1 S30000x4 [1] [0] [0] 1
  gather_S100000x4_S30000x1_S30000x4_1_0_n_n_0_1_14_wf : GatherDims.WF S100000x4 S30000x1 S30000x4 [1] [0] [] [0] [] 1 ![1, 4]
  gather_S100000x128_S30000x1_S30000x128_1_0_n_n_0_1_1128_wf : GatherDims.WF S100000x128 S30000x1 S30000x128 [1] [0] [] [0] [] 1 ![1, 128]
  scatter_S100000x128_S30000x1_S30000x128_1_0_0_1_wf : ScatterDims.WF S100000x128 S30000x1 S30000x128 [1] [0] [0] 1
  gather_S10000x16_S30000x2_S30000x4_1_0_n_n_01_1_14_wf : GatherDims.WF S10000x16 S30000x2 S30000x4 [1] [0] [] [0, 1] [] 1 ![1, 4]
  gather_S10000x128_S30000x1_S30000x128_1_0_n_n_0_1_1128_wf : GatherDims.WF S10000x128 S30000x1 S30000x128 [1] [0] [] [0] [] 1 ![1, 128]
  scatter_S10000x4_S30000x1_S30000x4_1_0_0_1_wf : ScatterDims.WF S10000x4 S30000x1 S30000x4 [1] [0] [0] 1
  gather_S10000x4_S30000x1_S30000x4_1_0_n_n_0_1_14_wf : GatherDims.WF S10000x4 S30000x1 S30000x4 [1] [0] [] [0] [] 1 ![1, 4]
  scatter_S10000x128_S30000x1_S30000x128_1_0_0_1_wf : ScatterDims.WF S10000x128 S30000x1 S30000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x16.size a ≤ S100000x16.size a
  hwx0_5 : ∀ i : grid0.Coords, EltTy.bits .f32 = 32 ∨ (Rect.block (s := S100000x16) S2000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S10000x128.size a
  hwx1_4 : ∀ i : grid1.Coords, EltTy.bits .f32 = 32 ∨ (Rect.block (s := S10000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S10000x16.size a
  hwx1_5 : ∀ i : grid1.Coords, EltTy.bits .f32 = 32 ∨ (Rect.block (s := S10000x16) S2000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S10000x128.size a
  hwx3_1 : ∀ i : grid3.Coords, EltTy.bits .f32 = 32 ∨ (Rect.block (s := S10000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S10000x128.size a
  hwx3_4 : ∀ i : grid3.Coords, EltTy.bits .f32 = 32 ∨ (Rect.block (s := S10000x128) S2000x128.size (cc3_transform_4 i) (hinb3_4 i)).WholeWords (EltTy.packing .f32)

variable [Facts₀]

def scatter_S128_S1_S32_0_n_0_0 : ScatterDims S128 S1 S32 where
  updateWindowDims := [0]
  insertedWindowDims := []
  scatterDimsToOperandDims := [0]
  indexVectorDim := 0
  wf := scatter_S128_S1_S32_0_n_0_0_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S30000x2_S30000x4_1_0_n_n_01_1_14 : GatherDims S100000x16 S30000x2 S30000x4 where
  offsetDims := [1]
  collapsedSliceDims := [0]
  operandBatchingDims := []
  startIndicesBatchingDims := []
  startIndexMap := [0, 1]
  indexVectorDim := 1
  sliceSizes := ![1, 4]
  wf := gather_S100000x16_S30000x2_S30000x4_1_0_n_n_01_1_14_wf
def scatter_S100000x4_S30000x1_S30000x4_1_0_0_1 : ScatterDims S100000x4 S30000x1 S30000x4 where
  updateWindowDims := [1]
  insertedWindowDims := [0]
  scatterDimsToOperandDims := [0]
  indexVectorDim := 1
  wf := scatter_S100000x4_S30000x1_S30000x4_1_0_0_1_wf
def gather_S100000x4_S30000x1_S30000x4_1_0_n_n_0_1_14 : GatherDims S100000x4 S30000x1 S30000x4 where
  offsetDims := [1]
  collapsedSliceDims := [0]
  operandBatchingDims := []
  startIndicesBatchingDims := []
  startIndexMap := [0]
  indexVectorDim := 1
  sliceSizes := ![1, 4]
  wf := gather_S100000x4_S30000x1_S30000x4_1_0_n_n_0_1_14_wf
def gather_S100000x128_S30000x1_S30000x128_1_0_n_n_0_1_1128 : GatherDims S100000x128 S30000x1 S30000x128 where
  offsetDims := [1]
  collapsedSliceDims := [0]
  operandBatchingDims := []
  startIndicesBatchingDims := []
  startIndexMap := [0]
  indexVectorDim := 1
  sliceSizes := ![1, 128]
  wf := gather_S100000x128_S30000x1_S30000x128_1_0_n_n_0_1_1128_wf
def scatter_S100000x128_S30000x1_S30000x128_1_0_0_1 : ScatterDims S100000x128 S30000x1 S30000x128 where
  updateWindowDims := [1]
  insertedWindowDims := [0]
  scatterDimsToOperandDims := [0]
  indexVectorDim := 1
  wf := scatter_S100000x128_S30000x1_S30000x128_1_0_0_1_wf
def gather_S10000x16_S30000x2_S30000x4_1_0_n_n_01_1_14 : GatherDims S10000x16 S30000x2 S30000x4 where
  offsetDims := [1]
  collapsedSliceDims := [0]
  operandBatchingDims := []
  startIndicesBatchingDims := []
  startIndexMap := [0, 1]
  indexVectorDim := 1
  sliceSizes := ![1, 4]
  wf := gather_S10000x16_S30000x2_S30000x4_1_0_n_n_01_1_14_wf
def gather_S10000x128_S30000x1_S30000x128_1_0_n_n_0_1_1128 : GatherDims S10000x128 S30000x1 S30000x128 where
  offsetDims := [1]
  collapsedSliceDims := [0]
  operandBatchingDims := []
  startIndicesBatchingDims := []
  startIndexMap := [0]
  indexVectorDim := 1
  sliceSizes := ![1, 128]
  wf := gather_S10000x128_S30000x1_S30000x128_1_0_n_n_0_1_1128_wf
def scatter_S10000x4_S30000x1_S30000x4_1_0_0_1 : ScatterDims S10000x4 S30000x1 S30000x4 where
  updateWindowDims := [1]
  insertedWindowDims := [0]
  scatterDimsToOperandDims := [0]
  indexVectorDim := 1
  wf := scatter_S10000x4_S30000x1_S30000x4_1_0_0_1_wf
def gather_S10000x4_S30000x1_S30000x4_1_0_n_n_0_1_14 : GatherDims S10000x4 S30000x1 S30000x4 where
  offsetDims := [1]
  collapsedSliceDims := [0]
  operandBatchingDims := []
  startIndicesBatchingDims := []
  startIndexMap := [0]
  indexVectorDim := 1
  sliceSizes := ![1, 4]
  wf := gather_S10000x4_S30000x1_S30000x4_1_0_n_n_0_1_14_wf
def scatter_S10000x128_S30000x1_S30000x128_1_0_0_1 : ScatterDims S10000x128 S30000x1 S30000x128 where
  updateWindowDims := [1]
  insertedWindowDims := [0]
  scatterDimsToOperandDims := [0]
  indexVectorDim := 1
  wf := scatter_S10000x128_S30000x1_S30000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v162) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v163) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v144) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v164_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v164_1) S2000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v165) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v166) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v161) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v167_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v167_1) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v306) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v164_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v376) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v377) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v378) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v375) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v167_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v379) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v380) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v381) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S10000x128 : Shape := ⟨2, ![10000, 128]⟩
abbrev S30000 : Shape := ⟨1, ![30000]⟩
abbrev S30000x1 : Shape := ⟨2, ![30000, 1]⟩
abbrev S128x128 : Shape := ⟨2, ![128, 128]⟩
abbrev S128 : Shape := ⟨1, ![128]⟩
abbrev S4x65 : Shape := ⟨2, ![4, 65]⟩
abbrev S1x128 : Shape := ⟨2, ![1, 128]⟩
abbrev S100000x4x32 : Shape := ⟨3, ![100000, 4, 32]⟩
abbrev S10000x4x32 : Shape := ⟨3, ![10000, 4, 32]⟩
abbrev S_ : Shape := ⟨0, ![]⟩
abbrev S30000x4x32 : Shape := ⟨3, ![30000, 4, 32]⟩
abbrev S30000x1x1 : Shape := ⟨3, ![30000, 1, 1]⟩
abbrev S30000x4x1 : Shape := ⟨3, ![30000, 4, 1]⟩
abbrev S30000x4x65 : Shape := ⟨3, ![30000, 4, 65]⟩
abbrev S1x4x65 : Shape := ⟨3, ![1, 4, 65]⟩
abbrev S30000x4 : Shape := ⟨2, ![30000, 4]⟩
abbrev S100000x4 : Shape := ⟨2, ![100000, 4]⟩
abbrev S10000x4 : Shape := ⟨2, ![10000, 4]⟩
abbrev S100000 : Shape := ⟨1, ![100000]⟩
abbrev S100000x1 : Shape := ⟨2, ![100000, 1]⟩
abbrev S10000 : Shape := ⟨1, ![10000]⟩
abbrev S10000x1 : Shape := ⟨2, ![10000, 1]⟩

abbrev nBuf : Space → Nat
  | .hbm => 367
  | .vmem => 0
  | .smem => 0
  | _ => 0

abbrev hbmTy0_0 (i : Nat) : BufTy := match i % 128 with
  | 0 => ⟨S100000x128, .f32⟩
  | 1 => ⟨S10000x128, .f32⟩
  | 2 => ⟨S30000, .i32⟩
  | 3 => ⟨S30000, .i32⟩
  | 4 => ⟨S30000, .i32⟩
  | 5 => ⟨S30000, .i32⟩
  | 6 => ⟨S30000, .i32⟩
  | 7 => ⟨S30000, .i32⟩
  | 8 => ⟨S30000x1, .f32⟩
  | 9 => ⟨S30000x1, .f32⟩
  | 10 => ⟨S30000x1, .f32⟩
  | 11 => ⟨S128x128, .f32⟩
  | 12 => ⟨S128, .f32⟩
  | 13 => ⟨S128x128, .f32⟩
  | 14 => ⟨S128, .f32⟩
  | 15 => ⟨S4x65, .f32⟩
  | 16 => ⟨S4x65, .f32⟩
  | 17 => ⟨S4x65, .f32⟩
  | 18 => ⟨S128, .f32⟩
  | 19 => ⟨S128, .f32⟩
  | 20 => ⟨S128, .f32⟩
  | 21 => ⟨S128, .f32⟩
  | 22 => ⟨S128x128, .f32⟩
  | 23 => ⟨S100000x128, .f32⟩
  | 24 => ⟨S1x128, .f32⟩
  | 25 => ⟨S100000x128, .f32⟩
  | 26 => ⟨S100000x128, .f32⟩
  | 27 => ⟨S128x128, .f32⟩
  | 28 => ⟨S10000x128, .f32⟩
  | 29 => ⟨S1x128, .f32⟩
  | 30 => ⟨S10000x128, .f32⟩
  | 31 => ⟨S10000x128, .f32⟩
  | 32 => ⟨S100000x4x32, .f32⟩
  | 33 => ⟨S10000x4x32, .f32⟩
  | 34 => ⟨S_, .i32⟩
  | 35 => ⟨S30000, .i32⟩
  | 36 => ⟨S30000, .i1⟩
  | 37 => ⟨S_, .i32⟩
  | 38 => ⟨S30000, .i32⟩
  | 39 => ⟨S30000, .i32⟩
  | 40 => ⟨S30000, .i32⟩
  | 41 => ⟨S30000x1, .i32⟩
  | 42 => ⟨S30000x4x32, .f32⟩
  | 43 => ⟨S_, .i32⟩
  | 44 => ⟨S30000, .i32⟩
  | 45 => ⟨S30000, .i1⟩
  | 46 => ⟨S_, .i32⟩
  | 47 => ⟨S30000, .i32⟩
  | 48 => ⟨S30000, .i32⟩
  | 49 => ⟨S30000, .i32⟩
  | 50 => ⟨S30000x1, .i32⟩
  | 51 => ⟨S30000x4x32, .f32⟩
  | 52 => ⟨S30000x1x1, .f32⟩
  | 53 => ⟨S30000x4x1, .f32⟩
  | 54 => ⟨S30000x4x65, .f32⟩
  | 55 => ⟨S1x4x65, .f32⟩
  | 56 => ⟨S30000x4x65, .f32⟩
  | 57 => ⟨S30000x4x65, .f32⟩
  | 58 => ⟨S_, .f32⟩
  | 59 => ⟨S30000x4, .f32⟩
  | 60 => ⟨S_, .f32⟩
  | 61 => ⟨S30000x4, .f32⟩
  | 62 => ⟨S30000x4, .i1⟩
  | 63 => ⟨S_, .f32⟩
  | 64 => ⟨S30000x4, .f32⟩
  | 65 => ⟨S30000x4, .f32⟩
  | 66 => ⟨S30000x4, .f32⟩
  | 67 => ⟨S_, .f32⟩
  | 68 => ⟨S_, .f32⟩
  | 69 => ⟨S_, .f32⟩
  | 70 => ⟨S30000x4, .f32⟩
  | 71 => ⟨S30000x4, .f32⟩
  | 72 => ⟨S_, .f32⟩
  | 73 => ⟨S30000x4, .f32⟩
  | 74 => ⟨S30000x4, .f32⟩
  | 75 => ⟨S30000x4, .f32⟩
  | 76 => ⟨S_, .f32⟩
  | 77 => ⟨S100000x4, .f32⟩
  | 78 => ⟨S_, .i32⟩
  | 79 => ⟨S30000, .i32⟩
  | 80 => ⟨S30000, .i1⟩
  | 81 => ⟨S_, .i32⟩
  | 82 => ⟨S30000, .i32⟩
  | 83 => ⟨S30000, .i32⟩
  | 84 => ⟨S30000, .i32⟩
  | 85 => ⟨S30000x1, .i32⟩
  | 86 => ⟨S100000x4, .f32⟩
  | 87 => ⟨S_, .i32⟩
  | 88 => ⟨S30000, .i32⟩
  | 89 => ⟨S30000, .i1⟩
  | 90 => ⟨S_, .i32⟩
  | 91 => ⟨S30000, .i32⟩
  | 92 => ⟨S30000, .i32⟩
  | 93 => ⟨S30000, .i32⟩
  | 94 => ⟨S30000x1, .i32⟩
  | 95 => ⟨S30000x4, .f32⟩
  | 96 => ⟨S_, .f32⟩
  | 97 => ⟨S30000x4, .f32⟩
  | 98 => ⟨S30000x4, .f32⟩
  | 99 => ⟨S30000x4, .f32⟩
  | 100 => ⟨S30000x4x1, .f32⟩
  | 101 => ⟨S30000x4x32, .f32⟩
  | 102 => ⟨S30000x4x32, .f32⟩
  | 103 => ⟨S_, .f32⟩
  | 104 => ⟨S100000x4x32, .f32⟩
  | 105 => ⟨S_, .i32⟩
  | 106 => ⟨S30000, .i32⟩
  | 107 => ⟨S30000, .i1⟩
  | 108 => ⟨S_, .i32⟩
  | 109 => ⟨S30000, .i32⟩
  | 110 => ⟨S30000, .i32⟩
  | 111 => ⟨S30000, .i32⟩
  | 112 => ⟨S30000x1, .i32⟩
  | 113 => ⟨S100000x4x32, .f32⟩
  | 114 => ⟨S_, .i32⟩
  | 115 => ⟨S30000, .i32⟩
  | 116 => ⟨S30000, .i1⟩
  | 117 => ⟨S_, .i32⟩
  | 118 => ⟨S30000, .i32⟩
  | 119 => ⟨S30000, .i32⟩
  | 120 => ⟨S30000, .i32⟩
  | 121 => ⟨S30000x1, .i32⟩
  | 122 => ⟨S30000x4x32, .f32⟩
  | 123 => ⟨S_, .i32⟩
  | 124 => ⟨S30000, .i32⟩
  | 125 => ⟨S30000, .i1⟩
  | 126 => ⟨S_, .i32⟩
  | 127 => ⟨S30000, .i32⟩
  | _ => ⟨S100000x128, .f32⟩

abbrev hbmTy0_1 (i : Nat) : BufTy := match i % 128 with
  | 0 => ⟨S30000, .i32⟩
  | 1 => ⟨S30000, .i32⟩
  | 2 => ⟨S30000x1, .i32⟩
  | 3 => ⟨S30000x4x32, .f32⟩
  | 4 => ⟨S30000x1x1, .f32⟩
  | 5 => ⟨S30000x4x1, .f32⟩
  | 6 => ⟨S30000x4x65, .f32⟩
  | 7 => ⟨S1x4x65, .f32⟩
  | 8 => ⟨S30000x4x65, .f32⟩
  | 9 => ⟨S30000x4x65, .f32⟩
  | 10 => ⟨S_, .f32⟩
  | 11 => ⟨S30000x4, .f32⟩
  | 12 => ⟨S_, .f32⟩
  | 13 => ⟨S30000x4, .f32⟩
  | 14 => ⟨S30000x4, .i1⟩
  | 15 => ⟨S_, .f32⟩
  | 16 => ⟨S30000x4, .f32⟩
  | 17 => ⟨S30000x4, .f32⟩
  | 18 => ⟨S30000x4, .f32⟩
  | 19 => ⟨S_, .f32⟩
  | 20 => ⟨S_, .f32⟩
  | 21 => ⟨S_, .f32⟩
  | 22 => ⟨S30000x4, .f32⟩
  | 23 => ⟨S30000x4, .f32⟩
  | 24 => ⟨S_, .f32⟩
  | 25 => ⟨S30000x4, .f32⟩
  | 26 => ⟨S30000x4, .f32⟩
  | 27 => ⟨S30000x4, .f32⟩
  | 28 => ⟨S_, .f32⟩
  | 29 => ⟨S10000x4, .f32⟩
  | 30 => ⟨S_, .i32⟩
  | 31 => ⟨S30000, .i32⟩
  | 32 => ⟨S30000, .i1⟩
  | 33 => ⟨S_, .i32⟩
  | 34 => ⟨S30000, .i32⟩
  | 35 => ⟨S30000, .i32⟩
  | 36 => ⟨S30000, .i32⟩
  | 37 => ⟨S30000x1, .i32⟩
  | 38 => ⟨S10000x4, .f32⟩
  | 39 => ⟨S_, .i32⟩
  | 40 => ⟨S30000, .i32⟩
  | 41 => ⟨S30000, .i1⟩
  | 42 => ⟨S_, .i32⟩
  | 43 => ⟨S30000, .i32⟩
  | 44 => ⟨S30000, .i32⟩
  | 45 => ⟨S30000, .i32⟩
  | 46 => ⟨S30000x1, .i32⟩
  | 47 => ⟨S30000x4, .f32⟩
  | 48 => ⟨S_, .f32⟩
  | 49 => ⟨S30000x4, .f32⟩
  | 50 => ⟨S30000x4, .f32⟩
  | 51 => ⟨S30000x4, .f32⟩
  | 52 => ⟨S30000x4x1, .f32⟩
  | 53 => ⟨S30000x4x32, .f32⟩
  | 54 => ⟨S30000x4x32, .f32⟩
  | 55 => ⟨S_, .f32⟩
  | 56 => ⟨S10000x4x32, .f32⟩
  | 57 => ⟨S_, .i32⟩
  | 58 => ⟨S30000, .i32⟩
  | 59 => ⟨S30000, .i1⟩
  | 60 => ⟨S_, .i32⟩
  | 61 => ⟨S30000, .i32⟩
  | 62 => ⟨S30000, .i32⟩
  | 63 => ⟨S30000, .i32⟩
  | 64 => ⟨S30000x1, .i32⟩
  | 65 => ⟨S10000x4x32, .f32⟩
  | 66 => ⟨S_, .i32⟩
  | 67 => ⟨S30000, .i32⟩
  | 68 => ⟨S30000, .i1⟩
  | 69 => ⟨S_, .i32⟩
  | 70 => ⟨S30000, .i32⟩
  | 71 => ⟨S30000, .i32⟩
  | 72 => ⟨S30000, .i32⟩
  | 73 => ⟨S30000x1, .i32⟩
  | 74 => ⟨S30000x4x32, .f32⟩
  | 75 => ⟨S_, .i32⟩
  | 76 => ⟨S30000, .i32⟩
  | 77 => ⟨S30000, .i1⟩
  | 78 => ⟨S_, .i32⟩
  | 79 => ⟨S30000, .i32⟩
  | 80 => ⟨S30000, .i32⟩
  | 81 => ⟨S30000, .i32⟩
  | 82 => ⟨S30000x1, .i32⟩
  | 83 => ⟨S30000x4x32, .f32⟩
  | 84 => ⟨S30000x1x1, .f32⟩
  | 85 => ⟨S30000x4x1, .f32⟩
  | 86 => ⟨S30000x4x65, .f32⟩
  | 87 => ⟨S1x4x65, .f32⟩
  | 88 => ⟨S30000x4x65, .f32⟩
  | 89 => ⟨S30000x4x65, .f32⟩
  | 90 => ⟨S_, .f32⟩
  | 91 => ⟨S30000x4, .f32⟩
  | 92 => ⟨S_, .f32⟩
  | 93 => ⟨S30000x4, .f32⟩
  | 94 => ⟨S30000x4, .i1⟩
  | 95 => ⟨S_, .f32⟩
  | 96 => ⟨S30000x4, .f32⟩
  | 97 => ⟨S30000x4, .f32⟩
  | 98 => ⟨S30000x4, .f32⟩
  | 99 => ⟨S_, .f32⟩
  | 100 => ⟨S_, .f32⟩
  | 101 => ⟨S_, .f32⟩
  | 102 => ⟨S30000x4, .f32⟩
  | 103 => ⟨S30000x4, .f32⟩
  | 104 => ⟨S_, .f32⟩
  | 105 => ⟨S30000x4, .f32⟩
  | 106 => ⟨S30000x4, .f32⟩
  | 107 => ⟨S30000x4, .f32⟩
  | 108 => ⟨S_, .f32⟩
  | 109 => ⟨S100000x4, .f32⟩
  | 110 => ⟨S_, .i32⟩
  | 111 => ⟨S30000, .i32⟩
  | 112 => ⟨S30000, .i1⟩
  | 113 => ⟨S_, .i32⟩
  | 114 => ⟨S30000, .i32⟩
  | 115 => ⟨S30000, .i32⟩
  | 116 => ⟨S30000, .i32⟩
  | 117 => ⟨S30000x1, .i32⟩
  | 118 => ⟨S100000x4, .f32⟩
  | 119 => ⟨S_, .i32⟩
  | 120 => ⟨S30000, .i32⟩
  | 121 => ⟨S30000, .i1⟩
  | 122 => ⟨S_, .i32⟩
  | 123 => ⟨S30000, .i32⟩
  | 124 => ⟨S30000, .i32⟩
  | 125 => ⟨S30000, .i32⟩
  | 126 => ⟨S30000x1, .i32⟩
  | 127 => ⟨S30000x4, .f32⟩
  | _ => ⟨S100000x128, .f32⟩

abbrev hbmTy0_2 (i : Nat) : BufTy := match i % 128 with
  | 0 => ⟨S_, .f32⟩
  | 1 => ⟨S30000x4, .f32⟩
  | 2 => ⟨S30000x4, .f32⟩
  | 3 => ⟨S30000x4, .f32⟩
  | 4 => ⟨S30000x4x1, .f32⟩
  | 5 => ⟨S30000x4x32, .f32⟩
  | 6 => ⟨S30000x4x32, .f32⟩
  | 7 => ⟨S_, .f32⟩
  | 8 => ⟨S100000x4x32, .f32⟩
  | 9 => ⟨S_, .i32⟩
  | 10 => ⟨S30000, .i32⟩
  | 11 => ⟨S30000, .i1⟩
  | 12 => ⟨S_, .i32⟩
  | 13 => ⟨S30000, .i32⟩
  | 14 => ⟨S30000, .i32⟩
  | 15 => ⟨S30000, .i32⟩
  | 16 => ⟨S30000x1, .i32⟩
  | 17 => ⟨S100000x4x32, .f32⟩
  | 18 => ⟨S100000x4x32, .f32⟩
  | 19 => ⟨S100000x128, .f32⟩
  | 20 => ⟨S100000x128, .f32⟩
  | 21 => ⟨S10000x128, .f32⟩
  | 22 => ⟨S10000x128, .f32⟩
  | 23 => ⟨S_, .f32⟩
  | 24 => ⟨S100000, .f32⟩
  | 25 => ⟨S100000x1, .f32⟩
  | 26 => ⟨S_, .f32⟩
  | 27 => ⟨S100000x1, .f32⟩
  | 28 => ⟨S100000x1, .f32⟩
  | 29 => ⟨S100000x128, .f32⟩
  | 30 => ⟨S100000x128, .f32⟩
  | 31 => ⟨S100000x128, .f32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x128, .f32⟩
  | 39 => ⟨S100000x128, .f32⟩
  | 40 => ⟨S_, .f32⟩
  | 41 => ⟨S100000x1, .f32⟩
  | 42 => ⟨S100000x1, .f32⟩
  | 43 => ⟨S100000x1, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S10000, .f32⟩
  | 54 => ⟨S10000x1, .f32⟩
  | 55 => ⟨S_, .f32⟩
  | 56 => ⟨S10000x1, .f32⟩
  | 57 => ⟨S10000x1, .f32⟩
  | 58 => ⟨S10000x128, .f32⟩
  | 59 => ⟨S10000x128, .f32⟩
  | 60 => ⟨S10000x128, .f32⟩
  | 61 => ⟨S_, .f32⟩
  | 62 => ⟨S10000, .f32⟩
  | 63 => ⟨S10000x1, .f32⟩
  | 64 => ⟨S_, .f32⟩
  | 65 => ⟨S10000x1, .f32⟩
  | 66 => ⟨S10000x1, .f32⟩
  | 67 => ⟨S10000x128, .f32⟩
  | 68 => ⟨S10000x128, .f32⟩
  | 69 => ⟨S_, .f32⟩
  | 70 => ⟨S10000x1, .f32⟩
  | 71 => ⟨S10000x1, .f32⟩
  | 72 => ⟨S10000x1, .f32⟩
  | 73 => ⟨S10000x128, .f32⟩
  | 74 => ⟨S10000x128, .f32⟩
  | 75 => ⟨S1x128, .f32⟩
  | 76 => ⟨S10000x128, .f32⟩
  | 77 => ⟨S10000x128, .f32⟩
  | 78 => ⟨S1x128, .f32⟩
  | 79 => ⟨S10000x128, .f32⟩
  | 80 => ⟨S10000x128, .f32⟩
  | 81 => ⟨S_, .f32⟩
  | 82 => ⟨S100000x128, .f32⟩
  | 83 => ⟨S100000x128, .i1⟩
  | 84 => ⟨S_, .f32⟩
  | 85 => ⟨S100000x128, .f32⟩
  | 86 => ⟨S100000x128, .i1⟩
  | 87 => ⟨S_, .f32⟩
  | 88 => ⟨S_, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .f32⟩
  | 97 => ⟨S10000x128, .f32⟩
  | 98 => ⟨S10000x128, .i1⟩
  | 99 => ⟨S_, .f32⟩
  | 100 => ⟨S10000x128, .f32⟩
  | 101 => ⟨S10000x128, .i1⟩
  | 102 => ⟨S_, .f32⟩
  | 103 => ⟨S_, .f32⟩
  | 104 => ⟨S10000x128, .f32⟩
  | 105 => ⟨S10000x128, .f32⟩
  | 106 => ⟨S10000x128, .f32⟩
  | 107 => ⟨S_, .f32⟩
  | 108 => ⟨S10000x128, .f32⟩
  | 109 => ⟨S10000x128, .f32⟩
  | 110 => ⟨S10000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_1 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst : Ref sig .tc := ⟨.hbm, 58, rfl⟩
abbrev main_v32 : Ref sig .tc := ⟨.hbm, 59, rfl⟩
abbrev main_cst_3 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_c_8 : Ref sig .tc := ⟨.hbm, 78, rfl⟩
abbrev main_v41 : Ref sig .tc := ⟨.hbm, 79, rfl⟩
abbrev main_v42 : Ref sig .tc := ⟨.hbm, 80, rfl⟩
abbrev main_c_9 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_10 : Ref sig .tc := ⟨.hbm, 87, rfl⟩
abbrev main_v48 : Ref sig .tc := ⟨.hbm, 88, rfl⟩
abbrev main_v49 : Ref sig .tc := ⟨.hbm, 89, rfl⟩
abbrev main_c_11 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_12 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_13 : Ref sig .tc := ⟨.hbm, 103, rfl⟩
abbrev main_v61 : Ref sig .tc := ⟨.hbm, 104, rfl⟩
abbrev main_c_14 : Ref sig .tc := ⟨.hbm, 105, rfl⟩
abbrev main_v62 : Ref sig .tc := ⟨.hbm, 106, rfl⟩
abbrev main_v63 : Ref sig .tc := ⟨.hbm, 107, rfl⟩
abbrev main_c_15 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_16 : Ref sig .tc := ⟨.hbm, 114, rfl⟩
abbrev main_v69 : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_18 : Ref sig .tc := ⟨.hbm, 123, rfl⟩
abbrev main_v76 : Ref sig .tc := ⟨.hbm, 124, rfl⟩
abbrev main_v77 : Ref sig .tc := ⟨.hbm, 125, rfl⟩
abbrev main_c_19 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_20 : Ref sig .tc := ⟨.hbm, 138, rfl⟩
abbrev main_v89 : Ref sig .tc := ⟨.hbm, 139, rfl⟩
abbrev main_cst_21 : Ref sig .tc := ⟨.hbm, 140, rfl⟩
abbrev main_v90 : Ref sig .tc := ⟨.hbm, 141, rfl⟩
abbrev main_v91 : Ref sig .tc := ⟨.hbm, 142, rfl⟩
abbrev main_cst_22 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_23 : Ref sig .tc := ⟨.hbm, 147, rfl⟩
abbrev main_cst_24 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v95 : Ref sig .tc := ⟨.hbm, 154, rfl⟩
abbrev main_v96 : Ref sig .tc := ⟨.hbm, 155, rfl⟩
abbrev main_cst_25 : Ref sig .tc := ⟨.hbm, 156, rfl⟩
abbrev main_v97 : Ref sig .tc := ⟨.hbm, 157, rfl⟩
abbrev main_c_26 : Ref sig .tc := ⟨.hbm, 158, rfl⟩
abbrev main_v98 : Ref sig .tc := ⟨.hbm, 159, rfl⟩
abbrev main_v99 : Ref sig .tc := ⟨.hbm, 160, rfl⟩
abbrev main_c_27 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_28 : Ref sig .tc := ⟨.hbm, 167, rfl⟩
abbrev main_v105 : Ref sig .tc := ⟨.hbm, 168, rfl⟩
abbrev main_v106 : Ref sig .tc := ⟨.hbm, 169, rfl⟩
abbrev main_c_29 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_30 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_31 : Ref sig .tc := ⟨.hbm, 183, rfl⟩
abbrev main_v118 : Ref sig .tc := ⟨.hbm, 184, rfl⟩
abbrev main_c_32 : Ref sig .tc := ⟨.hbm, 185, rfl⟩
abbrev main_v119 : Ref sig .tc := ⟨.hbm, 186, rfl⟩
abbrev main_v120 : Ref sig .tc := ⟨.hbm, 187, rfl⟩
abbrev main_c_33 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_c_34 : Ref sig .tc := ⟨.hbm, 194, rfl⟩
abbrev main_v126 : Ref sig .tc := ⟨.hbm, 195, rfl⟩
abbrev main_v127 : Ref sig .tc := ⟨.hbm, 196, rfl⟩
abbrev main_c_35 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c_36 : Ref sig .tc := ⟨.hbm, 203, rfl⟩
abbrev main_v133 : Ref sig .tc := ⟨.hbm, 204, rfl⟩
abbrev main_v134 : Ref sig .tc := ⟨.hbm, 205, rfl⟩
abbrev main_c_37 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_38 : Ref sig .tc := ⟨.hbm, 218, rfl⟩
abbrev main_v146 : Ref sig .tc := ⟨.hbm, 219, rfl⟩
abbrev main_cst_39 : Ref sig .tc := ⟨.hbm, 220, rfl⟩
abbrev main_v147 : Ref sig .tc := ⟨.hbm, 221, rfl⟩
abbrev main_v148 : Ref sig .tc := ⟨.hbm, 222, rfl⟩
abbrev main_cst_40 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_41 : Ref sig .tc := ⟨.hbm, 227, rfl⟩
abbrev main_cst_42 : Ref sig .tc := ⟨.hbm, 228, rfl⟩
abbrev main_call5_v0 : Ref sig .tc := ⟨.hbm, 229, rfl⟩
abbrev main_call5_v1 : Ref sig .tc := ⟨.hbm, 230, rfl⟩
abbrev main_call5_v2 : Ref sig .tc := ⟨.hbm, 231, rfl⟩
abbrev main_call5_v3 : Ref sig .tc := ⟨.hbm, 232, rfl⟩
abbrev main_call5_v4 : Ref sig .tc := ⟨.hbm, 233, rfl⟩
abbrev main_v152 : Ref sig .tc := ⟨.hbm, 234, rfl⟩
abbrev main_v153 : Ref sig .tc := ⟨.hbm, 235, rfl⟩
abbrev main_cst_43 : Ref sig .tc := ⟨.hbm, 236, rfl⟩
abbrev main_v154 : Ref sig .tc := ⟨.hbm, 237, rfl⟩
abbrev main_c_44 : Ref sig .tc := ⟨.hbm, 238, rfl⟩
abbrev main_v155 : Ref sig .tc := ⟨.hbm, 239, rfl⟩
abbrev main_v156 : Ref sig .tc := ⟨.hbm, 240, rfl⟩
abbrev main_c_45 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_c_46 : Ref sig .tc := ⟨.hbm, 247, rfl⟩
abbrev main_v162 : Ref sig .tc := ⟨.hbm, 248, rfl⟩
abbrev main_v163 : Ref sig .tc := ⟨.hbm, 249, rfl⟩
abbrev main_c_47 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_cst_48 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_cst_49 : Ref sig .tc := ⟨.hbm, 263, rfl⟩
abbrev main_v175 : Ref sig .tc := ⟨.hbm, 264, rfl⟩
abbrev main_c_50 : Ref sig .tc := ⟨.hbm, 265, rfl⟩
abbrev main_v176 : Ref sig .tc := ⟨.hbm, 266, rfl⟩
abbrev main_v177 : Ref sig .tc := ⟨.hbm, 267, rfl⟩
abbrev main_c_51 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_cst_52 : Ref sig .tc := ⟨.hbm, 279, rfl⟩
abbrev main_v188 : Ref sig .tc := ⟨.hbm, 280, rfl⟩
abbrev main_v189 : Ref sig .tc := ⟨.hbm, 281, rfl⟩
abbrev main_cst_53 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_cst_54 : Ref sig .tc := ⟨.hbm, 288, rfl⟩
abbrev main_v195 : Ref sig .tc := ⟨.hbm, 289, rfl⟩
abbrev main_v196 : Ref sig .tc := ⟨.hbm, 290, rfl⟩
abbrev main_cst_55 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_cst_56 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_cst_57 : Ref sig .tc := ⟨.hbm, 308, rfl⟩
abbrev main_v212 : Ref sig .tc := ⟨.hbm, 309, rfl⟩
abbrev main_v213 : Ref sig .tc := ⟨.hbm, 310, rfl⟩
abbrev main_cst_58 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_cst_59 : Ref sig .tc := ⟨.hbm, 317, rfl⟩
abbrev main_v219 : Ref sig .tc := ⟨.hbm, 318, rfl⟩
abbrev main_v220 : Ref sig .tc := ⟨.hbm, 319, rfl⟩
abbrev main_cst_60 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_cst_61 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_v235 : Ref sig .tc := ⟨.hbm, 336, rfl⟩
abbrev main_call6_cst : Ref sig .tc := ⟨.hbm, 337, rfl⟩
abbrev main_call6_v0 : Ref sig .tc := ⟨.hbm, 338, rfl⟩
abbrev main_call6_v1 : Ref sig .tc := ⟨.hbm, 339, rfl⟩
abbrev main_call6_cst_0 : Ref sig .tc := ⟨.hbm, 340, rfl⟩
abbrev main_call6_v2 : Ref sig .tc := ⟨.hbm, 341, rfl⟩
abbrev main_call6_v3 : Ref sig .tc := ⟨.hbm, 342, rfl⟩
abbrev main_call6_cst_1 : Ref sig .tc := ⟨.hbm, 343, rfl⟩
abbrev main_call6_call0_v0 : Ref sig .tc := ⟨.hbm, 344, rfl⟩
abbrev main_call6_call0_v1 : Ref sig .tc := ⟨.hbm, 345, rfl⟩
abbrev main_call6_v4 : Ref sig .tc := ⟨.hbm, 346, rfl⟩
abbrev main_call6_v5 : Ref sig .tc := ⟨.hbm, 347, rfl⟩
abbrev main_call6_cst_2 : Ref sig .tc := ⟨.hbm, 348, rfl⟩
abbrev main_call6_v6 : Ref sig .tc := ⟨.hbm, 349, rfl⟩
abbrev main_call6_v7 : Ref sig .tc := ⟨.hbm, 350, rfl⟩
abbrev main_v236 : Ref sig .tc := ⟨.hbm, 351, rfl⟩
abbrev main_call7_cst : Ref sig .tc := ⟨.hbm, 352, rfl⟩
abbrev main_call7_v0 : Ref sig .tc := ⟨.hbm, 353, rfl⟩
abbrev main_call7_v1 : Ref sig .tc := ⟨.hbm, 354, rfl⟩
abbrev main_call7_cst_0 : Ref sig .tc := ⟨.hbm, 355, rfl⟩
abbrev main_call7_v2 : Ref sig .tc := ⟨.hbm, 356, rfl⟩
abbrev main_call7_v3 : Ref sig .tc := ⟨.hbm, 357, rfl⟩
abbrev main_call7_cst_1 : Ref sig .tc := ⟨.hbm, 358, rfl⟩
abbrev main_call7_call0_v0 : Ref sig .tc := ⟨.hbm, 359, rfl⟩
abbrev main_call7_call0_v1 : Ref sig .tc := ⟨.hbm, 360, rfl⟩
abbrev main_call7_v4 : Ref sig .tc := ⟨.hbm, 361, rfl⟩
abbrev main_call7_v5 : Ref sig .tc := ⟨.hbm, 362, rfl⟩
abbrev main_call7_cst_2 : Ref sig .tc := ⟨.hbm, 363, rfl⟩
abbrev main_call7_v6 : Ref sig .tc := ⟨.hbm, 364, rfl⟩
abbrev main_call7_v7 : Ref sig .tc := ⟨.hbm, 365, rfl⟩
abbrev main_v237 : Ref sig .tc := ⟨.hbm, 366, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S10000x128_0_1 : S1x128.BroadcastsInDim S10000x128 (![0, 1] : Fin 2 → Fin S10000x128.rank)
  shapeCasts_S100000x128_S100000x4x32 : S100000x128.ShapeCasts S100000x4x32
  shapeCasts_S10000x128_S10000x4x32 : S10000x128.ShapeCasts S10000x4x32
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x1x1_0_2 : S30000x1.BroadcastsInDim S30000x1x1 (![0, 2] : Fin 2 → Fin S30000x1x1.rank)
  bcast_S30000x1x1_S30000x4x1_0_1_2 : S30000x1x1.BroadcastsInDim S30000x4x1 (![0, 1, 2] : Fin 3 → Fin S30000x4x1.rank)
  concatenates_S30000x4x32_S30000x4x32_S30000x4x1_S30000x4x65_d2 : Shape.Concatenates [S30000x4x32, S30000x4x32, S30000x4x1] S30000x4x65 2
  bcast_S4x65_S1x4x65_1_2 : S4x65.BroadcastsInDim S1x4x65 (![1, 2] : Fin 2 → Fin S1x4x65.rank)
  bcast_S1x4x65_S30000x4x65_0_1_2 : S1x4x65.BroadcastsInDim S30000x4x65 (![0, 1, 2] : Fin 3 → Fin S30000x4x65.rank)
  reducesTo_S30000x4x65_S30000x4_d2 : S30000x4x65.ReducesTo [2] S30000x4
  h_S_ : 0 < S_.numel
  bcast_S_S30000x4 : S_.BroadcastsInDim S30000x4 (![] : Fin 0 → Fin S30000x4.rank)
  bcast_S_S100000x4 : S_.BroadcastsInDim S100000x4 (![] : Fin 0 → Fin S100000x4.rank)
  bcast_S30000x4_S30000x4x1_0_1 : S30000x4.BroadcastsInDim S30000x4x1 (![0, 1] : Fin 2 → Fin S30000x4x1.rank)
  bcast_S30000x4x1_S30000x4x32_0_1_2 : S30000x4x1.BroadcastsInDim S30000x4x32 (![0, 1, 2] : Fin 3 → Fin S30000x4x32.rank)
  bcast_S_S100000x4x32 : S_.BroadcastsInDim S100000x4x32 (![] : Fin 0 → Fin S100000x4x32.rank)
  bcast_S_S10000x4 : S_.BroadcastsInDim S10000x4 (![] : Fin 0 → Fin S10000x4.rank)
  bcast_S_S10000x4x32 : S_.BroadcastsInDim S10000x4x32 (![] : Fin 0 → Fin S10000x4x32.rank)
  shapeCasts_S100000x4x32_S100000x128 : S100000x4x32.ShapeCasts S100000x128
  shapeCasts_S10000x4x32_S10000x128 : S10000x4x32.ShapeCasts S10000x128
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S10000x128_S10000_d1 : S10000x128.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S100000x128 : S_.BroadcastsInDim S100000x128 (![] : Fin 0 → Fin S100000x128.rank)
  bcast_S_S10000x128 : S_.BroadcastsInDim S10000x128 (![] : Fin 0 → Fin S10000x128.rank)
  dot_S100000x128_S128x128_S100000x128_1_0_0_1_n_n_wf : DotDims.WF S100000x128 S128x128 S100000x128 [1] [0] [0] [1] [] []
  dot_S10000x128_S128x128_S10000x128_1_0_0_1_n_n_wf : DotDims.WF S10000x128 S128x128 S10000x128 [1] [0] [0] [1] [] []
  gather_S100000x4x32_S30000x1_S30000x4x32_12_0_n_n_0_1_1432_wf : GatherDims.WF S100000x4x32 S30000x1 S30000x4x32 [1, 2] [0] [] [0] [] 1 ![1, 4, 32]
  scatter_S100000x4_S30000x1_S30000x4_1_0_0_1_wf : ScatterDims.WF S100000x4 S30000x1 S30000x4 [1] [0] [0] 1
  gather_S100000x4_S30000x1_S30000x4_1_0_n_n_0_1_14_wf : GatherDims.WF S100000x4 S30000x1 S30000x4 [1] [0] [] [0] [] 1 ![1, 4]
  scatter_S100000x4x32_S30000x1_S30000x4x32_12_0_0_1_wf : ScatterDims.WF S100000x4x32 S30000x1 S30000x4x32 [1, 2] [0] [0] 1
  gather_S10000x4x32_S30000x1_S30000x4x32_12_0_n_n_0_1_1432_wf : GatherDims.WF S10000x4x32 S30000x1 S30000x4x32 [1, 2] [0] [] [0] [] 1 ![1, 4, 32]
  scatter_S10000x4_S30000x1_S30000x4_1_0_0_1_wf : ScatterDims.WF S10000x4 S30000x1 S30000x4 [1] [0] [0] 1
  gather_S10000x4_S30000x1_S30000x4_1_0_n_n_0_1_14_wf : GatherDims.WF S10000x4 S30000x1 S30000x4 [1] [0] [] [0] [] 1 ![1, 4]
  scatter_S10000x4x32_S30000x1_S30000x4x32_12_0_0_1_wf : ScatterDims.WF S10000x4x32 S30000x1 S30000x4x32 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x4x32_S30000x1_S30000x4x32_12_0_n_n_0_1_1432 : GatherDims S100000x4x32 S30000x1 S30000x4x32 where
  offsetDims := [1, 2]
  collapsedSliceDims := [0]
  operandBatchingDims := []
  startIndicesBatchingDims := []
  startIndexMap := [0]
  indexVectorDim := 1
  sliceSizes := ![1, 4, 32]
  wf := gather_S100000x4x32_S30000x1_S30000x4x32_12_0_n_n_0_1_1432_wf
def scatter_S100000x4_S30000x1_S30000x4_1_0_0_1 : ScatterDims S100000x4 S30000x1 S30000x4 where
  updateWindowDims := [1]
  insertedWindowDims := [0]
  scatterDimsToOperandDims := [0]
  indexVectorDim := 1
  wf := scatter_S100000x4_S30000x1_S30000x4_1_0_0_1_wf
def gather_S100000x4_S30000x1_S30000x4_1_0_n_n_0_1_14 : GatherDims S100000x4 S30000x1 S30000x4 where
  offsetDims := [1]
  collapsedSliceDims := [0]
  operandBatchingDims := []
  startIndicesBatchingDims := []
  startIndexMap := [0]
  indexVectorDim := 1
  sliceSizes := ![1, 4]
  wf := gather_S100000x4_S30000x1_S30000x4_1_0_n_n_0_1_14_wf
def scatter_S100000x4x32_S30000x1_S30000x4x32_12_0_0_1 : ScatterDims S100000x4x32 S30000x1 S30000x4x32 where
  updateWindowDims := [1, 2]
  insertedWindowDims := [0]
  scatterDimsToOperandDims := [0]
  indexVectorDim := 1
  wf := scatter_S100000x4x32_S30000x1_S30000x4x32_12_0_0_1_wf
def gather_S10000x4x32_S30000x1_S30000x4x32_12_0_n_n_0_1_1432 : GatherDims S10000x4x32 S30000x1 S30000x4x32 where
  offsetDims := [1, 2]
  collapsedSliceDims := [0]
  operandBatchingDims := []
  startIndicesBatchingDims := []
  startIndexMap := [0]
  indexVectorDim := 1
  sliceSizes := ![1, 4, 32]
  wf := gather_S10000x4x32_S30000x1_S30000x4x32_12_0_n_n_0_1_1432_wf
def scatter_S10000x4_S30000x1_S30000x4_1_0_0_1 : ScatterDims S10000x4 S30000x1 S30000x4 where
  updateWindowDims := [1]
  insertedWindowDims := [0]
  scatterDimsToOperandDims := [0]
  indexVectorDim := 1
  wf := scatter_S10000x4_S30000x1_S30000x4_1_0_0_1_wf
def gather_S10000x4_S30000x1_S30000x4_1_0_n_n_0_1_14 : GatherDims S10000x4 S30000x1 S30000x4 where
  offsetDims := [1]
  collapsedSliceDims := [0]
  operandBatchingDims := []
  startIndicesBatchingDims := []
  startIndexMap := [0]
  indexVectorDim := 1
  sliceSizes := ![1, 4]
  wf := gather_S10000x4_S30000x1_S30000x4_1_0_n_n_0_1_14_wf
def scatter_S10000x4x32_S30000x1_S30000x4x32_12_0_0_1 : ScatterDims S10000x4x32 S30000x1 S30000x4x32 where
  updateWindowDims := [1, 2]
  insertedWindowDims := [0]
  scatterDimsToOperandDims := [0]
  indexVectorDim := 1
  wf := scatter_S10000x4x32_S30000x1_S30000x4x32_12_0_0_1_wf

class Facts : Prop extends Facts₀ where

variable [Facts]
-- ==== Proof.K.Body0.lean ====
import proofs.«133871_g61280593379539_cont_9to1c4b_765_12_alg».proof.Proof.Gen.Kernel.Launch
import proofs.«133871_g61280593379539_cont_9to1c4b_765_12_alg».proof.Proof.Gen.Kernel.Skeleton
import proofs.«133871_g61280593379539_cont_9to1c4b_765_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x16 := Rect.unit (s := S128x16) ![0, 0] S128x16.size inb_S128x16_S128x16_0_0
abbrev r0_5 : Rect S2000x16 := Rect.unit (s := S2000x16) ![0, 0] S2000x16.size inb_S2000x16_S2000x16_0_0

noncomputable def out0_4 (x0 : Vec F S2000x128 .f32) (x1 : Vec F S128x128 .f32) (x2 : Vec F S1x128 .f32) (x3 : Vec F S128x16 .f32) : Vec F S2000x128 .f32 :=
  View.canon [⟨r0_0, k0_pay1 (View.ld x0 r0_0) (View.ld x1 r0_1) (View.ld x2 r0_2)⟩]

noncomputable def out0_5 (x0 : Vec F S2000x128 .f32) (x1 : Vec F S128x128 .f32) (x2 : Vec F S1x128 .f32) (x3 : Vec F S128x16 .f32) : Vec F S2000x16 .f32 :=
  View.canon [⟨r0_5, k0_pay2 (View.ld x0 r0_0) (View.ld x1 r0_1) (View.ld x2 r0_2) (View.ld x3 r0_3)⟩]

-- The body reads its four inputs whole and fills each output with one store, so each output reads the store's payload.
theorem sound_kernel0 (c : Dev nD) (E : Set ℕ) (i : grid0.Coords)
    (arg0 : Memref sig .tc .vmem S2000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S128x16 .f32) (harg3 : arg3.IsWhole)
    (arg4 : Memref sig .tc .vmem S2000x128 .f32) (harg4 : arg4.IsWhole) (arg5 : Memref sig .tc .vmem S2000x16 .f32) (harg5 : arg5.IsWhole)
    (x0 : Vec F S2000x128 .f32) (x1 : Vec F S128x128 .f32) (x2 : Vec F S1x128 .f32) (x3 : Vec F S128x16 .f32) (K : PUnit → sProp 𝕄) :
    iprop(owns c arg0 fullShare x0 ∗ owns c arg1 fullShare x1 ∗ owns c arg2 fullShare x2
        ∗ owns c arg3 fullShare x3 ∗ (∃ d, owns c arg4 fullShare d) ∗ (∃ d, owns c arg5 fullShare d)
        ∗ (iprop(owns c arg0 fullShare x0 ∗ owns c arg1 fullShare x1 ∗ owns c arg2 fullShare x2
            ∗ owns c arg3 fullShare x3 ∗ owns c arg4 fullShare (out0_4 x0 x1 x2 x3)
            ∗ owns c arg5 fullShare (out0_5 x0 x1 x2 x3)) -∗ K ⟨⟩))
      ⊢ wp frame (wpE (defs₀ (F := F)) Variants.none c none) E (cc0__lin_proj_body i arg0 harg0 arg1 harg1 arg2 harg2 arg3 harg3 arg4 harg4 arg5 harg5) K := by
  simp only [cc0__lin_proj_body_eq_skeleton]; unfold cc0__lin_proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4] <;> iexists _ <;> iframe <;> ipureintro <;>
    exact View.read_writes_eq_canon _ _ _ (View.cover_of_wholeMem _ (View.Piece.wholeMem_here (by rfl)))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> exact fun d =>
    ((dat0 V c).before_in_eq_fetched _ rfl (fun _ => rfl) (fun _ _ _ => rfl) (fun _ => rfl) t d).trans rfl

-- The body's triple at each point's input blocks; the invariant and the debts pass through unread.
theorem body_obligation0 (c : Dev nD) : BodyObligation (dat0 (F := F) V c) (defs₀ (F := F)) Variants.none () Set.univ := fun t => by
  rw [bigSep_W0, bigSep_W0]
  obtain ⟨b0, b1, b2, b3⟩ := before0 V c t
  simp only [b0, b1, b2, b3]
  show _ ⊢ wp frame _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ (st0_0 t) _ (st0_1 t) _ (st0_2 t) _ (st0_3 t) _ (st0_4 t) _ (st0_5 t) _ (iblk0 V c 0 t) (iblk0 V c 1 t) (iblk0 V c 2 t) (iblk0 V c 3 t) _)
  iframe H0 H1 H2 H3
  isplitl [H4]; · iexists _; iexact H4
  isplitl [H5]; · iexists _; iexact H5
  iintro ⟨H0, H1, H2, H3, H4, H5⟩
  dsimp only [dat0]
  iframe
  iexact Ho

end Cert.Kernel.Hand

end
-- ==== Proof.K.Body1.lean ====
import proofs.«133871_g61280593379539_cont_9to1c4b_765_12_alg».proof.Proof.K.Body0

noncomputable section

namespace Cert.Kernel.Hand

open Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x16 := Rect.unit (s := S128x16) ![0, 0] S128x16.size inb_S128x16_S128x16_0_0
abbrev r1_5 : Rect S2000x16 := Rect.unit (s := S2000x16) ![0, 0] S2000x16.size inb_S2000x16_S2000x16_0_0

noncomputable def out1_4 (x0 : Vec F S2000x128 .f32) (x1 : Vec F S128x128 .f32) (x2 : Vec F S1x128 .f32) (x3 : Vec F S128x16 .f32) : Vec F S2000x128 .f32 :=
  View.canon [⟨r1_0, k1_pay1 (View.ld x0 r1_0) (View.ld x1 r1_1) (View.ld x2 r1_2)⟩]

noncomputable def out1_5 (x0 : Vec F S2000x128 .f32) (x1 : Vec F S128x128 .f32) (x2 : Vec F S1x128 .f32) (x3 : Vec F S128x16 .f32) : Vec F S2000x16 .f32 :=
  View.canon [⟨r1_5, k1_pay2 (View.ld x0 r1_0) (View.ld x1 r1_1) (View.ld x2 r1_2) (View.ld x3 r1_3)⟩]

-- Region 1 runs region 0's body,
theorem cc1_eq (i : grid1.Coords) : cc1__lin_proj_body (F := F) i = cc0__lin_proj_body (grid0.coords ⟨0, by decide⟩) := rfl

-- so it leaves the same function of its input blocks.
theorem out1_eq : out1_4 (F := F) = out0_4 ∧ out1_5 (F := F) = out0_5 := ⟨rfl, rfl⟩

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;> exact fun d =>
    ((dat1 V c).before_in_eq_fetched _ rfl (fun _ => rfl) (fun _ _ _ => rfl) (fun _ => rfl) t d).trans rfl

-- Region 0's triple of the same body, at each point's input blocks; the invariant and the debts pass through unread.
theorem body_obligation1 (c : Dev nD) : BodyObligation (dat1 (F := F) V c) (defs₀ (F := F)) Variants.none () Set.univ := fun t => by
  rw [bigSep_W1, bigSep_W1]
  obtain ⟨b0, b1, b2, b3⟩ := before1 V c t
  simp only [b0, b1, b2, b3]
  show _ ⊢ wp frame _ _ (bodyAt1 t) _
  rw [bodyAt1, cc1_eq]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ (st1_0 t) _ (st1_1 t) _ (st1_2 t) _ (st1_3 t) _ (st1_4 t) _ (st1_5 t) _ (iblk1 V c 0 t) (iblk1 V c 1 t) (iblk1 V c 2 t) (iblk1 V c 3 t) _)
  iframe H0 H1 H2 H3
  isplitl [H4]; · iexists _; iexact H4
  isplitl [H5]; · iexists _; iexact H5
  iintro ⟨H0, H1, H2, H3, H4, H5⟩
  dsimp only [dat1]
  rw [out1_eq.1, out1_eq.2]
  iframe
  iexact Ho

end Cert.Kernel.Hand

end
-- ==== Proof.K.Body2.lean ====
import proofs.«133871_g61280593379539_cont_9to1c4b_765_12_alg».proof.Proof.Gen.Kernel.Launch
import proofs.«133871_g61280593379539_cont_9to1c4b_765_12_alg».proof.Proof.Gen.Kernel.Skeleton
import proofs.«133871_g61280593379539_cont_9to1c4b_765_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

noncomputable def out2_4 (x0 x1 : Vec F S2000x128 .f32) (x2 x3 : Vec F S1x128 .f32) : Vec F S2000x128 .f32 :=
  View.canon [⟨r2_0, k2_pay1 (View.ld x0 r2_0) (View.ld x1 r2_0) (View.ld x2 r2_1) (View.ld x3 r2_1)⟩]

-- The body reads its four inputs whole and fills the result with one store, so the result reads the store's payload.
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 x1 : Vec F S2000x128 .f32) (x2 x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out2_4 x0 x1 x2 x3)) -∗ K ⟨⟩))
      ⊢ wp frame (wpE (defs₀ (F := F)) Variants.none c none) E (cc2__epilogue_body i arg1 harg1 arg2 harg2 arg3 harg3 arg4 harg4 arg5 harg5) K := by
  simp only [cc2__epilogue_body_eq_skeleton]; unfold cc2__epilogue_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe; ipureintro
  exact View.read_writes_eq_canon _ _ _ (View.cover_of_wholeMem _ (View.Piece.wholeMem_here (by rfl)))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> exact fun d =>
    ((dat2 V c).before_in_eq_fetched _ rfl (fun _ => rfl) (fun _ _ _ => rfl) (fun _ => rfl) t d).trans rfl

-- The body's triple at each point's input blocks; the invariant and the debts pass through unread.
theorem body_obligation2 (c : Dev nD) : BodyObligation (dat2 (F := F) V c) (defs₀ (F := F)) Variants.none () Set.univ := fun t => by
  rw [bigSep_W2, bigSep_W2]
  obtain ⟨b0, b1, b2, b3⟩ := before2 V c t
  simp only [b0, b1, b2, b3]
  show _ ⊢ wp frame _ _ (bodyAt2 t) _
  iintro ⟨HΦ, Ho, ⟨%d0, H0⟩, ⟨%d1, H1⟩, ⟨%d2, H2⟩, ⟨%d3, H3⟩, ⟨%d4, H4⟩⟩
  iapply (sound_kernel2 c Set.univ _ (st2_0 t) _ (st2_1 t) _ (st2_2 t) _ (st2_3 t) _ (st2_4 t) _ (iblk2 V c 0 t) (iblk2 V c 1 t) (iblk2 V c 2 t) (iblk2 V c 3 t) _)
  iframe H0 H1 H2 H3
  isplitl [H4]; · iexists _; iexact H4
  iintro ⟨H0, H1, H2, H3, H4⟩
  dsimp only [dat2]
  iframe
  iexact Ho

end Cert.Kernel.Hand

end
-- ==== Proof.K.Body3.lean ====
import proofs.«133871_g61280593379539_cont_9to1c4b_765_12_alg».proof.Proof.K.Body2

noncomputable section

namespace Cert.Kernel.Hand

open Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

noncomputable def out3_4 (x0 x1 : Vec F S2000x128 .f32) (x2 x3 : Vec F S1x128 .f32) : Vec F S2000x128 .f32 :=
  View.canon [⟨r3_0, k3_pay1 (View.ld x0 r3_0) (View.ld x1 r3_0) (View.ld x2 r3_1) (View.ld x3 r3_1)⟩]

-- Region 3 runs region 2's body,
theorem cc3_eq (i : grid3.Coords) : cc3__epilogue_body (F := F) i = cc2__epilogue_body (grid2.coords ⟨0, by decide⟩) := rfl

-- so it leaves the same function of its input blocks.
theorem out3_eq : out3_4 (F := F) = out2_4 := rfl

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) (iblk3 V c 3 t) := by dsimp only [dat3]

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl) (fun _ => rfl) t d).trans rfl

-- Region 2's triple of the same body, at each point's input blocks; the invariant and the debts pass through unread.
theorem body_obligation3 (c : Dev nD) : BodyObligation (dat3 (F := F) V c) (defs₀ (F := F)) Variants.none () Set.univ := fun t => by
  rw [bigSep_W3, bigSep_W3]
  obtain ⟨b0, b1, b2, b3⟩ := before3 V c t
  simp only [b0, b1, b2, b3]
  show _ ⊢ wp frame _ _ (bodyAt3 t) _
  rw [bodyAt3, cc3_eq]
  iintro ⟨HΦ, Ho, ⟨%d0, H0⟩, ⟨%d1, H1⟩, ⟨%d2, H2⟩, ⟨%d3, H3⟩, ⟨%d4, H4⟩⟩
  iapply (sound_kernel2 c Set.univ _ (st3_0 t) _ (st3_1 t) _ (st3_2 t) _ (st3_3 t) _ (st3_4 t) _ (iblk3 V c 0 t) (iblk3 V c 1 t) (iblk3 V c 2 t) (iblk3 V c 3 t) _)
  iframe H0 H1 H2 H3
  isplitl [H4]; · iexists _; iexact H4
  iintro ⟨H0, H1, H2, H3, H4⟩
  dsimp only [dat3]
  rw [out3_eq]
  iframe
  iexact Ho

end Cert.Kernel.Hand

end
-- ==== Proof.K.Run.lean ====
import proofs.«133871_g61280593379539_cont_9to1c4b_765_12_alg».proof.Proof.Gen.Kernel.Launch
import proofs.«133871_g61280593379539_cont_9to1c4b_765_12_alg».proof.Proof.Gen.Kernel.Skeleton
import proofs.«133871_g61280593379539_cont_9to1c4b_765_12_alg».proof.Proof.Gen.Kernel.Points
import proofs.«133871_g61280593379539_cont_9to1c4b_765_12_alg».proof.Proof.K.Body0
import proofs.«133871_g61280593379539_cont_9to1c4b_765_12_alg».proof.Proof.K.Body1
import proofs.«133871_g61280593379539_cont_9to1c4b_765_12_alg».proof.Proof.K.Body2
import proofs.«133871_g61280593379539_cont_9to1c4b_765_12_alg».proof.Proof.K.Body3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)
abbrev W10 : Dev nD → Valuation τ sig (Elt F) := fun c => StableHlo.after hostOps2_5 (W9 m ρ c)
abbrev W11 : Dev nD → Valuation τ sig (Elt F) := fun c => StableHlo.after hostOps2_6 (W10 m ρ c)
abbrev W12 : Dev nD → Valuation τ sig (Elt F) := fun c => StableHlo.after hostOps2_7 (W11 m ρ c)
abbrev W13 : Dev nD → Valuation τ sig (Elt F) := fun c => StableHlo.after hostOps2_8 (W12 m ρ c)
abbrev W14 : Dev nD → Valuation τ sig (Elt F) := fun c => StableHlo.after hostOps2_9 (W13 m ρ c)
abbrev W15 : Dev nD → Valuation τ sig (Elt F) := fun c => StableHlo.after hostOps2_10 (W14 m ρ c)
abbrev W16 : Dev nD → Valuation τ sig (Elt F) := fun c => StableHlo.after hostOps2_11 (W15 m ρ c)
abbrev W17 : Dev nD → Valuation τ sig (Elt F) := fun c => StableHlo.after hostOps2_12 (W16 m ρ c)
abbrev V17 : (c : Dev nD) → (b : Ref sig .tc) → Buf (Elt F) ((c : Thread nD τ).loc b) := fun c b => W17 m ρ c b
noncomputable def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
abbrev W19 : Dev nD → Valuation τ sig (Elt F) := fun c => StableHlo.after hostOps3 (W18 m ρ c)
abbrev V19 : (c : Dev nD) → (b : Ref sig .tc) → Buf (Elt F) ((c : Thread nD τ).loc b) := fun c b => W19 m ρ c b
noncomputable def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb

abbrev IsArg (b : Ref sig .tc) : Prop := b.space = .hbm ∧ (b.idx : ℕ) < 22
theorem ne_of_isArg {b y : Ref sig .tc} (hb : IsArg b) (hy : ¬ IsArg y) : b ≠ y := fun e => hy (e ▸ hb)

/-- The sixteen stretches of host operations, in order. -/
noncomputable def stretch : ℕ → List (HloOp τ sig (Elt F))
  | 0 => hostOps0 | 1 => hostOps1 | 2 => hostOps2 | 3 => hostOps2_1 | 4 => hostOps2_2 | 5 => hostOps2_3 | 6 => hostOps2_4 | 7 => hostOps2_5
  | 8 => hostOps2_6 | 9 => hostOps2_7 | 10 => hostOps2_8 | 11 => hostOps2_9 | 12 => hostOps2_10 | 13 => hostOps2_11 | 14 => hostOps2_12
  | 15 => hostOps3 | _ => []

set_option maxHeartbeats 40000000 in
/-- No host operation writes an argument: every output is a buffer past the 22 arguments. -/
theorem stretch_keeps (b : Ref sig .tc) (hb : IsArg b) :
    ∀ k, (stretch k : List (HloOp τ sig (Elt F))).Forall fun op => Proc.devRef .tc b ∉ op.writes
  | 0 | 1 | 2 | 3 | 4 | 5 | 6 | 7 | 8 | 9 | 10 | 11 | 12 | 13 | 14 | 15 => by
    simp only [stretch, hostOps0, hostOps1, hostOps2, hostOps2_1, hostOps2_2, hostOps2_3, hostOps2_4, hostOps2_5, hostOps2_6, hostOps2_7, hostOps2_8, hostOps2_9, hostOps2_10, hostOps2_11, hostOps2_12, hostOps3, List.Forall, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (ne_of_isArg hb (by decide))
  | _ + 16 => trivial

set_option maxHeartbeats 40000000 in
theorem stretch_fresh : ∀ k, (stretch k : List (HloOp τ sig (Elt F))).Forall fun op => op.fresh = ∅
  | 0 | 1 | 2 | 3 | 4 | 5 | 6 | 7 | 8 | 9 | 10 | 11 | 12 | 13 | 14 | 15 => by simp only [stretch, List.Forall]; repeat' constructor
  | _ + 16 => trivial

/-- A stretch of host operations leaves every argument's buffer as it was. -/
theorem stretch_arg (k : ℕ) (W : Valuation τ sig (Elt F)) (b : Ref sig .tc) (hb : IsArg b) :
    StableHlo.after (stretch k) W (Proc.devRef .tc b) = W (Proc.devRef .tc b) :=
  StableHlo.after_of_forall_not_mem _ _ (List.forall_iff_forall_mem.mp (stretch_keeps b hb k))

/-- At a boundary an argument's buffer holds what the launch memory holds. -/
theorem W0_arg (c : Dev nD) (b : Ref sig .tc) (hb : IsArg b) : W0 m ρ c (Proc.devRef .tc b) = m ((c : Thread nD τ).loc b) := rfl
theorem W1_arg (c : Dev nD) (b : Ref sig .tc) (hb : IsArg b) : W1 m ρ c (Proc.devRef .tc b) = m ((c : Thread nD τ).loc b) :=
  (stretch_arg 0 _ b hb).trans (W0_arg m ρ c b hb)
theorem arr0_cases : ∀ w : Fin cfg0.W, (w = 0 ∧ Pipeline.arrRef spec0 w = main_arg0) ∨ ¬ IsArg (Pipeline.arrRef spec0 w) := by decide
theorem W2_arg (c : Dev nD) (b : Ref sig .tc) (hb : IsArg b) : W2 m ρ c (Proc.devRef .tc b) = m ((c : Thread nD τ).loc b) := by
  by_cases h : b = main_arg0
  · subst h
    exact ((W2_arr m ρ c 0).trans (((dat0 (V1 m ρ) c).arrAt_in 0 rfl _).trans (A_eq0 (V1 m ρ) c 0))).trans (W1_arg m ρ c _ hb)
  · exact (W2_of_ne m ρ c b fun w e => (arr0_cases w).elim (fun e' => h (e.symm.trans e'.2)) (fun hn => hn (e ▸ hb))).trans (W1_arg m ρ c b hb)
theorem W3_arg (c : Dev nD) (b : Ref sig .tc) (hb : IsArg b) : W3 m ρ c (Proc.devRef .tc b) = m ((c : Thread nD τ).loc b) :=
  (stretch_arg 1 _ b hb).trans (W2_arg m ρ c b hb)
theorem arr1_cases : ∀ w : Fin cfg1.W, (w = 0 ∧ Pipeline.arrRef spec1 w = main_arg1) ∨ ¬ IsArg (Pipeline.arrRef spec1 w) := by decide
theorem W4_arg (c : Dev nD) (b : Ref sig .tc) (hb : IsArg b) : W4 m ρ c (Proc.devRef .tc b) = m ((c : Thread nD τ).loc b) := by
  by_cases h : b = main_arg1
  · subst h
    exact ((W4_arr m ρ c 0).trans (((dat1 (V3 m ρ) c).arrAt_in 0 rfl _).trans (A_eq1 (V3 m ρ) c 0))).trans (W3_arg m ρ c _ hb)
  · exact (W4_of_ne m ρ c b fun w e => (arr1_cases w).elim (fun e' => h (e.symm.trans e'.2)) (fun hn => hn (e ▸ hb))).trans (W3_arg m ρ c b hb)
theorem W17_arg (c : Dev nD) (b : Ref sig .tc) (hb : IsArg b) : W17 m ρ c (Proc.devRef .tc b) = m ((c : Thread nD τ).loc b) :=
  (stretch_arg 14 _ b hb).trans <| (stretch_arg 13 _ b hb).trans <| (stretch_arg 12 _ b hb).trans <| (stretch_arg 11 _ b hb).trans <|
  (stretch_arg 10 _ b hb).trans <| (stretch_arg 9 _ b hb).trans <| (stretch_arg 8 _ b hb).trans <| (stretch_arg 7 _ b hb).trans <|
  (stretch_arg 6 _ b hb).trans <| (stretch_arg 5 _ b hb).trans <| (stretch_arg 4 _ b hb).trans <| (stretch_arg 3 _ b hb).trans <|
  (stretch_arg 2 _ b hb).trans (W4_arg m ρ c b hb)
theorem arr2_cases : ∀ w : Fin cfg2.W, ¬ IsArg (Pipeline.arrRef spec2 w) := by decide
theorem W18_arg (c : Dev nD) (b : Ref sig .tc) (hb : IsArg b) : W18 m ρ c (Proc.devRef .tc b) = m ((c : Thread nD τ).loc b) :=
  (W18_of_ne m ρ c b fun w e => arr2_cases w (e ▸ hb)).trans (W17_arg m ρ c b hb)
theorem arr3_cases : ∀ w : Fin cfg3.W, ¬ IsArg (Pipeline.arrRef spec3 w) := by decide
theorem W20_arg (c : Dev nD) (b : Ref sig .tc) (hb : IsArg b) : W20 m ρ c (Proc.devRef .tc b) = m ((c : Thread nD τ).loc b) :=
  (W20_of_ne m ρ c b fun w e => arr3_cases w (e ▸ hb)).trans <| (stretch_arg 15 _ b hb).trans (W18_arg m ρ c b hb)

theorem W20_res0 (c : Dev nD) : W20 m ρ c (Proc.devRef .tc main_v378) = (dat2 (V17 m ρ) c).arrAt 4 cfg2.N :=
  calc W20 m ρ c (Proc.devRef .tc main_v378)
    _ = W19 m ρ c (Proc.devRef .tc main_v378) := W20_of_ne m ρ c main_v378 (by decide)
    _ = W18 m ρ c (Proc.devRef .tc main_v378) := StableHlo.after_of_forall_not_mem (b := Proc.devRef .tc main_v378) _ _ (List.forall_iff_forall_mem.mp (by
          simp only [hostOps3, List.Forall, StableHlo.nullary_writes, StableHlo.unary_writes, StableHlo.binary_writes,
            StableHlo.ternary_writes, StableHlo.reshape_writes, StableHlo.nary_writes, Finset.mem_singleton]
          repeat' apply And.intro
          all_goals exact StableHlo.devRef_ne_of_ne (by decide)))
    _ = (dat2 (V17 m ρ) c).arrAt 4 cfg2.N := W18_arr m ρ c 4
theorem W20_res1 (c : Dev nD) : W20 m ρ c (Proc.devRef .tc main_v381) = (dat3 (V19 m ρ) c).arrAt 4 cfg3.N :=
  W20_arr m ρ c 4

abbrev adm : (p : Fin 4) → (pcfgs (F := F) p).Adm := fun p => (cfgs p).toPCfg_adm
noncomputable def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V17 m ρ) c
  | ⟨3, _⟩ => fun c => dat3 (V19 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

set_option backward.isDefEq.respectTransparency.types false in
/-- A pipelined region as a segment: the buffers go from `W` to `W'`, which differs from `W` only at the region's arrays. -/
noncomputable def reg (p : Fin 4) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = W c (Proc.devRef .tc (Pipeline.arrRef (Pipeline.pin (pcfgs (F := F)) adm p).spec w)))
    (hΦ : ∀ c t, (pdats m ρ p c).Φ t = Pipeline.ΦA (Pipeline.pin (pcfgs (F := F)) adm p).spec c)
    (hW' : ∀ c, W' c = Pipeline.withArrays (Pipeline.pin (pcfgs (F := F)) adm p).spec c (W c)
      fun w => (pdats m ρ p c).arrAt w (Pipeline.pin (pcfgs (F := F)) adm p).N) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%O, HO⟩; iexists O; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b)
      ((pdats m ρ p c).arrAt · (Pipeline.pin (pcfgs (F := F)) adm p).N)
      (fun w => ((congrFun (hW' c) _).trans (Pipeline.withArrays_arr (Pipeline.pin (pcfgs (F := F)) adm p).spec lf.win.arr_inj c _ _ w)).symm)
      (fun b hb => by
        rw [hW' c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%O, -, HO⟩; iexists O; iexact HO

noncomputable def reg0 := reg m ρ 0 launch0 (W1 m ρ) (W2 m ρ) (fun c => (body_obligation0 (V1 m ρ) c).loose) (fun _ _ => rfl) (fun _ => rfl) (fun _ _ => rfl) (fun _ _ => rfl) (fun _ _ => rfl) fun _ => rfl
noncomputable def reg1 := reg m ρ 1 launch1 (W3 m ρ) (W4 m ρ) (fun c => (body_obligation1 (V3 m ρ) c).loose) (fun _ _ => rfl) (fun _ => rfl) (fun _ _ => rfl) (fun _ _ => rfl) (fun _ _ => rfl) fun _ => rfl
noncomputable def reg2 := reg m ρ 2 launch2 (W17 m ρ) (W18 m ρ) (fun c => (body_obligation2 (V17 m ρ) c).loose) (fun _ _ => rfl) (fun _ => rfl) (fun _ _ => rfl) (fun _ _ => rfl) (fun _ _ => rfl) fun _ => rfl
noncomputable def reg3 := reg m ρ 3 launch3 (W19 m ρ) (W20 m ρ) (fun c => (body_obligation3 (V19 m ρ) c).loose) (fun _ _ => rfl) (fun _ => rfl) (fun _ _ => rfl) (fun _ _ => rfl) (fun _ _ => rfl) fun _ => rfl

/-- @main's twenty segments in order. -/
abbrev segs : List (Pipeline.Seg (pcfgs (F := F)) adm (pdats m ρ) () defs₀ 𝒱₀ L lv) :=
  [
    .host (hseg hostOps0 hostOps0_sub (stretch_fresh 0) (W0 m ρ)),
    .region (reg0 m ρ),
    .host (hseg hostOps1 hostOps1_sub (stretch_fresh 1) (W2 m ρ)),
    .region (reg1 m ρ),
    .host (hseg hostOps2 hostOps2_sub (stretch_fresh 2) (W4 m ρ)),
    .host (hseg hostOps2_1 hostOps2_1_sub (stretch_fresh 3) (W5 m ρ)),
    .host (hseg hostOps2_2 hostOps2_2_sub (stretch_fresh 4) (W6 m ρ)),
    .host (hseg hostOps2_3 hostOps2_3_sub (stretch_fresh 5) (W7 m ρ)),
    .host (hseg hostOps2_4 hostOps2_4_sub (stretch_fresh 6) (W8 m ρ)),
    .host (hseg hostOps2_5 hostOps2_5_sub (stretch_fresh 7) (W9 m ρ)),
    .host (hseg hostOps2_6 hostOps2_6_sub (stretch_fresh 8) (W10 m ρ)),
    .host (hseg hostOps2_7 hostOps2_7_sub (stretch_fresh 9) (W11 m ρ)),
    .host (hseg hostOps2_8 hostOps2_8_sub (stretch_fresh 10) (W12 m ρ)),
    .host (hseg hostOps2_9 hostOps2_9_sub (stretch_fresh 11) (W13 m ρ)),
    .host (hseg hostOps2_10 hostOps2_10_sub (stretch_fresh 12) (W14 m ρ)),
    .host (hseg hostOps2_11 hostOps2_11_sub (stretch_fresh 13) (W15 m ρ)),
    .host (hseg hostOps2_12 hostOps2_12_sub (stretch_fresh 14) (W16 m ρ)),
    .region (reg2 m ρ),
    .host (hseg hostOps3 hostOps3_sub (stretch_fresh 15) (W18 m ρ)),
    .region (reg3 m ρ) ]

set_option maxRecDepth 65536 in
set_option maxHeartbeats 40000000 in
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- Every argument's buffer in the memory `s` is as launched. -/
abbrev argsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)
  ∧ s.mem ((c.tc : Thread nD τ).loc main_arg18) = m ((c.tc : Thread nD τ).loc main_arg18)
  ∧ s.mem ((c.tc : Thread nD τ).loc main_arg19) = m ((c.tc : Thread nD τ).loc main_arg19)
  ∧ s.mem ((c.tc : Thread nD τ).loc main_arg20) = m ((c.tc : Thread nD τ).loc main_arg20)
  ∧ s.mem ((c.tc : Thread nD τ).loc main_arg21) = m ((c.tc : Thread nD τ).loc main_arg21)

/-- Every final state holds each result buffer at the last boundary's contents and each argument as launched. -/
theorem run_full : θ_run defs (onTc (τ := τ) (main (F := F))) ⟨m, fun _ => 0, ρ⟩ (fun r => ∀ c : Dev nD,
      r.2.mem ((c.tc : Thread nD τ).loc main_v378) = W20 m ρ c (Proc.devRef .tc main_v378)
      ∧ r.2.mem ((c.tc : Thread nD τ).loc main_v381) = W20 m ρ c (Proc.devRef .tc main_v381)
      ∧ argsKept m r.2 c) :=
  (θ_run defs _ _).mono (fun r h c => by
    have a : ∀ b : Ref sig .tc, IsArg b → ¬ (Proc.devRef .tc b : DevRef τ sig).isScoped →
        r.2.mem ((c.tc : Thread nD τ).loc b) = m ((c.tc : Thread nD τ).loc b) :=
      fun b hb hs => (h c _ (mem_uc b hs)).trans (W20_arg m ρ c b hb)
    refine ⟨h c _ (mem_uc main_v378 (by decide)), h c _ (mem_uc main_v381 (by decide)), ?_⟩
    repeat' apply And.intro
    all_goals exact a _ (by decide) (by decide)) (run m ρ)

theorem frame : θ_run defs (onTc (τ := τ) (main (F := F))) ⟨m, fun _ => 0, ρ⟩ (fun r => ∀ c : Dev nD, argsKept m r.2 c) :=
  (θ_run defs _ _).mono (fun _ h c => (h c).2.2) (run_full m ρ)

end Cert.Kernel.Hand

end
-- ==== Proof.KI.Body0.lean ====
import proofs.«133871_g61280593379539_cont_9to1c4b_765_12_alg».proof.Proof.Gen.KernelIdeal.Launch
import proofs.«133871_g61280593379539_cont_9to1c4b_765_12_alg».proof.Proof.Gen.KernelIdeal.Skeleton
import proofs.«133871_g61280593379539_cont_9to1c4b_765_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x16 := Rect.unit (s := S128x16) ![0, 0] S128x16.size inb_S128x16_S128x16_0_0
abbrev r0_5 : Rect S2000x16 := Rect.unit (s := S2000x16) ![0, 0] S2000x16.size inb_S2000x16_S2000x16_0_0

noncomputable def out0_4 (x0 : Vec F S2000x128 .f32) (x1 : Vec F S128x128 .f32) (x2 : Vec F S1x128 .f32) (x3 : Vec F S128x16 .f32) : Vec F S2000x128 .f32 :=
  View.canon [⟨r0_0, k0_pay1 (View.ld x0 r0_0) (View.ld x1 r0_1) (View.ld x2 r0_2)⟩]

noncomputable def out0_5 (x0 : Vec F S2000x128 .f32) (x1 : Vec F S128x128 .f32) (x2 : Vec F S1x128 .f32) (x3 : Vec F S128x16 .f32) : Vec F S2000x16 .f32 :=
  View.canon [⟨r0_5, k0_pay2 (View.ld x0 r0_0) (View.ld x1 r0_1) (View.ld x2 r0_2) (View.ld x3 r0_3)⟩]

-- The body reads its four inputs whole and fills each output with one store, so each output reads the store's payload.
theorem sound_kernel0 (c : Dev nD) (E : Set ℕ) (i : grid0.Coords)
    (arg0 : Memref sig .tc .vmem S2000x128 .f32) (harg0 : arg0.IsWhole) (arg1 : Memref sig .tc .vmem S128x128 .f32) (harg1 : arg1.IsWhole)
    (arg2 : Memref sig .tc .vmem S1x128 .f32) (harg2 : arg2.IsWhole) (arg3 : Memref sig .tc .vmem S128x16 .f32) (harg3 : arg3.IsWhole)
    (arg4 : Memref sig .tc .vmem S2000x128 .f32) (harg4 : arg4.IsWhole) (arg5 : Memref sig .tc .vmem S2000x16 .f32) (harg5 : arg5.IsWhole)
    (x0 : Vec F S2000x128 .f32) (x1 : Vec F S128x128 .f32) (x2 : Vec F S1x128 .f32) (x3 : Vec F S128x16 .f32) (K : PUnit → sProp 𝕄) :
    iprop(owns c arg0 fullShare x0 ∗ owns c arg1 fullShare x1 ∗ owns c arg2 fullShare x2
        ∗ owns c arg3 fullShare x3 ∗ (∃ d, owns c arg4 fullShare d) ∗ (∃ d, owns c arg5 fullShare d)
        ∗ (iprop(owns c arg0 fullShare x0 ∗ owns c arg1 fullShare x1 ∗ owns c arg2 fullShare x2
            ∗ owns c arg3 fullShare x3 ∗ owns c arg4 fullShare (out0_4 x0 x1 x2 x3)
            ∗ owns c arg5 fullShare (out0_5 x0 x1 x2 x3)) -∗ K ⟨⟩))
      ⊢ wp frame (wpE (defs₀ (F := F)) Variants.none c none) E (cc0__lin_proj_body i arg0 harg0 arg1 harg1 arg2 harg2 arg3 harg3 arg4 harg4 arg5 harg5) K := by
  simp only [cc0__lin_proj_body_eq_skeleton]; unfold cc0__lin_proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4] <;> iexists _ <;> iframe <;> ipureintro <;>
    exact View.read_writes_eq_canon _ _ _ (View.cover_of_wholeMem _ (View.Piece.wholeMem_here (by rfl)))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0 (c : Dev nD) (t : Fin cfg0.N) :
    (∀ d, (dat0 V c).before 0 t d = iblk0 V c 0 t) ∧ (∀ d, (dat0 V c).before 1 t d = iblk0 V c 1 t)
      ∧ (∀ d, (dat0 V c).before 2 t d = iblk0 V c 2 t) ∧ (∀ d, (dat0 V c).before 3 t d = iblk0 V c 3 t) := by
  refine ⟨?_, ?_, ?_, ?_⟩ <;> exact fun d =>
    ((dat0 V c).before_in_eq_fetched _ rfl (fun _ => rfl) (fun _ _ _ => rfl) (fun _ => rfl) t d).trans rfl

-- The body's triple at each point's input blocks; the invariant and the debts pass through unread.
theorem body_obligation0 (c : Dev nD) : BodyObligation (dat0 (F := F) V c) (defs₀ (F := F)) Variants.none () Set.univ := fun t => by
  rw [bigSep_W0, bigSep_W0]
  obtain ⟨b0, b1, b2, b3⟩ := before0 V c t
  simp only [b0, b1, b2, b3]
  show _ ⊢ wp frame _ _ (bodyAt0 t) _
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ (st0_0 t) _ (st0_1 t) _ (st0_2 t) _ (st0_3 t) _ (st0_4 t) _ (st0_5 t) _ (iblk0 V c 0 t) (iblk0 V c 1 t) (iblk0 V c 2 t) (iblk0 V c 3 t) _)
  iframe H0 H1 H2 H3
  isplitl [H4]; · iexists _; iexact H4
  isplitl [H5]; · iexists _; iexact H5
  iintro ⟨H0, H1, H2, H3, H4, H5⟩
  dsimp only [dat0]
  iframe
  iexact Ho

end Cert.KernelIdeal.Hand

end
-- ==== Proof.KI.Body1.lean ====
import proofs.«133871_g61280593379539_cont_9to1c4b_765_12_alg».proof.Proof.KI.Body0

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x16 := Rect.unit (s := S128x16) ![0, 0] S128x16.size inb_S128x16_S128x16_0_0
abbrev r1_5 : Rect S2000x16 := Rect.unit (s := S2000x16) ![0, 0] S2000x16.size inb_S2000x16_S2000x16_0_0

noncomputable def out1_4 (x0 : Vec F S2000x128 .f32) (x1 : Vec F S128x128 .f32) (x2 : Vec F S1x128 .f32) (x3 : Vec F S128x16 .f32) : Vec F S2000x128 .f32 :=
  View.canon [⟨r1_0, k1_pay1 (View.ld x0 r1_0) (View.ld x1 r1_1) (View.ld x2 r1_2)⟩]

noncomputable def out1_5 (x0 : Vec F S2000x128 .f32) (x1 : Vec F S128x128 .f32) (x2 : Vec F S1x128 .f32) (x3 : Vec F S128x16 .f32) : Vec F S2000x16 .f32 :=
  View.canon [⟨r1_5, k1_pay2 (View.ld x0 r1_0) (View.ld x1 r1_1) (View.ld x2 r1_2) (View.ld x3 r1_3)⟩]

-- Region 1 runs region 0's body,
theorem cc1_eq (i : grid1.Coords) : cc1__lin_proj_body (F := F) i = cc0__lin_proj_body (grid0.coords ⟨0, by decide⟩) := rfl

-- so it leaves the same function of its input blocks.
theorem out1_eq : out1_4 (F := F) = out0_4 ∧ out1_5 (F := F) = out0_5 := ⟨rfl, rfl⟩

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t) := by
  refine ⟨?_, ?_, ?_, ?_⟩ <;> exact fun d =>
    ((dat1 V c).before_in_eq_fetched _ rfl (fun _ => rfl) (fun _ _ _ => rfl) (fun _ => rfl) t d).trans rfl

-- Region 0's triple of the same body, at each point's input blocks; the invariant and the debts pass through unread.
theorem body_obligation1 (c : Dev nD) : BodyObligation (dat1 (F := F) V c) (defs₀ (F := F)) Variants.none () Set.univ := fun t => by
  rw [bigSep_W1, bigSep_W1]
  obtain ⟨b0, b1, b2, b3⟩ := before1 V c t
  simp only [b0, b1, b2, b3]
  show _ ⊢ wp frame _ _ (bodyAt1 t) _
  rw [bodyAt1, cc1_eq]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ (st1_0 t) _ (st1_1 t) _ (st1_2 t) _ (st1_3 t) _ (st1_4 t) _ (st1_5 t) _ (iblk1 V c 0 t) (iblk1 V c 1 t) (iblk1 V c 2 t) (iblk1 V c 3 t) _)
  iframe H0 H1 H2 H3
  isplitl [H4]; · iexists _; iexact H4
  isplitl [H5]; · iexists _; iexact H5
  iintro ⟨H0, H1, H2, H3, H4, H5⟩
  dsimp only [dat1]
  rw [out1_eq.1, out1_eq.2]
  iframe
  iexact Ho

end Cert.KernelIdeal.Hand

end
-- ==== Proof.KI.Body2.lean ====
import proofs.«133871_g61280593379539_cont_9to1c4b_765_12_alg».proof.Proof.Gen.KernelIdeal.Launch
import proofs.«133871_g61280593379539_cont_9to1c4b_765_12_alg».proof.Proof.Gen.KernelIdeal.Skeleton
import proofs.«133871_g61280593379539_cont_9to1c4b_765_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

noncomputable def out2_4 (x0 x1 : Vec F S2000x128 .f32) (x2 x3 : Vec F S1x128 .f32) : Vec F S2000x128 .f32 :=
  View.canon [⟨r2_0, k2_pay1 (View.ld x0 r2_0) (View.ld x1 r2_0) (View.ld x2 r2_1) (View.ld x3 r2_1)⟩]

-- The body reads its four inputs whole and fills the result with one store, so the result reads the store's payload.
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 x1 : Vec F S2000x128 .f32) (x2 x3 : Vec F S1x128 .f32) (K : PUnit → sProp 𝕄) :
    iprop(owns c arg1 fullShare x0 ∗ owns c arg2 fullShare x1 ∗ owns c arg3 fullShare x2 ∗ owns c arg4 fullShare x3 ∗ (∃ d, owns c arg5 fullShare d)
        ∗ (iprop(owns c arg1 fullShare x0 ∗ owns c arg2 fullShare x1 ∗ owns c arg3 fullShare x2 ∗ owns c arg4 fullShare x3 ∗ owns c arg5 fullShare (out2_4 x0 x1 x2 x3)) -∗ K ⟨⟩))
      ⊢ wp frame (wpE (defs₀ (F := F)) Variants.none c none) E (cc2__epilogue_body i arg1 harg1 arg2 harg2 arg3 harg3 arg4 harg4 arg5 harg5) K := by
  simp only [cc2__epilogue_body_eq_skeleton]; unfold cc2__epilogue_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  iexists _; iframe; ipureintro
  exact View.read_writes_eq_canon _ _ _ (View.cover_of_wholeMem _ (View.Piece.wholeMem_here (by rfl)))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;> exact fun d =>
    ((dat2 V c).before_in_eq_fetched _ rfl (fun _ => rfl) (fun _ _ _ => rfl) (fun _ => rfl) t d).trans rfl

-- The body's triple at each point's input blocks; the invariant and the debts pass through unread.
theorem body_obligation2 (c : Dev nD) : BodyObligation (dat2 (F := F) V c) (defs₀ (F := F)) Variants.none () Set.univ := fun t => by
  rw [bigSep_W2, bigSep_W2]
  obtain ⟨b0, b1, b2, b3⟩ := before2 V c t
  simp only [b0, b1, b2, b3]
  show _ ⊢ wp frame _ _ (bodyAt2 t) _
  iintro ⟨HΦ, Ho, ⟨%d0, H0⟩, ⟨%d1, H1⟩, ⟨%d2, H2⟩, ⟨%d3, H3⟩, ⟨%d4, H4⟩⟩
  iapply (sound_kernel2 c Set.univ _ (st2_0 t) _ (st2_1 t) _ (st2_2 t) _ (st2_3 t) _ (st2_4 t) _ (iblk2 V c 0 t) (iblk2 V c 1 t) (iblk2 V c 2 t) (iblk2 V c 3 t) _)
  iframe H0 H1 H2 H3
  isplitl [H4]; · iexists _; iexact H4
  iintro ⟨H0, H1, H2, H3, H4⟩
  dsimp only [dat2]
  iframe
  iexact Ho

end Cert.KernelIdeal.Hand

end
-- ==== Proof.KI.Body3.lean ====
import proofs.«133871_g61280593379539_cont_9to1c4b_765_12_alg».proof.Proof.KI.Body2

noncomputable section

namespace Cert.KernelIdeal.Hand

open Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S1x128 := Rect.unit (s := S1x128) ![0, 0] S1x128.size inb_S1x128_S1x128_0_0

noncomputable def out3_4 (x0 x1 : Vec F S2000x128 .f32) (x2 x3 : Vec F S1x128 .f32) : Vec F S2000x128 .f32 :=
  View.canon [⟨r3_0, k3_pay1 (View.ld x0 r3_0) (View.ld x1 r3_0) (View.ld x2 r3_1) (View.ld x3 r3_1)⟩]

-- Region 3 runs region 2's body,
theorem cc3_eq (i : grid3.Coords) : cc3__epilogue_body (F := F) i = cc2__epilogue_body (grid2.coords ⟨0, by decide⟩) := rfl

-- so it leaves the same function of its input blocks.
theorem out3_eq : out3_4 (F := F) = out2_4 := rfl

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = out3_4 (iblk3 V c 0 t) (iblk3 V c 1 t) (iblk3 V c 2 t) (iblk3 V c 3 t) := by dsimp only [dat3]

theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl) (fun _ => rfl) t d).trans rfl

-- Region 2's triple of the same body, at each point's input blocks; the invariant and the debts pass through unread.
theorem body_obligation3 (c : Dev nD) : BodyObligation (dat3 (F := F) V c) (defs₀ (F := F)) Variants.none () Set.univ := fun t => by
  rw [bigSep_W3, bigSep_W3]
  obtain ⟨b0, b1, b2, b3⟩ := before3 V c t
  simp only [b0, b1, b2, b3]
  show _ ⊢ wp frame _ _ (bodyAt3 t) _
  rw [bodyAt3, cc3_eq]
  iintro ⟨HΦ, Ho, ⟨%d0, H0⟩, ⟨%d1, H1⟩, ⟨%d2, H2⟩, ⟨%d3, H3⟩, ⟨%d4, H4⟩⟩
  iapply (sound_kernel2 c Set.univ _ (st3_0 t) _ (st3_1 t) _ (st3_2 t) _ (st3_3 t) _ (st3_4 t) _ (iblk3 V c 0 t) (iblk3 V c 1 t) (iblk3 V c 2 t) (iblk3 V c 3 t) _)
  iframe H0 H1 H2 H3
  isplitl [H4]; · iexists _; iexact H4
  iintro ⟨H0, H1, H2, H3, H4⟩
  dsimp only [dat3]
  rw [out3_eq]
  iframe
  iexact Ho

end Cert.KernelIdeal.Hand

end
-- ==== Proof.KI.Run.lean ====
import proofs.«133871_g61280593379539_cont_9to1c4b_765_12_alg».proof.Proof.Gen.KernelIdeal.Launch
import proofs.«133871_g61280593379539_cont_9to1c4b_765_12_alg».proof.Proof.Gen.KernelIdeal.Skeleton
import proofs.«133871_g61280593379539_cont_9to1c4b_765_12_alg».proof.Proof.Gen.KernelIdeal.Points
import proofs.«133871_g61280593379539_cont_9to1c4b_765_12_alg».proof.Proof.KI.Body0
import proofs.«133871_g61280593379539_cont_9to1c4b_765_12_alg».proof.Proof.KI.Body1
import proofs.«133871_g61280593379539_cont_9to1c4b_765_12_alg».proof.Proof.KI.Body2
import proofs.«133871_g61280593379539_cont_9to1c4b_765_12_alg».proof.Proof.KI.Body3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)
abbrev W8 : Dev nD → Valuation τ sig (Elt F) := fun c => StableHlo.after hostOps2_3 (W7 m ρ c)
abbrev W9 : Dev nD → Valuation τ sig (Elt F) := fun c => StableHlo.after hostOps2_4 (W8 m ρ c)
abbrev W10 : Dev nD → Valuation τ sig (Elt F) := fun c => StableHlo.after hostOps2_5 (W9 m ρ c)
abbrev W11 : Dev nD → Valuation τ sig (Elt F) := fun c => StableHlo.after hostOps2_6 (W10 m ρ c)
abbrev W12 : Dev nD → Valuation τ sig (Elt F) := fun c => StableHlo.after hostOps2_7 (W11 m ρ c)
abbrev W13 : Dev nD → Valuation τ sig (Elt F) := fun c => StableHlo.after hostOps2_8 (W12 m ρ c)
abbrev W14 : Dev nD → Valuation τ sig (Elt F) := fun c => StableHlo.after hostOps2_9 (W13 m ρ c)
abbrev W15 : Dev nD → Valuation τ sig (Elt F) := fun c => StableHlo.after hostOps2_10 (W14 m ρ c)
abbrev W16 : Dev nD → Valuation τ sig (Elt F) := fun c => StableHlo.after hostOps2_11 (W15 m ρ c)
abbrev W17 : Dev nD → Valuation τ sig (Elt F) := fun c => StableHlo.after hostOps2_12 (W16 m ρ c)
abbrev V17 : (c : Dev nD) → (b : Ref sig .tc) → Buf (Elt F) ((c : Thread nD τ).loc b) := fun c b => W17 m ρ c b
noncomputable def W18 (c : Dev nD) : Valuation τ sig (Elt F) :=
  Pipeline.withArrays spec2 c (W17 m ρ c) fun w => (dat2 (V17 m ρ) c).arrAt w cfg2.N
theorem W18_arr (c : Dev nD) (w : Fin cfg2.W) :
    W18 m ρ c (Proc.devRef .tc (Pipeline.arrRef spec2 w)) = (dat2 (V17 m ρ) c).arrAt w cfg2.N := by
  unfold W18; exact Pipeline.withArrays_arr spec2 launch2.win.arr_inj c _ _ w
theorem W18_of_ne (c : Dev nD) (b : Ref sig .tc) (hb : ∀ w, Pipeline.arrRef spec2 w ≠ b) :
    W18 m ρ c (Proc.devRef .tc b) = W17 m ρ c (Proc.devRef .tc b) := by
  unfold W18; exact Pipeline.withArrays_of_ne spec2 c _ _ b hb
abbrev W19 : Dev nD → Valuation τ sig (Elt F) := fun c => StableHlo.after hostOps3 (W18 m ρ c)
abbrev V19 : (c : Dev nD) → (b : Ref sig .tc) → Buf (Elt F) ((c : Thread nD τ).loc b) := fun c b => W19 m ρ c b
noncomputable def W20 (c : Dev nD) : Valuation τ sig (Elt F) :=
  Pipeline.withArrays spec3 c (W19 m ρ c) fun w => (dat3 (V19 m ρ) c).arrAt w cfg3.N
theorem W20_arr (c : Dev nD) (w : Fin cfg3.W) :
    W20 m ρ c (Proc.devRef .tc (Pipeline.arrRef spec3 w)) = (dat3 (V19 m ρ) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m ρ c (Proc.devRef .tc b) = W19 m ρ c (Proc.devRef .tc b) := by
  unfold W20; exact Pipeline.withArrays_of_ne spec3 c _ _ b hb

abbrev IsArg (b : Ref sig .tc) : Prop := b.space = .hbm ∧ (b.idx : ℕ) < 22
theorem ne_of_isArg {b y : Ref sig .tc} (hb : IsArg b) (hy : ¬ IsArg y) : b ≠ y := fun e => hy (e ▸ hb)

/-- The sixteen stretches of host operations, in order. -/
noncomputable def stretch : ℕ → List (HloOp τ sig (Elt F))
  | 0 => hostOps0 | 1 => hostOps1 | 2 => hostOps2 | 3 => hostOps2_1 | 4 => hostOps2_2 | 5 => hostOps2_3 | 6 => hostOps2_4 | 7 => hostOps2_5
  | 8 => hostOps2_6 | 9 => hostOps2_7 | 10 => hostOps2_8 | 11 => hostOps2_9 | 12 => hostOps2_10 | 13 => hostOps2_11 | 14 => hostOps2_12
  | 15 => hostOps3 | _ => []

set_option maxHeartbeats 40000000 in
/-- No host operation writes an argument: every output is a buffer past the 22 arguments. -/
theorem stretch_keeps (b : Ref sig .tc) (hb : IsArg b) :
    ∀ k, (stretch k : List (HloOp τ sig (Elt F))).Forall fun op => Proc.devRef .tc b ∉ op.writes
  | 0 | 1 | 2 | 3 | 4 | 5 | 6 | 7 | 8 | 9 | 10 | 11 | 12 | 13 | 14 | 15 => by
    simp only [stretch, hostOps0, hostOps1, hostOps2, hostOps2_1, hostOps2_2, hostOps2_3, hostOps2_4, hostOps2_5, hostOps2_6, hostOps2_7, hostOps2_8, hostOps2_9, hostOps2_10, hostOps2_11, hostOps2_12, hostOps3, List.Forall, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (ne_of_isArg hb (by decide))
  | _ + 16 => trivial

set_option maxHeartbeats 40000000 in
theorem stretch_fresh : ∀ k, (stretch k : List (HloOp τ sig (Elt F))).Forall fun op => op.fresh = ∅
  | 0 | 1 | 2 | 3 | 4 | 5 | 6 | 7 | 8 | 9 | 10 | 11 | 12 | 13 | 14 | 15 => by simp only [stretch, List.Forall]; repeat' constructor
  | _ + 16 => trivial

/-- A stretch of host operations leaves every argument's buffer as it was. -/
theorem stretch_arg (k : ℕ) (W : Valuation τ sig (Elt F)) (b : Ref sig .tc) (hb : IsArg b) :
    StableHlo.after (stretch k) W (Proc.devRef .tc b) = W (Proc.devRef .tc b) :=
  StableHlo.after_of_forall_not_mem _ _ (List.forall_iff_forall_mem.mp (stretch_keeps b hb k))

/-- At a boundary an argument's buffer holds what the launch memory holds. -/
theorem W0_arg (c : Dev nD) (b : Ref sig .tc) (hb : IsArg b) : W0 m ρ c (Proc.devRef .tc b) = m ((c : Thread nD τ).loc b) := rfl
theorem W1_arg (c : Dev nD) (b : Ref sig .tc) (hb : IsArg b) : W1 m ρ c (Proc.devRef .tc b) = m ((c : Thread nD τ).loc b) :=
  (stretch_arg 0 _ b hb).trans (W0_arg m ρ c b hb)
theorem arr0_cases : ∀ w : Fin cfg0.W, (w = 0 ∧ Pipeline.arrRef spec0 w = main_arg0) ∨ ¬ IsArg (Pipeline.arrRef spec0 w) := by decide
theorem W2_arg (c : Dev nD) (b : Ref sig .tc) (hb : IsArg b) : W2 m ρ c (Proc.devRef .tc b) = m ((c : Thread nD τ).loc b) := by
  by_cases h : b = main_arg0
  · subst h
    exact ((W2_arr m ρ c 0).trans (((dat0 (V1 m ρ) c).arrAt_in 0 rfl _).trans (A_eq0 (V1 m ρ) c 0))).trans (W1_arg m ρ c _ hb)
  · exact (W2_of_ne m ρ c b fun w e => (arr0_cases w).elim (fun e' => h (e.symm.trans e'.2)) (fun hn => hn (e ▸ hb))).trans (W1_arg m ρ c b hb)
theorem W3_arg (c : Dev nD) (b : Ref sig .tc) (hb : IsArg b) : W3 m ρ c (Proc.devRef .tc b) = m ((c : Thread nD τ).loc b) :=
  (stretch_arg 1 _ b hb).trans (W2_arg m ρ c b hb)
theorem arr1_cases : ∀ w : Fin cfg1.W, (w = 0 ∧ Pipeline.arrRef spec1 w = main_arg1) ∨ ¬ IsArg (Pipeline.arrRef spec1 w) := by decide
theorem W4_arg (c : Dev nD) (b : Ref sig .tc) (hb : IsArg b) : W4 m ρ c (Proc.devRef .tc b) = m ((c : Thread nD τ).loc b) := by
  by_cases h : b = main_arg1
  · subst h
    exact ((W4_arr m ρ c 0).trans (((dat1 (V3 m ρ) c).arrAt_in 0 rfl _).trans (A_eq1 (V3 m ρ) c 0))).trans (W3_arg m ρ c _ hb)
  · exact (W4_of_ne m ρ c b fun w e => (arr1_cases w).elim (fun e' => h (e.symm.trans e'.2)) (fun hn => hn (e ▸ hb))).trans (W3_arg m ρ c b hb)
theorem W17_arg (c : Dev nD) (b : Ref sig .tc) (hb : IsArg b) : W17 m ρ c (Proc.devRef .tc b) = m ((c : Thread nD τ).loc b) :=
  (stretch_arg 14 _ b hb).trans <| (stretch_arg 13 _ b hb).trans <| (stretch_arg 12 _ b hb).trans <| (stretch_arg 11 _ b hb).trans <|
  (stretch_arg 10 _ b hb).trans <| (stretch_arg 9 _ b hb).trans <| (stretch_arg 8 _ b hb).trans <| (stretch_arg 7 _ b hb).trans <|
  (stretch_arg 6 _ b hb).trans <| (stretch_arg 5 _ b hb).trans <| (stretch_arg 4 _ b hb).trans <| (stretch_arg 3 _ b hb).trans <|
  (stretch_arg 2 _ b hb).trans (W4_arg m ρ c b hb)
theorem arr2_cases : ∀ w : Fin cfg2.W, ¬ IsArg (Pipeline.arrRef spec2 w) := by decide
theorem W18_arg (c : Dev nD) (b : Ref sig .tc) (hb : IsArg b) : W18 m ρ c (Proc.devRef .tc b) = m ((c : Thread nD τ).loc b) :=
  (W18_of_ne m ρ c b fun w e => arr2_cases w (e ▸ hb)).trans (W17_arg m ρ c b hb)
theorem arr3_cases : ∀ w : Fin cfg3.W, ¬ IsArg (Pipeline.arrRef spec3 w) := by decide
theorem W20_arg (c : Dev nD) (b : Ref sig .tc) (hb : IsArg b) : W20 m ρ c (Proc.devRef .tc b) = m ((c : Thread nD τ).loc b) :=
  (W20_of_ne m ρ c b fun w e => arr3_cases w (e ▸ hb)).trans <| (stretch_arg 15 _ b hb).trans (W18_arg m ρ c b hb)

theorem W20_res0 (c : Dev nD) : W20 m ρ c (Proc.devRef .tc main_v378) = (dat2 (V17 m ρ) c).arrAt 4 cfg2.N :=
  calc W20 m ρ c (Proc.devRef .tc main_v378)
    _ = W19 m ρ c (Proc.devRef .tc main_v378) := W20_of_ne m ρ c main_v378 (by decide)
    _ = W18 m ρ c (Proc.devRef .tc main_v378) := StableHlo.after_of_forall_not_mem (b := Proc.devRef .tc main_v378) _ _ (List.forall_iff_forall_mem.mp (by
          simp only [hostOps3, List.Forall, StableHlo.nullary_writes, StableHlo.unary_writes, StableHlo.binary_writes,
            StableHlo.ternary_writes, StableHlo.reshape_writes, StableHlo.nary_writes, Finset.mem_singleton]
          repeat' apply And.intro
          all_goals exact StableHlo.devRef_ne_of_ne (by decide)))
    _ = (dat2 (V17 m ρ) c).arrAt 4 cfg2.N := W18_arr m ρ c 4
theorem W20_res1 (c : Dev nD) : W20 m ρ c (Proc.devRef .tc main_v381) = (dat3 (V19 m ρ) c).arrAt 4 cfg3.N :=
  W20_arr m ρ c 4

abbrev adm : (p : Fin 4) → (pcfgs (F := F) p).Adm := fun p => (cfgs p).toPCfg_adm
noncomputable def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V17 m ρ) c
  | ⟨3, _⟩ => fun c => dat3 (V19 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W20 m ρ c) ∗ ∃ r, prngReg c r)

set_option backward.isDefEq.respectTransparency.types false in
/-- A pipelined region as a segment: the buffers go from `W` to `W'`, which differs from `W` only at the region's arrays. -/
noncomputable def reg (p : Fin 4) (lf : Pipeline.LaunchFacts (nD := nD) (τ := τ) cfgs p) (W W' : Dev nD → Valuation τ sig (Elt F))
    (hbody : ∀ c, Pipeline.BodyObligationLoose (pdats m ρ p c) defs₀ 𝒱₀ () Set.univ)
    (howed : ∀ c t, (pdats m ρ p c).owed t = 0) (hrec : ∀ c, (pdats m ρ p c).recorded 0 = Set.univ)
    (hq : ∀ c w, (pdats m ρ p c).q w = fullShare)
    (hA : ∀ c w, (pdats m ρ p c).A w = W c (Proc.devRef .tc (Pipeline.arrRef (Pipeline.pin (pcfgs (F := F)) adm p).spec w)))
    (hΦ : ∀ c t, (pdats m ρ p c).Φ t = Pipeline.ΦA (Pipeline.pin (pcfgs (F := F)) adm p).spec c)
    (hW' : ∀ c, W' c = Pipeline.withArrays (Pipeline.pin (pcfgs (F := F)) adm p).spec c (W c)
      fun w => (pdats m ρ p c).arrAt w (Pipeline.pin (pcfgs (F := F)) adm p).N) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => W c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%O, HO⟩; iexists O; isplitr; · ipureintro; exact fun _ _ => Or.inl (by rw [hrec c]; trivial)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b)
      ((pdats m ρ p c).arrAt · (Pipeline.pin (pcfgs (F := F)) adm p).N)
      (fun w => ((congrFun (hW' c) _).trans (Pipeline.withArrays_arr (Pipeline.pin (pcfgs (F := F)) adm p).spec lf.win.arr_inj c _ _ w)).symm)
      (fun b hb => by
        rw [hW' c]
        exact Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%O, -, HO⟩; iexists O; iexact HO

noncomputable def reg0 := reg m ρ 0 launch0 (W1 m ρ) (W2 m ρ) (fun c => (body_obligation0 (V1 m ρ) c).loose) (fun _ _ => rfl) (fun _ => rfl) (fun _ _ => rfl) (fun _ _ => rfl) (fun _ _ => rfl) fun _ => rfl
noncomputable def reg1 := reg m ρ 1 launch1 (W3 m ρ) (W4 m ρ) (fun c => (body_obligation1 (V3 m ρ) c).loose) (fun _ _ => rfl) (fun _ => rfl) (fun _ _ => rfl) (fun _ _ => rfl) (fun _ _ => rfl) fun _ => rfl
noncomputable def reg2 := reg m ρ 2 launch2 (W17 m ρ) (W18 m ρ) (fun c => (body_obligation2 (V17 m ρ) c).loose) (fun _ _ => rfl) (fun _ => rfl) (fun _ _ => rfl) (fun _ _ => rfl) (fun _ _ => rfl) fun _ => rfl
noncomputable def reg3 := reg m ρ 3 launch3 (W19 m ρ) (W20 m ρ) (fun c => (body_obligation3 (V19 m ρ) c).loose) (fun _ _ => rfl) (fun _ => rfl) (fun _ _ => rfl) (fun _ _ => rfl) (fun _ _ => rfl) fun _ => rfl

/-- @main's twenty segments in order. -/
abbrev segs : List (Pipeline.Seg (pcfgs (F := F)) adm (pdats m ρ) () defs₀ 𝒱₀ L lv) :=
  [
    .host (hseg hostOps0 hostOps0_sub (stretch_fresh 0) (W0 m ρ)),
    .region (reg0 m ρ),
    .host (hseg hostOps1 hostOps1_sub (stretch_fresh 1) (W2 m ρ)),
    .region (reg1 m ρ),
    .host (hseg hostOps2 hostOps2_sub (stretch_fresh 2) (W4 m ρ)),
    .host (hseg hostOps2_1 hostOps2_1_sub (stretch_fresh 3) (W5 m ρ)),
    .host (hseg hostOps2_2 hostOps2_2_sub (stretch_fresh 4) (W6 m ρ)),
    .host (hseg hostOps2_3 hostOps2_3_sub (stretch_fresh 5) (W7 m ρ)),
    .host (hseg hostOps2_4 hostOps2_4_sub (stretch_fresh 6) (W8 m ρ)),
    .host (hseg hostOps2_5 hostOps2_5_sub (stretch_fresh 7) (W9 m ρ)),
    .host (hseg hostOps2_6 hostOps2_6_sub (stretch_fresh 8) (W10 m ρ)),
    .host (hseg hostOps2_7 hostOps2_7_sub (stretch_fresh 9) (W11 m ρ)),
    .host (hseg hostOps2_8 hostOps2_8_sub (stretch_fresh 10) (W12 m ρ)),
    .host (hseg hostOps2_9 hostOps2_9_sub (stretch_fresh 11) (W13 m ρ)),
    .host (hseg hostOps2_10 hostOps2_10_sub (stretch_fresh 12) (W14 m ρ)),
    .host (hseg hostOps2_11 hostOps2_11_sub (stretch_fresh 13) (W15 m ρ)),
    .host (hseg hostOps2_12 hostOps2_12_sub (stretch_fresh 14) (W16 m ρ)),
    .region (reg2 m ρ),
    .host (hseg hostOps3 hostOps3_sub (stretch_fresh 15) (W18 m ρ)),
    .region (reg3 m ρ) ]

set_option maxRecDepth 65536 in
set_option maxHeartbeats 40000000 in
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

/-- Every argument's buffer in the memory `s` is as launched. -/
abbrev argsKept (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)
  ∧ s.mem ((c.tc : Thread nD τ).loc main_arg12) = m ((c.tc : Thread nD τ).loc main_arg12)
  ∧ s.mem ((c.tc : Thread nD τ).loc main_arg13) = m ((c.tc : Thread nD τ).loc main_arg13)
  ∧ s.mem ((c.tc : Thread nD τ).loc main_arg14) = m ((c.tc : Thread nD τ).loc main_arg14)
  ∧ s.mem ((c.tc : Thread nD τ).loc main_arg15) = m ((c.tc : Thread nD τ).loc main_arg15)
  ∧ s.mem ((c.tc : Thread nD τ).loc main_arg16) = m ((c.tc : Thread nD τ).loc main_arg16)
  ∧ s.mem ((c.tc : Thread nD τ).loc main_arg17) = m ((c.tc : Thread nD τ).loc main_arg17)
  ∧ s.mem ((c.tc : Thread nD τ).loc main_arg18) = m ((c.tc : Thread nD τ).loc main_arg18)
  ∧ s.mem ((c.tc : Thread nD τ).loc main_arg19) = m ((c.tc : Thread nD τ).loc main_arg19)
  ∧ s.mem ((c.tc : Thread nD τ).loc main_arg20) = m ((c.tc : Thread nD τ).loc main_arg20)
  ∧ s.mem ((c.tc : Thread nD τ).loc main_arg21) = m ((c.tc : Thread nD τ).loc main_arg21)

/-- Every final state holds each result buffer at the last boundary's contents and each argument as launched. -/
theorem run_full : θ_run defs (onTc (τ := τ) (main (F := F))) ⟨m, fun _ => 0, ρ⟩ (fun r => ∀ c : Dev nD,
      r.2.mem ((c.tc : Thread nD τ).loc main_v378) = W20 m ρ c (Proc.devRef .tc main_v378)
      ∧ r.2.mem ((c.tc : Thread nD τ).loc main_v381) = W20 m ρ c (Proc.devRef .tc main_v381)
      ∧ argsKept m r.2 c) :=
  (θ_run defs _ _).mono (fun r h c => by
    have a : ∀ b : Ref sig .tc, IsArg b → ¬ (Proc.devRef .tc b : DevRef τ sig).isScoped →
        r.2.mem ((c.tc : Thread nD τ).loc b) = m ((c.tc : Thread nD τ).loc b) :=
      fun b hb hs => (h c _ (mem_uc b hs)).trans (W20_arg m ρ c b hb)
    refine ⟨h c _ (mem_uc main_v378 (by decide)), h c _ (mem_uc main_v381 (by decide)), ?_⟩
    repeat' apply And.intro
    all_goals exact a _ (by decide) (by decide)) (run m ρ)

theorem frame : θ_run defs (onTc (τ := τ) (main (F := F))) ⟨m, fun _ => 0, ρ⟩ (fun r => ∀ c : Dev nD, argsKept m r.2 c) :=
  (θ_run defs _ _).mono (fun _ h c => (h c).2.2) (run_full m ρ)

end Cert.KernelIdeal.Hand

end
-- ==== Proof.Ref.Ops.lean ====
import proofs.«133871_g61280593379539_cont_9to1c4b_765_12_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

noncomputable abbrev ops0 : List (HloOp τ sig (Elt F)) :=
  [ StableHlo.unary main_arg11 main_v0 (transpose S128x128 [1, 0] · transposes_S128x128_S128x128_1_0),
    StableHlo.binary main_arg0 main_v0 main_v1 (fun l r => Host.dotGeneral dot_S100000x128_S128x128_S100000x128_1_0_0_1_n_n none l r),
    StableHlo.unary main_arg12 main_v2 (broadcastInDim S1x128 ![1] bcast_S128_S1x128_1),
    StableHlo.unary main_v2 main_v3 (broadcastInDim S100000x128 ![0, 1] bcast_S1x128_S100000x128_0_1),
    StableHlo.binary main_v1 main_v3 main_v4 addf,
    StableHlo.unary main_arg13 main_v5 (transpose S128x128 [1, 0] · transposes_S128x128_S128x128_1_0),
    StableHlo.binary main_arg1 main_v5 main_v6 (fun l r => Host.dotGeneral dot_S10000x128_S128x128_S10000x128_1_0_0_1_n_n none l r),
    StableHlo.unary main_arg14 main_v7 (broadcastInDim S1x128 ![1] bcast_S128_S1x128_1),
    StableHlo.unary main_v7 main_v8 (broadcastInDim S10000x128 ![0, 1] bcast_S1x128_S10000x128_0_1),
    StableHlo.binary main_v6 main_v8 main_v9 addf,
    StableHlo.reshape main_v4 main_v10 rfl shapeCasts_S100000x128_S100000x4x32,
    StableHlo.reshape main_v9 main_v11 rfl shapeCasts_S10000x128_S10000x4x32,
    StableHlo.nullary main_c (constantI S_ 32 0#32),
    StableHlo.unary main_c main_v12 (broadcastInDim S30000 ![] bcast_S_S30000),
    StableHlo.binary main_arg2 main_v12 main_v13 (cmpi .slt),
    StableHlo.nullary main_c_0 (constantI S_ 32 100000#32),
    StableHlo.unary main_c_0 main_v14 (broadcastInDim S30000 ![] bcast_S_S30000),
    StableHlo.binary main_arg2 main_v14 main_v15 addi,
    StableHlo.ternary main_v13 main_v15 main_arg2 main_v16 select,
    StableHlo.unary main_v16 main_v17 (broadcastInDim S30000x1 ![0] bcast_S30000_S30000x1_0),
    StableHlo.binary main_v10 main_v17 main_v18 (fun x i => Host.gather gather_S100000x4x32_S30000x1_S30000x4x32_12_0_n_n_0_1_1432 x i),
    StableHlo.nullary main_c_1 (constantI S_ 32 0#32),
    StableHlo.unary main_c_1 main_v19 (broadcastInDim S30000 ![] bcast_S_S30000),
    StableHlo.binary main_arg3 main_v19 main_v20 (cmpi .slt),
    StableHlo.nullary main_c_2 (constantI S_ 32 100000#32),
    StableHlo.unary main_c_2 main_v21 (broadcastInDim S30000 ![] bcast_S_S30000),
    StableHlo.binary main_arg3 main_v21 main_v22 addi,
    StableHlo.ternary main_v20 main_v22 main_arg3 main_v23 select,
    StableHlo.unary main_v23 main_v24 (broadcastInDim S30000x1 ![0] bcast_S30000_S30000x1_0),
    StableHlo.binary main_v10 main_v24 main_v25 (fun x i => Host.gather gather_S100000x4x32_S30000x1_S30000x4x32_12_0_n_n_0_1_1432 x i),
    StableHlo.unary main_arg8 main_v26 (broadcastInDim S30000x1x1 ![0, 2] bcast_S30000x1_S30000x1x1_0_2),
    StableHlo.unary main_v26 main_v27 (broadcastInDim S30000x4x1 ![0, 1, 2] bcast_S30000x1x1_S30000x4x1_0_1_2),
    StableHlo.nary ![main_v18, main_v25, main_v27] main_v28 (fun u => concatenate S30000x4x65 2 [⟨S30000x4x32, u 0⟩, ⟨S30000x4x32, u 1⟩, ⟨S30000x4x1, u 2⟩] concatenates_S30000x4x32_S30000x4x32_S30000x4x1_S30000x4x65_d2),
    StableHlo.unary main_arg15 main_v29 (broadcastInDim S1x4x65 ![1, 2] bcast_S4x65_S1x4x65_1_2),
    StableHlo.unary main_v29 main_v30 (broadcastInDim S30000x4x65 ![0, 1, 2] bcast_S1x4x65_S30000x4x65_0_1_2),
    StableHlo.binary main_v28 main_v30 main_v31 mulf,
    StableHlo.nullary main_cst (constant S_ .f32 0x00000000#32),
    StableHlo.binary main_v31 main_cst main_v32 (fun x v => Host.reduceAdd x v reducesTo_S30000x4x65_S30000x4_d2 h_S_),
    StableHlo.nullary main_cst_3 (constant S_ .f32 0x00000000#32),
    StableHlo.unary main_cst_3 main_v33 (broadcastInDim S30000x4 ![] bcast_S_S30000x4),
    StableHlo.binary main_v32 main_v33 main_v34 (cmpf .oge),
    StableHlo.nullary main_cst_4 (constant S_ .f32 0x3E4CCCCD#32),
    StableHlo.unary main_cst_4 main_v35 (broadcastInDim S30000x4 ![] bcast_S_S30000x4),
    StableHlo.binary main_v35 main_v32 main_v36 mulf,
    StableHlo.TRef.ternary (.of main_v34) (.of main_v32) (.of main_v36) main_call0.v0 select,
    StableHlo.nullary main_cst_5 (constant S_ .f32 0xC1A00000#32),
    StableHlo.nullary main_cst_6 (constant S_ .f32 0x41A00000#32),
    StableHlo.TRef.unary (.of main_cst_5) main_call1.v0 id,
    StableHlo.TRef.unary main_call1.v0 main_call1.v1 (broadcastInDim S30000x4 ![] bcast_S_S30000x4),
    StableHlo.TRef.binary main_call1.v1 (.of main_v37) main_call1.v2 maximumf,
    StableHlo.TRef.unary (.of main_cst_6) main_call1.v3 id,
    StableHlo.TRef.unary main_call1.v3 main_call1.v4 (broadcastInDim S30000x4 ![] bcast_S_S30000x4),
    StableHlo.TRef.binary main_call1.v4 main_call1.v2 main_call1.v5 minimumf,
    StableHlo.unary main_v38 main_v39 Host.exp,
    StableHlo.nullary main_cst_7 (constant S_ .f32 0x00000000#32),
    StableHlo.unary main_cst_7 main_v40 (broadcastInDim S100000x4 ![] bcast_S_S100000x4),
    StableHlo.nullary main_c_8 (constantI S_ 32 0#32),
    StableHlo.unary main_c_8 main_v41 (broadcastInDim S30000 ![] bcast_S_S30000),
    StableHlo.binary main_arg3 main_v41 main_v42 (cmpi .slt),
    StableHlo.nullary main_c_9 (constantI S_ 32 100000#32),
    StableHlo.unary main_c_9 main_v43 (broadcastInDim S30000 ![] bcast_S_S30000),
    StableHlo.binary main_arg3 main_v43 main_v44 addi,
    StableHlo.ternary main_v42 main_v44 main_arg3 main_v45 select,
    StableHlo.unary main_v45 main_v46 (broadcastInDim S30000x1 ![0] bcast_S30000_S30000x1_0),
    StableHlo.ternary main_v40 main_v46 main_v39 main_v47 (fun x i u => Host.scatterAdd scatter_S100000x4_S30000x1_S30000x4_1_0_0_1 x i u) ]

noncomputable abbrev ops0_W : List (Ref sig .tc) :=
  [main_v0, main_v1, main_v2, main_v3, main_v4, main_v5, main_v6, main_v7, main_v8, main_v9, main_v10, main_v11, main_c, main_v12, main_v13, main_c_0, main_v14, main_v15, main_v16, main_v17, main_v18, main_c_1, main_v19, main_v20, main_c_2, main_v21, main_v22, main_v23, main_v24, main_v25, main_v26, main_v27, main_v28, main_v29, main_v30, main_v31, main_cst, main_v32, main_cst_3, main_v33, main_v34, main_cst_4, main_v35, main_v36, main_call0.v0.ref, main_cst_5, main_cst_6, main_call1.v0.ref, main_call1.v1.ref, main_call1.v2.ref, main_call1.v3.ref, main_call1.v4.ref, main_call1.v5.ref, main_v39, main_cst_7, main_v40, main_c_8, main_v41, main_v42, main_c_9, main_v43, main_v44, main_v45, main_v46, main_v47]

noncomputable abbrev ops1 : List (HloOp τ sig (Elt F)) :=
  [ StableHlo.nullary main_c_10 (constantI S_ 32 0#32),
    StableHlo.unary main_c_10 main_v48 (broadcastInDim S30000 ![] bcast_S_S30000),
    StableHlo.binary main_arg3 main_v48 main_v49 (cmpi .slt),
    StableHlo.nullary main_c_11 (constantI S_ 32 100000#32),
    StableHlo.unary main_c_11 main_v50 (broadcastInDim S30000 ![] bcast_S_S30000),
    StableHlo.binary main_arg3 main_v50 main_v51 addi,
    StableHlo.ternary main_v49 main_v51 main_arg3 main_v52 select,
    StableHlo.unary main_v52 main_v53 (broadcastInDim S30000x1 ![0] bcast_S30000_S30000x1_0),
    StableHlo.binary main_v47 main_v53 main_v54 (fun x i => Host.gather gather_S100000x4_S30000x1_S30000x4_1_0_n_n_0_1_14 x i),
    StableHlo.nullary main_cst_12 (constant S_ .f32 0x358637BD#32),
    StableHlo.unary main_cst_12 main_v55 (broadcastInDim S30000x4 ![] bcast_S_S30000x4),
    StableHlo.binary main_v54 main_v55 main_v56 addf,
    StableHlo.binary main_v39 main_v56 main_v57 Host.divf,
    StableHlo.unary main_v57 main_v58 (broadcastInDim S30000x4x1 ![0, 1] bcast_S30000x4_S30000x4x1_0_1),
    StableHlo.unary main_v58 main_v59 (broadcastInDim S30000x4x32 ![0, 1, 2] bcast_S30000x4x1_S30000x4x32_0_1_2),
    StableHlo.binary main_v18 main_v59 main_v60 mulf,
    StableHlo.nullary main_cst_13 (constant S_ .f32 0x00000000#32),
    StableHlo.unary main_cst_13 main_v61 (broadcastInDim S100000x4x32 ![] bcast_S_S100000x4x32),
    StableHlo.nullary main_c_14 (constantI S_ 32 0#32),
    StableHlo.unary main_c_14 main_v62 (broadcastInDim S30000 ![] bcast_S_S30000),
    StableHlo.binary main_arg3 main_v62 main_v63 (cmpi .slt),
    StableHlo.nullary main_c_15 (constantI S_ 32 100000#32),
    StableHlo.unary main_c_15 main_v64 (broadcastInDim S30000 ![] bcast_S_S30000),
    StableHlo.binary main_arg3 main_v64 main_v65 addi,
    StableHlo.ternary main_v63 main_v65 main_arg3 main_v66 select,
    StableHlo.unary main_v66 main_v67 (broadcastInDim S30000x1 ![0] bcast_S30000_S30000x1_0),
    StableHlo.ternary main_v61 main_v67 main_v60 main_v68 (fun x i u => Host.scatterAdd scatter_S100000x4x32_S30000x1_S30000x4x32_12_0_0_1 x i u),
    StableHlo.nullary main_c_16 (constantI S_ 32 0#32),
    StableHlo.unary main_c_16 main_v69 (broadcastInDim S30000 ![] bcast_S_S30000),
    StableHlo.binary main_arg4 main_v69 main_v70 (cmpi .slt),
    StableHlo.nullary main_c_17 (constantI S_ 32 100000#32),
    StableHlo.unary main_c_17 main_v71 (broadcastInDim S30000 ![] bcast_S_S30000),
    StableHlo.binary main_arg4 main_v71 main_v72 addi,
    StableHlo.ternary main_v70 main_v72 main_arg4 main_v73 select,
    StableHlo.unary main_v73 main_v74 (broadcastInDim S30000x1 ![0] bcast_S30000_S30000x1_0),
    StableHlo.binary main_v10 main_v74 main_v75 (fun x i => Host.gather gather_S100000x4x32_S30000x1_S30000x4x32_12_0_n_n_0_1_1432 x i),
    StableHlo.nullary main_c_18 (constantI S_ 32 0#32),
    StableHlo.unary main_c_18 main_v76 (broadcastInDim S30000 ![] bcast_S_S30000),
    StableHlo.binary main_arg5 main_v76 main_v77 (cmpi .slt),
    StableHlo.nullary main_c_19 (constantI S_ 32 10000#32),
    StableHlo.unary main_c_19 main_v78 (broadcastInDim S30000 ![] bcast_S_S30000),
    StableHlo.binary main_arg5 main_v78 main_v79 addi,
    StableHlo.ternary main_v77 main_v79 main_arg5 main_v80 select,
    StableHlo.unary main_v80 main_v81 (broadcastInDim S30000x1 ![0] bcast_S30000_S30000x1_0),
    StableHlo.binary main_v11 main_v81 main_v82 (fun x i => Host.gather gather_S10000x4x32_S30000x1_S30000x4x32_12_0_n_n_0_1_1432 x i),
    StableHlo.unary main_arg9 main_v83 (broadcastInDim S30000x1x1 ![0, 2] bcast_S30000x1_S30000x1x1_0_2),
    StableHlo.unary main_v83 main_v84 (broadcastInDim S30000x4x1 ![0, 1, 2] bcast_S30000x1x1_S30000x4x1_0_1_2),
    StableHlo.nary ![main_v75, main_v82, main_v84] main_v85 (fun u => concatenate S30000x4x65 2 [⟨S30000x4x32, u 0⟩, ⟨S30000x4x32, u 1⟩, ⟨S30000x4x1, u 2⟩] concatenates_S30000x4x32_S30000x4x32_S30000x4x1_S30000x4x65_d2),
    StableHlo.unary main_arg16 main_v86 (broadcastInDim S1x4x65 ![1, 2] bcast_S4x65_S1x4x65_1_2),
    StableHlo.unary main_v86 main_v87 (broadcastInDim S30000x4x65 ![0, 1, 2] bcast_S1x4x65_S30000x4x65_0_1_2),
    StableHlo.binary main_v85 main_v87 main_v88 mulf,
    StableHlo.nullary main_cst_20 (constant S_ .f32 0x00000000#32),
    StableHlo.binary main_v88 main_cst_20 main_v89 (fun x v => Host.reduceAdd x v reducesTo_S30000x4x65_S30000x4_d2 h_S_),
    StableHlo.nullary main_cst_21 (constant S_ .f32 0x00000000#32),
    StableHlo.unary main_cst_21 main_v90 (broadcastInDim S30000x4 ![] bcast_S_S30000x4),
    StableHlo.binary main_v89 main_v90 main_v91 (cmpf .oge),
    StableHlo.nullary main_cst_22 (constant S_ .f32 0x3E4CCCCD#32),
    StableHlo.unary main_cst_22 main_v92 (broadcastInDim S30000x4 ![] bcast_S_S30000x4),
    StableHlo.binary main_v92 main_v89 main_v93 mulf,
    StableHlo.TRef.ternary (.of main_v91) (.of main_v89) (.of main_v93) main_call2.v0 select ]

noncomputable abbrev ops1_W : List (Ref sig .tc) :=
  [main_c_10, main_v48, main_v49, main_c_11, main_v50, main_v51, main_v52, main_v53, main_v54, main_cst_12, main_v55, main_v56, main_v57, main_v58, main_v59, main_v60, main_cst_13, main_v61, main_c_14, main_v62, main_v63, main_c_15, main_v64, main_v65, main_v66, main_v67, main_v68, main_c_16, main_v69, main_v70, main_c_17, main_v71, main_v72, main_v73, main_v74, main_v75, main_c_18, main_v76, main_v77, main_c_19, main_v78, main_v79, main_v80, main_v81, main_v82, main_v83, main_v84, main_v85, main_v86, main_v87, main_v88, main_cst_20, main_v89, main_cst_21, main_v90, main_v91, main_cst_22, main_v92, main_v93, main_call2.v0.ref]

noncomputable abbrev ops2 : List (HloOp τ sig (Elt F)) :=
  [ StableHlo.nullary main_cst_23 (constant S_ .f32 0xC1A00000#32),
    StableHlo.nullary main_cst_24 (constant S_ .f32 0x41A00000#32),
    StableHlo.TRef.unary (.of main_cst_23) main_call3.v0 id,
    StableHlo.TRef.unary main_call3.v0 main_call3.v1 (broadcastInDim S30000x4 ![] bcast_S_S30000x4),
    StableHlo.TRef.binary main_call3.v1 (.of main_v94) main_call3.v2 maximumf,
    StableHlo.TRef.unary (.of main_cst_24) main_call3.v3 id,
    StableHlo.TRef.unary main_call3.v3 main_call3.v4 (broadcastInDim S30000x4 ![] bcast_S_S30000x4),
    StableHlo.TRef.binary main_call3.v4 main_call3.v2 main_call3.v5 minimumf,
    StableHlo.unary main_v95 main_v96 Host.exp,
    StableHlo.nullary main_cst_25 (constant S_ .f32 0x00000000#32),
    StableHlo.unary main_cst_25 main_v97 (broadcastInDim S10000x4 ![] bcast_S_S10000x4),
    StableHlo.nullary main_c_26 (constantI S_ 32 0#32),
    StableHlo.unary main_c_26 main_v98 (broadcastInDim S30000 ![] bcast_S_S30000),
    StableHlo.binary main_arg5 main_v98 main_v99 (cmpi .slt),
    StableHlo.nullary main_c_27 (constantI S_ 32 10000#32),
    StableHlo.unary main_c_27 main_v100 (broadcastInDim S30000 ![] bcast_S_S30000),
    StableHlo.binary main_arg5 main_v100 main_v101 addi,
    StableHlo.ternary main_v99 main_v101 main_arg5 main_v102 select,
    StableHlo.unary main_v102 main_v103 (broadcastInDim S30000x1 ![0] bcast_S30000_S30000x1_0),
    StableHlo.ternary main_v97 main_v103 main_v96 main_v104 (fun x i u => Host.scatterAdd scatter_S10000x4_S30000x1_S30000x4_1_0_0_1 x i u),
    StableHlo.nullary main_c_28 (constantI S_ 32 0#32),
    StableHlo.unary main_c_28 main_v105 (broadcastInDim S30000 ![] bcast_S_S30000),
    StableHlo.binary main_arg5 main_v105 main_v106 (cmpi .slt),
    StableHlo.nullary main_c_29 (constantI S_ 32 10000#32),
    StableHlo.unary main_c_29 main_v107 (broadcastInDim S30000 ![] bcast_S_S30000),
    StableHlo.binary main_arg5 main_v107 main_v108 addi,
    StableHlo.ternary main_v106 main_v108 main_arg5 main_v109 select,
    StableHlo.unary main_v109 main_v110 (broadcastInDim S30000x1 ![0] bcast_S30000_S30000x1_0),
    StableHlo.binary main_v104 main_v110 main_v111 (fun x i => Host.gather gather_S10000x4_S30000x1_S30000x4_1_0_n_n_0_1_14 x i),
    StableHlo.nullary main_cst_30 (constant S_ .f32 0x358637BD#32),
    StableHlo.unary main_cst_30 main_v112 (broadcastInDim S30000x4 ![] bcast_S_S30000x4),
    StableHlo.binary main_v111 main_v112 main_v113 addf,
    StableHlo.binary main_v96 main_v113 main_v114 Host.divf,
    StableHlo.unary main_v114 main_v115 (broadcastInDim S30000x4x1 ![0, 1] bcast_S30000x4_S30000x4x1_0_1),
    StableHlo.unary main_v115 main_v116 (broadcastInDim S30000x4x32 ![0, 1, 2] bcast_S30000x4x1_S30000x4x32_0_1_2),
    StableHlo.binary main_v75 main_v116 main_v117 mulf,
    StableHlo.nullary main_cst_31 (constant S_ .f32 0x00000000#32),
    StableHlo.unary main_cst_31 main_v118 (broadcastInDim S10000x4x32 ![] bcast_S_S10000x4x32),
    StableHlo.nullary main_c_32 (constantI S_ 32 0#32),
    StableHlo.unary main_c_32 main_v119 (broadcastInDim S30000 ![] bcast_S_S30000),
    StableHlo.binary main_arg5 main_v119 main_v120 (cmpi .slt),
    StableHlo.nullary main_c_33 (constantI S_ 32 10000#32),
    StableHlo.unary main_c_33 main_v121 (broadcastInDim S30000 ![] bcast_S_S30000),
    StableHlo.binary main_arg5 main_v121 main_v122 addi,
    StableHlo.ternary main_v120 main_v122 main_arg5 main_v123 select,
    StableHlo.unary main_v123 main_v124 (broadcastInDim S30000x1 ![0] bcast_S30000_S30000x1_0),
    StableHlo.ternary main_v118 main_v124 main_v117 main_v125 (fun x i u => Host.scatterAdd scatter_S10000x4x32_S30000x1_S30000x4x32_12_0_0_1 x i u),
    StableHlo.nullary main_c_34 (constantI S_ 32 0#32),
    StableHlo.unary main_c_34 main_v126 (broadcastInDim S30000 ![] bcast_S_S30000),
    StableHlo.binary main_arg6 main_v126 main_v127 (cmpi .slt),
    StableHlo.nullary main_c_35 (constantI S_ 32 10000#32),
    StableHlo.unary main_c_35 main_v128 (broadcastInDim S30000 ![] bcast_S_S30000),
    StableHlo.binary main_arg6 main_v128 main_v129 addi,
    StableHlo.ternary main_v127 main_v129 main_arg6 main_v130 select,
    StableHlo.unary main_v130 main_v131 (broadcastInDim S30000x1 ![0] bcast_S30000_S30000x1_0),
    StableHlo.binary main_v11 main_v131 main_v132 (fun x i => Host.gather gather_S10000x4x32_S30000x1_S30000x4x32_12_0_n_n_0_1_1432 x i),
    StableHlo.nullary main_c_36 (constantI S_ 32 0#32),
    StableHlo.unary main_c_36 main_v133 (broadcastInDim S30000 ![] bcast_S_S30000),
    StableHlo.binary main_arg7 main_v133 main_v134 (cmpi .slt),
    StableHlo.nullary main_c_37 (constantI S_ 32 100000#32),
    StableHlo.unary main_c_37 main_v135 (broadcastInDim S30000 ![] bcast_S_S30000),
    StableHlo.binary main_arg7 main_v135 main_v136 addi,
    StableHlo.ternary main_v134 main_v136 main_arg7 main_v137 select,
    StableHlo.unary main_v137 main_v138 (broadcastInDim S30000x1 ![0] bcast_S30000_S30000x1_0),
    StableHlo.binary main_v10 main_v138 main_v139 (fun x i => Host.gather gather_S100000x4x32_S30000x1_S30000x4x32_12_0_n_n_0_1_1432 x i) ]

noncomputable abbrev ops2_W : List (Ref sig .tc) :=
  [main_cst_23, main_cst_24, main_call3.v0.ref, main_call3.v1.ref, main_call3.v2.ref, main_call3.v3.ref, main_call3.v4.ref, main_call3.v5.ref, main_v96, main_cst_25, main_v97, main_c_26, main_v98, main_v99, main_c_27, main_v100, main_v101, main_v102, main_v103, main_v104, main_c_28, main_v105, main_v106, main_c_29, main_v107, main_v108, main_v109, main_v110, main_v111, main_cst_30, main_v112, main_v113, main_v114, main_v115, main_v116, main_v117, main_cst_31, main_v118, main_c_32, main_v119, main_v120, main_c_33, main_v121, main_v122, main_v123, main_v124, main_v125, main_c_34, main_v126, main_v127, main_c_35, main_v128, main_v129, main_v130, main_v131, main_v132, main_c_36, main_v133, main_v134, main_c_37, main_v135, main_v136, main_v137, main_v138, main_v139]

noncomputable abbrev ops3 : List (HloOp τ sig (Elt F)) :=
  [ StableHlo.unary main_arg10 main_v140 (broadcastInDim S30000x1x1 ![0, 2] bcast_S30000x1_S30000x1x1_0_2),
    StableHlo.unary main_v140 main_v141 (broadcastInDim S30000x4x1 ![0, 1, 2] bcast_S30000x1x1_S30000x4x1_0_1_2),
    StableHlo.nary ![main_v132, main_v139, main_v141] main_v142 (fun u => concatenate S30000x4x65 2 [⟨S30000x4x32, u 0⟩, ⟨S30000x4x32, u 1⟩, ⟨S30000x4x1, u 2⟩] concatenates_S30000x4x32_S30000x4x32_S30000x4x1_S30000x4x65_d2),
    StableHlo.unary main_arg17 main_v143 (broadcastInDim S1x4x65 ![1, 2] bcast_S4x65_S1x4x65_1_2),
    StableHlo.unary main_v143 main_v144 (broadcastInDim S30000x4x65 ![0, 1, 2] bcast_S1x4x65_S30000x4x65_0_1_2),
    StableHlo.binary main_v142 main_v144 main_v145 mulf,
    StableHlo.nullary main_cst_38 (constant S_ .f32 0x00000000#32),
    StableHlo.binary main_v145 main_cst_38 main_v146 (fun x v => Host.reduceAdd x v reducesTo_S30000x4x65_S30000x4_d2 h_S_),
    StableHlo.nullary main_cst_39 (constant S_ .f32 0x00000000#32),
    StableHlo.unary main_cst_39 main_v147 (broadcastInDim S30000x4 ![] bcast_S_S30000x4),
    StableHlo.binary main_v146 main_v147 main_v148 (cmpf .oge),
    StableHlo.nullary main_cst_40 (constant S_ .f32 0x3E4CCCCD#32),
    StableHlo.unary main_cst_40 main_v149 (broadcastInDim S30000x4 ![] bcast_S_S30000x4),
    StableHlo.binary main_v149 main_v146 main_v150 mulf,
    StableHlo.TRef.ternary (.of main_v148) (.of main_v146) (.of main_v150) main_call4.v0 select,
    StableHlo.nullary main_cst_41 (constant S_ .f32 0xC1A00000#32),
    StableHlo.nullary main_cst_42 (constant S_ .f32 0x41A00000#32),
    StableHlo.TRef.unary (.of main_cst_41) main_call5.v0 id,
    StableHlo.TRef.unary main_call5.v0 main_call5.v1 (broadcastInDim S30000x4 ![] bcast_S_S30000x4),
    StableHlo.TRef.binary main_call5.v1 (.of main_v151) main_call5.v2 maximumf,
    StableHlo.TRef.unary (.of main_cst_42) main_call5.v3 id,
    StableHlo.TRef.unary main_call5.v3 main_call5.v4 (broadcastInDim S30000x4 ![] bcast_S_S30000x4),
    StableHlo.TRef.binary main_call5.v4 main_call5.v2 main_call5.v5 minimumf,
    StableHlo.unary main_v152 main_v153 Host.exp,
    StableHlo.nullary main_cst_43 (constant S_ .f32 0x00000000#32),
    StableHlo.unary main_cst_43 main_v154 (broadcastInDim S100000x4 ![] bcast_S_S100000x4),
    StableHlo.nullary main_c_44 (constantI S_ 32 0#32),
    StableHlo.unary main_c_44 main_v155 (broadcastInDim S30000 ![] bcast_S_S30000),
    StableHlo.binary main_arg7 main_v155 main_v156 (cmpi .slt),
    StableHlo.nullary main_c_45 (constantI S_ 32 100000#32),
    StableHlo.unary main_c_45 main_v157 (broadcastInDim S30000 ![] bcast_S_S30000),
    StableHlo.binary main_arg7 main_v157 main_v158 addi,
    StableHlo.ternary main_v156 main_v158 main_arg7 main_v159 select,
    StableHlo.unary main_v159 main_v160 (broadcastInDim S30000x1 ![0] bcast_S30000_S30000x1_0),
    StableHlo.ternary main_v154 main_v160 main_v153 main_v161 (fun x i u => Host.scatterAdd scatter_S100000x4_S30000x1_S30000x4_1_0_0_1 x i u),
    StableHlo.nullary main_c_46 (constantI S_ 32 0#32),
    StableHlo.unary main_c_46 main_v162 (broadcastInDim S30000 ![] bcast_S_S30000),
    StableHlo.binary main_arg7 main_v162 main_v163 (cmpi .slt),
    StableHlo.nullary main_c_47 (constantI S_ 32 100000#32),
    StableHlo.unary main_c_47 main_v164 (broadcastInDim S30000 ![] bcast_S_S30000),
    StableHlo.binary main_arg7 main_v164 main_v165 addi,
    StableHlo.ternary main_v163 main_v165 main_arg7 main_v166 select,
    StableHlo.unary main_v166 main_v167 (broadcastInDim S30000x1 ![0] bcast_S30000_S30000x1_0),
    StableHlo.binary main_v161 main_v167 main_v168 (fun x i => Host.gather gather_S100000x4_S30000x1_S30000x4_1_0_n_n_0_1_14 x i),
    StableHlo.nullary main_cst_48 (constant S_ .f32 0x358637BD#32),
    StableHlo.unary main_cst_48 main_v169 (broadcastInDim S30000x4 ![] bcast_S_S30000x4),
    StableHlo.binary main_v168 main_v169 main_v170 addf,
    StableHlo.binary main_v153 main_v170 main_v171 Host.divf,
    StableHlo.unary main_v171 main_v172 (broadcastInDim S30000x4x1 ![0, 1] bcast_S30000x4_S30000x4x1_0_1),
    StableHlo.unary main_v172 main_v173 (broadcastInDim S30000x4x32 ![0, 1, 2] bcast_S30000x4x1_S30000x4x32_0_1_2),
    StableHlo.binary main_v132 main_v173 main_v174 mulf,
    StableHlo.nullary main_cst_49 (constant S_ .f32 0x00000000#32),
    StableHlo.unary main_cst_49 main_v175 (broadcastInDim S100000x4x32 ![] bcast_S_S100000x4x32),
    StableHlo.nullary main_c_50 (constantI S_ 32 0#32),
    StableHlo.unary main_c_50 main_v176 (broadcastInDim S30000 ![] bcast_S_S30000),
    StableHlo.binary main_arg7 main_v176 main_v177 (cmpi .slt),
    StableHlo.nullary main_c_51 (constantI S_ 32 100000#32),
    StableHlo.unary main_c_51 main_v178 (broadcastInDim S30000 ![] bcast_S_S30000),
    StableHlo.binary main_arg7 main_v178 main_v179 addi,
    StableHlo.ternary main_v177 main_v179 main_arg7 main_v180 select,
    StableHlo.unary main_v180 main_v181 (broadcastInDim S30000x1 ![0] bcast_S30000_S30000x1_0),
    StableHlo.ternary main_v175 main_v181 main_v174 main_v182 (fun x i u => Host.scatterAdd scatter_S100000x4x32_S30000x1_S30000x4x32_12_0_0_1 x i u),
    StableHlo.binary main_v68 main_v182 main_v183 addf,
    StableHlo.reshape main_v183 main_v184 rfl shapeCasts_S100000x4x32_S100000x128,
    StableHlo.binary main_v184 main_v4 main_v185 addf ]

noncomputable abbrev ops3_W : List (Ref sig .tc) :=
  [main_v140, main_v141, main_v142, main_v143, main_v144, main_v145, main_cst_38, main_v146, main_cst_39, main_v147, main_v148, main_cst_40, main_v149, main_v150, main_call4.v0.ref, main_cst_41, main_cst_42, main_call5.v0.ref, main_call5.v1.ref, main_call5.v2.ref, main_call5.v3.ref, main_call5.v4.ref, main_call5.v5.ref, main_v153, main_cst_43, main_v154, main_c_44, main_v155, main_v156, main_c_45, main_v157, main_v158, main_v159, main_v160, main_v161, main_c_46, main_v162, main_v163, main_c_47, main_v164, main_v165, main_v166, main_v167, main_v168, main_cst_48, main_v169, main_v170, main_v171, main_v172, main_v173, main_v174, main_cst_49, main_v175, main_c_50, main_v176, main_v177, main_c_51, main_v178, main_v179, main_v180, main_v181, main_v182, main_v183, main_v184, main_v185]

noncomputable abbrev ops4 : List (HloOp τ sig (Elt F)) :=
  [ StableHlo.reshape main_v125 main_v186 rfl shapeCasts_S10000x4x32_S10000x128,
    StableHlo.binary main_v186 main_v9 main_v187 addf,
    StableHlo.nullary main_cst_52 (constant S_ .f32 0x00000000#32),
    StableHlo.binary main_v185 main_cst_52 main_v188 (fun x v => Host.reduceAdd x v reducesTo_S100000x128_S100000_d1 h_S_),
    StableHlo.unary main_v188 main_v189 (broadcastInDim S100000x1 ![0] bcast_S100000_S100000x1_0),
    StableHlo.nullary main_cst_53 (constant S_ .f32 0x43000000#32),
    StableHlo.unary main_cst_53 main_v190 (broadcastInDim S100000x1 ![] bcast_S_S100000x1),
    StableHlo.binary main_v189 main_v190 main_v191 Host.divf,
    StableHlo.unary main_v191 main_v192 (broadcastInDim S100000x128 ![0, 1] bcast_S100000x1_S100000x128_0_1),
    StableHlo.binary main_v185 main_v192 main_v193 subf,
    StableHlo.binary main_v193 main_v193 main_v194 mulf,
    StableHlo.nullary main_cst_54 (constant S_ .f32 0x00000000#32),
    StableHlo.binary main_v194 main_cst_54 main_v195 (fun x v => Host.reduceAdd x v reducesTo_S100000x128_S100000_d1 h_S_),
    StableHlo.unary main_v195 main_v196 (broadcastInDim S100000x1 ![0] bcast_S100000_S100000x1_0),
    StableHlo.nullary main_cst_55 (constant S_ .f32 0x43000000#32),
    StableHlo.unary main_cst_55 main_v197 (broadcastInDim S100000x1 ![] bcast_S_S100000x1),
    StableHlo.binary main_v196 main_v197 main_v198 Host.divf,
    StableHlo.unary main_v191 main_v199 (broadcastInDim S100000x128 ![0, 1] bcast_S100000x1_S100000x128_0_1),
    StableHlo.binary main_v185 main_v199 main_v200 subf,
    StableHlo.nullary main_cst_56 (constant S_ .f32 0x3727C5AC#32),
    StableHlo.unary main_cst_56 main_v201 (broadcastInDim S100000x1 ![] bcast_S_S100000x1),
    StableHlo.binary main_v198 main_v201 main_v202 addf,
    StableHlo.unary main_v202 main_v203 Host.sqrt,
    StableHlo.unary main_v203 main_v204 (broadcastInDim S100000x128 ![0, 1] bcast_S100000x1_S100000x128_0_1),
    StableHlo.binary main_v200 main_v204 main_v205 Host.divf,
    StableHlo.unary main_arg18 main_v206 (broadcastInDim S1x128 ![1] bcast_S128_S1x128_1),
    StableHlo.unary main_v206 main_v207 (broadcastInDim S100000x128 ![0, 1] bcast_S1x128_S100000x128_0_1),
    StableHlo.binary main_v205 main_v207 main_v208 mulf,
    StableHlo.unary main_arg19 main_v209 (broadcastInDim S1x128 ![1] bcast_S128_S1x128_1),
    StableHlo.unary main_v209 main_v210 (broadcastInDim S100000x128 ![0, 1] bcast_S1x128_S100000x128_0_1),
    StableHlo.binary main_v208 main_v210 main_v211 addf,
    StableHlo.nullary main_cst_57 (constant S_ .f32 0x00000000#32),
    StableHlo.binary main_v187 main_cst_57 main_v212 (fun x v => Host.reduceAdd x v reducesTo_S10000x128_S10000_d1 h_S_),
    StableHlo.unary main_v212 main_v213 (broadcastInDim S10000x1 ![0] bcast_S10000_S10000x1_0),
    StableHlo.nullary main_cst_58 (constant S_ .f32 0x43000000#32),
    StableHlo.unary main_cst_58 main_v214 (broadcastInDim S10000x1 ![] bcast_S_S10000x1),
    StableHlo.binary main_v213 main_v214 main_v215 Host.divf,
    StableHlo.unary main_v215 main_v216 (broadcastInDim S10000x128 ![0, 1] bcast_S10000x1_S10000x128_0_1),
    StableHlo.binary main_v187 main_v216 main_v217 subf,
    StableHlo.binary main_v217 main_v217 main_v218 mulf,
    StableHlo.nullary main_cst_59 (constant S_ .f32 0x00000000#32),
    StableHlo.binary main_v218 main_cst_59 main_v219 (fun x v => Host.reduceAdd x v reducesTo_S10000x128_S10000_d1 h_S_),
    StableHlo.unary main_v219 main_v220 (broadcastInDim S10000x1 ![0] bcast_S10000_S10000x1_0),
    StableHlo.nullary main_cst_60 (constant S_ .f32 0x43000000#32),
    StableHlo.unary main_cst_60 main_v221 (broadcastInDim S10000x1 ![] bcast_S_S10000x1),
    StableHlo.binary main_v220 main_v221 main_v222 Host.divf,
    StableHlo.unary main_v215 main_v223 (broadcastInDim S10000x128 ![0, 1] bcast_S10000x1_S10000x128_0_1),
    StableHlo.binary main_v187 main_v223 main_v224 subf,
    StableHlo.nullary main_cst_61 (constant S_ .f32 0x3727C5AC#32),
    StableHlo.unary main_cst_61 main_v225 (broadcastInDim S10000x1 ![] bcast_S_S10000x1),
    StableHlo.binary main_v222 main_v225 main_v226 addf,
    StableHlo.unary main_v226 main_v227 Host.sqrt,
    StableHlo.unary main_v227 main_v228 (broadcastInDim S10000x128 ![0, 1] bcast_S10000x1_S10000x128_0_1),
    StableHlo.binary main_v224 main_v228 main_v229 Host.divf,
    StableHlo.unary main_arg20 main_v230 (broadcastInDim S1x128 ![1] bcast_S128_S1x128_1),
    StableHlo.unary main_v230 main_v231 (broadcastInDim S10000x128 ![0, 1] bcast_S1x128_S10000x128_0_1),
    StableHlo.binary main_v229 main_v231 main_v232 mulf,
    StableHlo.unary main_arg21 main_v233 (broadcastInDim S1x128 ![1] bcast_S128_S1x128_1),
    StableHlo.unary main_v233 main_v234 (broadcastInDim S10000x128 ![0, 1] bcast_S1x128_S10000x128_0_1),
    StableHlo.binary main_v232 main_v234 main_v235 addf ]

noncomputable abbrev ops4_W : List (Ref sig .tc) :=
  [main_v186, main_v187, main_cst_52, main_v188, main_v189, main_cst_53, main_v190, main_v191, main_v192, main_v193, main_v194, main_cst_54, main_v195, main_v196, main_cst_55, main_v197, main_v198, main_v199, main_v200, main_cst_56, main_v201, main_v202, main_v203, main_v204, main_v205, main_v206, main_v207, main_v208, main_v209, main_v210, main_v211, main_cst_57, main_v212, main_v213, main_cst_58, main_v214, main_v215, main_v216, main_v217, main_v218, main_cst_59, main_v219, main_v220, main_cst_60, main_v221, main_v222, main_v223, main_v224, main_cst_61, main_v225, main_v226, main_v227, main_v228, main_v229, main_v230, main_v231, main_v232, main_v233, main_v234, main_v235]

noncomputable abbrev ops5 : List (HloOp τ sig (Elt F)) :=
  [ StableHlo.TRef.nullary main_call6.cst (constant S_ .f32 0x00000000#32),
    StableHlo.TRef.unary main_call6.cst main_call6.v0 (broadcastInDim S100000x128 ![] bcast_S_S100000x128),
    StableHlo.TRef.binary (.of main_v211) main_call6.v0 main_call6.v1 (cmpf .ogt),
    StableHlo.TRef.nullary main_call6.cst_0 (constant S_ .f32 0x00000000#32),
    StableHlo.TRef.unary main_call6.cst_0 main_call6.v2 (broadcastInDim S100000x128 ![] bcast_S_S100000x128),
    StableHlo.TRef.binary (.of main_v211) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S100000x128 ![] bcast_S_S100000x128),
    StableHlo.TRef.ternary main_call6.v3 main_call6.call0.v1 (.of main_v211) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S100000x128 ![] bcast_S_S100000x128),
    StableHlo.TRef.binary main_call6.v6 main_call6.v5 main_call6.v7 mulf,
    StableHlo.TRef.ternary main_call6.v1 (.of main_v211) main_call6.v7 main_call6.call1.v0 select,
    StableHlo.TRef.nullary main_call7.cst (constant S_ .f32 0x00000000#32),
    StableHlo.TRef.unary main_call7.cst main_call7.v0 (broadcastInDim S10000x128 ![] bcast_S_S10000x128),
    StableHlo.TRef.binary (.of main_v235) main_call7.v0 main_call7.v1 (cmpf .ogt),
    StableHlo.TRef.nullary main_call7.cst_0 (constant S_ .f32 0x00000000#32),
    StableHlo.TRef.unary main_call7.cst_0 main_call7.v2 (broadcastInDim S10000x128 ![] bcast_S_S10000x128),
    StableHlo.TRef.binary (.of main_v235) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S10000x128 ![] bcast_S_S10000x128),
    StableHlo.TRef.ternary main_call7.v3 main_call7.call0.v1 (.of main_v235) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S10000x128 ![] bcast_S_S10000x128),
    StableHlo.TRef.binary main_call7.v6 main_call7.v5 main_call7.v7 mulf,
    StableHlo.TRef.ternary main_call7.v1 (.of main_v235) main_call7.v7 main_call7.call1.v0 select ]

noncomputable abbrev ops5_W : List (Ref sig .tc) :=
  [main_call6.cst.ref, main_call6.v0.ref, main_call6.v1.ref, main_call6.cst_0.ref, main_call6.v2.ref, main_call6.v3.ref, main_call6.cst_1.ref, main_call6.call0.v0.ref, main_call6.call0.v1.ref, main_call6.call0.v2.ref, main_call6.v5.ref, main_call6.cst_2.ref, main_call6.v6.ref, main_call6.v7.ref, main_call6.call1.v0.ref, main_call7.cst.ref, main_call7.v0.ref, main_call7.v1.ref, main_call7.cst_0.ref, main_call7.v2.ref, main_call7.v3.ref, main_call7.cst_1.ref, main_call7.call0.v0.ref, main_call7.call0.v1.ref, main_call7.call0.v2.ref, main_call7.v5.ref, main_call7.cst_2.ref, main_call7.v6.ref, main_call7.v7.ref, main_call7.call1.v0.ref]

noncomputable abbrev ops : List (HloOp τ sig (Elt F)) :=
  ops0 ++ (ops1 ++ (ops2 ++ (ops3 ++ (ops4 ++ (ops5)))))

noncomputable def Wref (m : (ℓ : Loc nD τ sig) → Buf (Elt F) ℓ) (c : Dev nD) : Valuation τ sig (Elt F) :=
  after ops (launchContents m c)

end Cert.ReferenceIdeal.Hand

end
-- ==== Proof.Spec.lean ====
import proofs.«133871_g61280593379539_cont_9to1c4b_765_12_alg».proof.ReferenceIdeal

noncomputable section

namespace Cert.ReferenceIdeal.Spec

open Idealize.ShloMosaic Cert.ReferenceIdeal Cert.ReferenceIdeal.Facts₀ Cert.ReferenceIdeal.Facts

variable {F : FTy → Type} [FloatOps F] [Cert.ReferenceIdeal.Facts]

abbrev FT (F : FTy → Type) (S : Shape) : Type := (⟨S, .f32⟩ : BufTy).Contents (Elt F)

abbrev IT (F : FTy → Type) (S : Shape) : Type := (⟨S, .i32⟩ : BufTy).Contents (Elt F)

noncomputable def linOp (h : FT F S100000x128) (W : FT F S128x128) (b : FT F S128) : FT F S100000x128 :=
  addf (Host.dotGeneral dot_S100000x128_S128x128_S100000x128_1_0_0_1_n_n none h
      (transpose S128x128 [1, 0] W transposes_S128x128_S128x128_1_0))
    (broadcastInDim S100000x128 ![0, 1] bcast_S1x128_S100000x128_0_1 (broadcastInDim S1x128 ![1] bcast_S128_S1x128_1 b))

noncomputable def linMac (h : FT F S10000x128) (W : FT F S128x128) (b : FT F S128) : FT F S10000x128 :=
  addf (Host.dotGeneral dot_S10000x128_S128x128_S10000x128_1_0_0_1_n_n none h
      (transpose S128x128 [1, 0] W transposes_S128x128_S128x128_1_0))
    (broadcastInDim S10000x128 ![0, 1] bcast_S1x128_S10000x128_0_1 (broadcastInDim S1x128 ![1] bcast_S128_S1x128_1 b))

noncomputable def wrapIdx (N : BitVec 32) (i : IT F S30000) : IT F S30000x1 :=
  broadcastInDim S30000x1 ![0] bcast_S30000_S30000x1_0
    (select (cmpi .slt i (broadcastInDim S30000 ![] bcast_S_S30000 (constantI S_ 32 0#32)))
      (addi i (broadcastInDim S30000 ![] bcast_S_S30000 (constantI S_ 32 N))) i)

noncomputable def scores (hs hd : FT F S30000x4x32) (feat : FT F S30000x1) (att : FT F S4x65) : FT F S30000x4 :=
  Host.reduceAdd
    (mulf
      (concatenate S30000x4x65 2
        [⟨S30000x4x32, hs⟩, ⟨S30000x4x32, hd⟩,
         ⟨S30000x4x1, broadcastInDim S30000x4x1 ![0, 1, 2] bcast_S30000x1x1_S30000x4x1_0_1_2
            (broadcastInDim S30000x1x1 ![0, 2] bcast_S30000x1_S30000x1x1_0_2 feat)⟩]
        concatenates_S30000x4x32_S30000x4x32_S30000x4x1_S30000x4x65_d2)
      (broadcastInDim S30000x4x65 ![0, 1, 2] bcast_S1x4x65_S30000x4x65_0_1_2
        (broadcastInDim S1x4x65 ![1, 2] bcast_S4x65_S1x4x65_1_2 att)))
    (constant S_ .f32 0x00000000#32) reducesTo_S30000x4x65_S30000x4_d2 h_S_

noncomputable def alphaOf (s : FT F S30000x4) : FT F S30000x4 :=
  Host.exp
    (minimumf (broadcastInDim S30000x4 ![] bcast_S_S30000x4 (id (constant S_ .f32 0x41A00000#32)))
      (maximumf (broadcastInDim S30000x4 ![] bcast_S_S30000x4 (id (constant S_ .f32 0xC1A00000#32)))
        (select (cmpf .oge s (broadcastInDim S30000x4 ![] bcast_S_S30000x4 (constant S_ .f32 0x00000000#32))) s
          (mulf (broadcastInDim S30000x4 ![] bcast_S_S30000x4 (constant S_ .f32 0x3E4CCCCD#32)) s))))

noncomputable def attnTail {Sd3 Sd2 : Shape}
    (sc2 : ScatterDims Sd2 S30000x1 S30000x4) (g2 : GatherDims Sd2 S30000x1 S30000x4)
    (sc3 : ScatterDims Sd3 S30000x1 S30000x4x32)
    (hb2 : S_.BroadcastsInDim Sd2 (![] : Fin 0 → Fin Sd2.rank)) (hb3 : S_.BroadcastsInDim Sd3 (![] : Fin 0 → Fin Sd3.rank))
    (hs : FT F S30000x4x32) (idst : IT F S30000x1) (a : FT F S30000x4) : FT F Sd3 :=
  let den : FT F Sd2 := Host.scatterAdd sc2 (broadcastInDim Sd2 ![] hb2 (constant S_ .f32 0x00000000#32)) idst a
  let w : FT F S30000x4 := Host.divf a
    (addf (Host.gather g2 den idst) (broadcastInDim S30000x4 ![] bcast_S_S30000x4 (constant S_ .f32 0x358637BD#32)))
  Host.scatterAdd sc3 (broadcastInDim Sd3 ![] hb3 (constant S_ .f32 0x00000000#32)) idst
    (mulf hs (broadcastInDim S30000x4x32 ![0, 1, 2] bcast_S30000x4x1_S30000x4x32_0_1_2
      (broadcastInDim S30000x4x1 ![0, 1] bcast_S30000x4_S30000x4x1_0_1 w)))

noncomputable def attn {Ss3 Sd3 Sd2 : Shape}
    (gS : GatherDims Ss3 S30000x1 S30000x4x32) (gD : GatherDims Sd3 S30000x1 S30000x4x32)
    (sc2 : ScatterDims Sd2 S30000x1 S30000x4) (g2 : GatherDims Sd2 S30000x1 S30000x4)
    (sc3 : ScatterDims Sd3 S30000x1 S30000x4x32)
    (hb2 : S_.BroadcastsInDim Sd2 (![] : Fin 0 → Fin Sd2.rank)) (hb3 : S_.BroadcastsInDim Sd3 (![] : Fin 0 → Fin Sd3.rank))
    (zs : FT F Ss3) (zd : FT F Sd3) (isrc idst : IT F S30000x1) (feat : FT F S30000x1) (att : FT F S4x65) : FT F Sd3 :=
  attnTail sc2 g2 sc3 hb2 hb3 (Host.gather gS zs isrc) idst
    (alphaOf (scores (Host.gather gS zs isrc) (Host.gather gD zd idst) feat att))

noncomputable def lnElu (n : Nat) (hred : (⟨2, ![n, 128]⟩ : Shape).ReducesTo [1] ⟨1, ![n]⟩)
    (hcol : (⟨1, ![n]⟩ : Shape).BroadcastsInDim (⟨2, ![n, 1]⟩ : Shape) (![0] : Fin 1 → Fin (⟨2, ![n, 1]⟩ : Shape).rank)) (hs1 : S_.BroadcastsInDim (⟨2, ![n, 1]⟩ : Shape) (![] : Fin 0 → Fin (⟨2, ![n, 1]⟩ : Shape).rank))
    (hrow : (⟨2, ![n, 1]⟩ : Shape).BroadcastsInDim (⟨2, ![n, 128]⟩ : Shape) (![0, 1] : Fin 2 → Fin (⟨2, ![n, 128]⟩ : Shape).rank))
    (hvec : S1x128.BroadcastsInDim (⟨2, ![n, 128]⟩ : Shape) (![0, 1] : Fin 2 → Fin (⟨2, ![n, 128]⟩ : Shape).rank))
    (hsx : S_.BroadcastsInDim (⟨2, ![n, 128]⟩ : Shape) (![] : Fin 0 → Fin (⟨2, ![n, 128]⟩ : Shape).rank))
    (x : FT F (⟨2, ![n, 128]⟩ : Shape)) (s b : FT F S128) : FT F (⟨2, ![n, 128]⟩ : Shape) :=
  let mu : FT F (⟨2, ![n, 1]⟩ : Shape) := Host.divf (broadcastInDim (⟨2, ![n, 1]⟩ : Shape) ![0] hcol (Host.reduceAdd x (constant S_ .f32 0x00000000#32) hred h_S_))
    (broadcastInDim (⟨2, ![n, 1]⟩ : Shape) ![] hs1 (constant S_ .f32 0x43000000#32))
  let xc : FT F (⟨2, ![n, 128]⟩ : Shape) := subf x (broadcastInDim (⟨2, ![n, 128]⟩ : Shape) ![0, 1] hrow mu)
  let var : FT F (⟨2, ![n, 1]⟩ : Shape) := Host.divf
    (broadcastInDim (⟨2, ![n, 1]⟩ : Shape) ![0] hcol (Host.reduceAdd (mulf xc xc) (constant S_ .f32 0x00000000#32) hred h_S_))
    (broadcastInDim (⟨2, ![n, 1]⟩ : Shape) ![] hs1 (constant S_ .f32 0x43000000#32))
  let y : FT F (⟨2, ![n, 128]⟩ : Shape) := addf
    (mulf (Host.divf xc (broadcastInDim (⟨2, ![n, 128]⟩ : Shape) ![0, 1] hrow
        (Host.sqrt (addf var (broadcastInDim (⟨2, ![n, 1]⟩ : Shape) ![] hs1 (constant S_ .f32 0x3727C5AC#32))))))
      (broadcastInDim (⟨2, ![n, 128]⟩ : Shape) ![0, 1] hvec (broadcastInDim S1x128 ![1] bcast_S128_S1x128_1 s)))
    (broadcastInDim (⟨2, ![n, 128]⟩ : Shape) ![0, 1] hvec (broadcastInDim S1x128 ![1] bcast_S128_S1x128_1 b))
  let pos := cmpf .ogt y (broadcastInDim (⟨2, ![n, 128]⟩ : Shape) ![] hsx (constant S_ .f32 0x00000000#32))
  select pos y
    (mulf (broadcastInDim (⟨2, ![n, 128]⟩ : Shape) ![] hsx (constant S_ .f32 0x3F800000#32))
      (Host.expm1 (select pos (broadcastInDim (⟨2, ![n, 128]⟩ : Shape) ![] hsx (id (constant S_ .f32 0x00000000#32))) y)))

structure Args (F : FTy → Type) where
  hOp : FT F S100000x128
  hMac : FT F S10000x128
  seqSrc : IT F S30000
  seqDst : IT F S30000
  omSrc : IT F S30000
  omDst : IT F S30000
  moSrc : IT F S30000
  moDst : IT F S30000
  featSeq : FT F S30000x1
  featOm : FT F S30000x1
  featMo : FT F S30000x1
  wOp : FT F S128x128
  bOp : FT F S128
  wMac : FT F S128x128
  bMac : FT F S128
  attSeq : FT F S4x65
  attOm : FT F S4x65
  attMo : FT F S4x65
  lnOpS : FT F S128
  lnOpB : FT F S128
  lnMacS : FT F S128
  lnMacB : FT F S128

variable (A : Args F)

noncomputable def lOp : FT F S100000x128 := linOp A.hOp A.wOp A.bOp

noncomputable def lMac : FT F S10000x128 := linMac A.hMac A.wMac A.bMac

noncomputable def zOp : FT F S100000x4x32 := shapeCast S100000x4x32 (lOp A) shapeCasts_S100000x128_S100000x4x32
noncomputable def zMac : FT F S10000x4x32 := shapeCast S10000x4x32 (lMac A) shapeCasts_S10000x128_S10000x4x32

noncomputable def attnSeq : FT F S100000x4x32 :=
  attn gather_S100000x4x32_S30000x1_S30000x4x32_12_0_n_n_0_1_1432 gather_S100000x4x32_S30000x1_S30000x4x32_12_0_n_n_0_1_1432
    scatter_S100000x4_S30000x1_S30000x4_1_0_0_1 gather_S100000x4_S30000x1_S30000x4_1_0_n_n_0_1_14
    scatter_S100000x4x32_S30000x1_S30000x4x32_12_0_0_1 bcast_S_S100000x4 bcast_S_S100000x4x32
    (zOp A) (zOp A) (wrapIdx 100000#32 A.seqSrc) (wrapIdx 100000#32 A.seqDst) A.featSeq A.attSeq

noncomputable def attnOm : FT F S10000x4x32 :=
  attn gather_S100000x4x32_S30000x1_S30000x4x32_12_0_n_n_0_1_1432 gather_S10000x4x32_S30000x1_S30000x4x32_12_0_n_n_0_1_1432
    scatter_S10000x4_S30000x1_S30000x4_1_0_0_1 gather_S10000x4_S30000x1_S30000x4_1_0_n_n_0_1_14
    scatter_S10000x4x32_S30000x1_S30000x4x32_12_0_0_1 bcast_S_S10000x4 bcast_S_S10000x4x32
    (zOp A) (zMac A) (wrapIdx 100000#32 A.omSrc) (wrapIdx 10000#32 A.omDst) A.featOm A.attOm

noncomputable def attnMo : FT F S100000x4x32 :=
  attn gather_S10000x4x32_S30000x1_S30000x4x32_12_0_n_n_0_1_1432 gather_S100000x4x32_S30000x1_S30000x4x32_12_0_n_n_0_1_1432
    scatter_S100000x4_S30000x1_S30000x4_1_0_0_1 gather_S100000x4_S30000x1_S30000x4_1_0_n_n_0_1_14
    scatter_S100000x4x32_S30000x1_S30000x4x32_12_0_0_1 bcast_S_S100000x4 bcast_S_S100000x4x32
    (zMac A) (zOp A) (wrapIdx 10000#32 A.moSrc) (wrapIdx 100000#32 A.moDst) A.featMo A.attMo

noncomputable def outOp : FT F S100000x128 :=
  shapeCast S100000x128 (addf (attnSeq A) (attnMo A)) shapeCasts_S100000x4x32_S100000x128

noncomputable def outMac : FT F S10000x128 := shapeCast S10000x128 (attnOm A) shapeCasts_S10000x4x32_S10000x128

noncomputable def res0 : FT F S100000x128 :=
  lnElu 100000 reducesTo_S100000x128_S100000_d1 bcast_S100000_S100000x1_0 bcast_S_S100000x1 bcast_S100000x1_S100000x128_0_1
    bcast_S1x128_S100000x128_0_1 bcast_S_S100000x128 (addf (outOp A) (lOp A)) A.lnOpS A.lnOpB

noncomputable def res1 : FT F S10000x128 :=
  lnElu 10000 reducesTo_S10000x128_S10000_d1 bcast_S10000_S10000x1_0 bcast_S_S10000x1 bcast_S10000x1_S10000x128_0_1
    bcast_S1x128_S10000x128_0_1 bcast_S_S10000x128 (addf (outMac A) (lMac A)) A.lnMacS A.lnMacB

end Cert.ReferenceIdeal.Spec

end
-- ==== Proof.LibNary5.lean ====
import Idealize.ShloMosaic.Lib.StableHlo.Run

noncomputable section

namespace Idealize.ShloMosaic.StableHlo

open Idealize.SL Idealize.SL.Sem

variable {τ : Topo} {sig : RefSig} {Val : EltTy → Type}
variable {x a b c e y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

macro "after_results_simp5" : tactic =>
  `(tactic| (simp (disch := decide) only [after_cons, after_nil,
      nullary_result', unary_result', binary_result', ternary_result', quaternary_result', reshape_result',
      nary3_result', nary4_result', nary5_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.Ref.Val.lean ====
import proofs.«133871_g61280593379539_cont_9to1c4b_765_12_alg».proof.Proof.Ref.Ops
import proofs.«133871_g61280593379539_cont_9to1c4b_765_12_alg».proof.Proof.Spec
import proofs.«133871_g61280593379539_cont_9to1c4b_765_12_alg».proof.Proof.LibNary5
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The stretch of `n` operations from the `i`-th: linear layers `seg 0 12`; attention relations `seg 12 80`, `seg 92 80`, `seg 172 80`; tail `seg 252 93`. -/
noncomputable def seg (i n : ℕ) : List (HloOp τ sig (Elt F)) := (ops.drop i).take n

/-- All written references, window after window. -/
noncomputable abbrev opsW : List (Ref sig .tc) := ops0_W ++ (ops1_W ++ (ops2_W ++ (ops3_W ++ (ops4_W ++ ops5_W))))

/-- Pairwise: each operation of `l` writes exactly the reference of `W` at its place. -/
abbrev WritesAt (l : List (HloOp τ sig (Elt F))) (W : List (Ref sig .tc)) : Prop :=
  List.Forall₂ (fun op r => op.writes = {Proc.devRef (τ := τ) .tc r}) l W

theorem ops_writes : WritesAt (ops (F := F)) opsW := by
  repeat' first | exact .nil | refine .cons rfl ?_ | apply List.rel_append

/-- Induction on the pairing: an unlisted reference is untouched at every step. -/
theorem WritesAt.keep {l : List (HloOp τ sig (Elt F))} {W : List (Ref sig .tc)} (h : WritesAt l W)
    (V : Valuation τ sig (Elt F)) {r : Ref sig .tc} (hr : r ∉ W) :
    after l V (Proc.devRef .tc r) = V (Proc.devRef .tc r) := by
  induction h generalizing V with
  | nil => rfl
  | cons ho _ ih =>
    rw [after_cons, ih _ fun hm => hr (List.mem_cons_of_mem _ hm), HloOp.result_of_not_mem]
    rw [ho, Finset.mem_singleton]
    exact fun e => hr (Proc.devRef_injective _ e ▸ List.mem_cons_self)

/-- Cutting both lists alike keeps the pairing, so a stretch leaves unlisted references alone. -/
theorem seg_keep (i n : ℕ) (V : Valuation τ sig (Elt F)) (r : Ref sig .tc) (h : r ∉ (opsW.drop i).take n) :
    after (seg i n) V (no_index (Proc.devRef .tc r)) = V (Proc.devRef .tc r) :=
  WritesAt.keep (List.forall₂_take n (List.forall₂_drop i ops_writes)) V h

/-- Embedding of the operation nodes: input times transposed weight, plus bias. -/
theorem segLin_v4 (V : Valuation τ sig (Elt F)) :
    after (seg 0 12) V (no_index (Proc.devRef .tc main_v4))
      = Spec.linOp (V (Proc.devRef .tc main_arg0)) (V (Proc.devRef .tc main_arg11)) (V (Proc.devRef .tc main_arg12)) := by
  simp only [seg, ops, ops0, List.cons_append, List.nil_append, List.drop_succ_cons, List.drop_zero, List.take_succ_cons, List.take_zero]
  after_results_simp5
  rfl

/-- Likewise for the machine nodes. -/
theorem segLin_v9 (V : Valuation τ sig (Elt F)) :
    after (seg 0 12) V (no_index (Proc.devRef .tc main_v9))
      = Spec.linMac (V (Proc.devRef .tc main_arg1)) (V (Proc.devRef .tc main_arg13)) (V (Proc.devRef .tc main_arg14)) := by
  simp only [seg, ops, ops0, List.cons_append, List.nil_append, List.drop_succ_cons, List.drop_zero, List.take_succ_cons, List.take_zero]
  after_results_simp5
  rfl

/-- The same embedding regrouped into four heads of 32. -/
theorem segLin_v10 (V : Valuation τ sig (Elt F)) :
    after (seg 0 12) V (no_index (Proc.devRef .tc main_v10))
      = shapeCast S100000x4x32 (Spec.linOp (V (Proc.devRef .tc main_arg0)) (V (Proc.devRef .tc main_arg11)) (V (Proc.devRef .tc main_arg12)))
          shapeCasts_S100000x128_S100000x4x32 := by
  simp only [seg, ops, ops0, List.cons_append, List.nil_append, List.drop_succ_cons, List.drop_zero, List.take_succ_cons, List.take_zero]
  after_results_simp5
  rfl

/-- Likewise for the machine nodes. -/
theorem segLin_v11 (V : Valuation τ sig (Elt F)) :
    after (seg 0 12) V (no_index (Proc.devRef .tc main_v11))
      = shapeCast S10000x4x32 (Spec.linMac (V (Proc.devRef .tc main_arg1)) (V (Proc.devRef .tc main_arg13)) (V (Proc.devRef .tc main_arg14)))
          shapeCasts_S10000x128_S10000x4x32 := by
  simp only [seg, ops, ops0, List.cons_append, List.nil_append, List.drop_succ_cons, List.drop_zero, List.take_succ_cons, List.take_zero]
  after_results_simp5
  rfl

set_option maxHeartbeats 1000000 in
/-- Operation-to-operation edges: scores exponentiated, normalised per destination, the weighted sources summed there. -/
theorem segSeq_v68 (V : Valuation τ sig (Elt F)) :
    after (seg 12 80) V (no_index (Proc.devRef .tc main_v68))
      = Spec.attn gather_S100000x4x32_S30000x1_S30000x4x32_12_0_n_n_0_1_1432 gather_S100000x4x32_S30000x1_S30000x4x32_12_0_n_n_0_1_1432
          scatter_S100000x4_S30000x1_S30000x4_1_0_0_1 gather_S100000x4_S30000x1_S30000x4_1_0_n_n_0_1_14
          scatter_S100000x4x32_S30000x1_S30000x4x32_12_0_0_1 bcast_S_S100000x4 bcast_S_S100000x4x32
          (V (Proc.devRef .tc main_v10)) (V (Proc.devRef .tc main_v10)) (Spec.wrapIdx 100000#32 (V (Proc.devRef .tc main_arg2))) (Spec.wrapIdx 100000#32 (V (Proc.devRef .tc main_arg3)))
          (V (Proc.devRef .tc main_arg8)) (V (Proc.devRef .tc main_arg15)) := by
  simp only [seg, ops, ops0, ops1, List.cons_append, List.nil_append, List.drop_succ_cons, List.drop_zero, List.take_succ_cons, List.take_zero]
  after_results_simp5
  rfl

set_option maxHeartbeats 1000000 in
/-- The same reading for the edges from operations to machines. -/
theorem segOm_v125 (V : Valuation τ sig (Elt F)) :
    after (seg 92 80) V (no_index (Proc.devRef .tc main_v125))
      = Spec.attn gather_S100000x4x32_S30000x1_S30000x4x32_12_0_n_n_0_1_1432 gather_S10000x4x32_S30000x1_S30000x4x32_12_0_n_n_0_1_1432
          scatter_S10000x4_S30000x1_S30000x4_1_0_0_1 gather_S10000x4_S30000x1_S30000x4_1_0_n_n_0_1_14
          scatter_S10000x4x32_S30000x1_S30000x4x32_12_0_0_1 bcast_S_S10000x4 bcast_S_S10000x4x32
          (V (Proc.devRef .tc main_v10)) (V (Proc.devRef .tc main_v11)) (Spec.wrapIdx 100000#32 (V (Proc.devRef .tc main_arg4))) (Spec.wrapIdx 10000#32 (V (Proc.devRef .tc main_arg5)))
          (V (Proc.devRef .tc main_arg9)) (V (Proc.devRef .tc main_arg16)) := by
  simp only [seg, ops, ops0, ops1, ops2, List.cons_append, List.nil_append, List.drop_succ_cons, List.drop_zero, List.take_succ_cons, List.take_zero]
  after_results_simp5
  rfl

set_option maxHeartbeats 1000000 in
/-- And for the edges from machines to operations. -/
theorem segMo_v182 (V : Valuation τ sig (Elt F)) :
    after (seg 172 80) V (no_index (Proc.devRef .tc main_v182))
      = Spec.attn gather_S10000x4x32_S30000x1_S30000x4x32_12_0_n_n_0_1_1432 gather_S100000x4x32_S30000x1_S30000x4x32_12_0_n_n_0_1_1432
          scatter_S100000x4_S30000x1_S30000x4_1_0_0_1 gather_S100000x4_S30000x1_S30000x4_1_0_n_n_0_1_14
          scatter_S100000x4x32_S30000x1_S30000x4x32_12_0_0_1 bcast_S_S100000x4 bcast_S_S100000x4x32
          (V (Proc.devRef .tc main_v11)) (V (Proc.devRef .tc main_v10)) (Spec.wrapIdx 10000#32 (V (Proc.devRef .tc main_arg6))) (Spec.wrapIdx 100000#32 (V (Proc.devRef .tc main_arg7)))
          (V (Proc.devRef .tc main_arg10)) (V (Proc.devRef .tc main_arg17)) := by
  simp only [seg, ops, ops0, ops1, ops2, ops3, List.cons_append, List.nil_append, List.drop_succ_cons, List.drop_zero, List.take_succ_cons, List.take_zero]
  after_results_simp5
  rfl

/-- Operation nodes' output: both incoming messages plus the residual, layer-normalised, then the exponential linear unit. -/
theorem segTail_v236 (V : Valuation τ sig (Elt F)) :
    after (seg 252 93) V (no_index (Proc.devRef .tc main_v236))
      = Spec.lnElu 100000 reducesTo_S100000x128_S100000_d1 bcast_S100000_S100000x1_0 bcast_S_S100000x1
          bcast_S100000x1_S100000x128_0_1 bcast_S1x128_S100000x128_0_1 bcast_S_S100000x128
          (addf (shapeCast S100000x128 (addf (V (Proc.devRef .tc main_v68)) (V (Proc.devRef .tc main_v182))) shapeCasts_S100000x4x32_S100000x128)
            (V (Proc.devRef .tc main_v4)))
          (V (Proc.devRef .tc main_arg18)) (V (Proc.devRef .tc main_arg19)) := by
  simp only [seg, ops, ops0, ops1, ops2, ops3, ops4, ops5, List.cons_append, List.nil_append, List.drop_succ_cons, List.drop_zero, List.take_succ_cons, List.take_zero]
  after_results_simp5
  rfl

/-- Machine nodes' output, read the same way. -/
theorem segTail_v237 (V : Valuation τ sig (Elt F)) :
    after (seg 252 93) V (no_index (Proc.devRef .tc main_v237))
      = Spec.lnElu 10000 reducesTo_S10000x128_S10000_d1 bcast_S10000_S10000x1_0 bcast_S_S10000x1
          bcast_S10000x1_S10000x128_0_1 bcast_S1x128_S10000x128_0_1 bcast_S_S10000x128
          (addf (shapeCast S10000x128 (V (Proc.devRef .tc main_v125)) shapeCasts_S10000x4x32_S10000x128) (V (Proc.devRef .tc main_v9)))
          (V (Proc.devRef .tc main_arg20)) (V (Proc.devRef .tc main_arg21)) := by
  simp only [seg, ops, ops0, ops1, ops2, ops3, ops4, ops5, List.cons_append, List.nil_append, List.drop_succ_cons, List.drop_zero, List.take_succ_cons, List.take_zero]
  after_results_simp5
  rfl

/-- The launch's argument arrays on device `c`, packed for the specification. -/
noncomputable def argsOf (m : (ℓ : Loc nD τ sig) → Buf (Elt F) ℓ) (c : Dev nD) : Spec.Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21)⟩

/-- The whole line is its five stretches run in order. -/
theorem Wref_eq (m : (ℓ : Loc nD τ sig) → Buf (Elt F) ℓ) (c : Dev nD) :
    Wref m c = after (seg 252 93) (after (seg 172 80) (after (seg 92 80) (after (seg 12 80) (after (seg 0 12) (launchContents m c))))) := by
  simp only [← StableHlo.after_append]
  rfl

/-- Chaining the stretches' readings gives the specification's first result. -/
theorem Wref_res0 (m : (ℓ : Loc nD τ sig) → Buf (Elt F) ℓ) (c : Dev nD) :
    Wref m c (Proc.devRef .tc main_v236) = Spec.res0 (argsOf m c) := by
  rw [Wref_eq]
  simp (disch := decide) only [segTail_v236, seg_keep, segMo_v182, segSeq_v68, segLin_v4, segLin_v10, segLin_v11]
  rfl

/-- And its second. -/
theorem Wref_res1 (m : (ℓ : Loc nD τ sig) → Buf (Elt F) ℓ) (c : Dev nD) :
    Wref m c (Proc.devRef .tc main_v237) = Spec.res1 (argsOf m c) := by
  rw [Wref_eq]
  simp (disch := decide) only [segTail_v237, seg_keep, segOm_v125, segLin_v9, segLin_v10, segLin_v11]
  rfl

end Cert.ReferenceIdeal.Hand

end
-- ==== Proof.Ref.Run.lean ====
import proofs.«133871_g61280593379539_cont_9to1c4b_765_12_alg».proof.Proof.Ref.Ops
import proofs.«133871_g61280593379539_cont_9to1c4b_765_12_alg».proof.Proof.Ref.Val

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

set_option maxHeartbeats 1000000 in
/-- Unfolding each part, inlined calls included, leaves exactly its window's operations in sequence. -/
theorem main_parts_eq (c : Dev nD) :
    main_part0 (F := F) c = seq ops0 ∧ main_part1 (F := F) c = seq ops1 ∧ main_part2 (F := F) c = seq ops2
      ∧ main_part3 (F := F) c = seq ops3 ∧ main_part4 (F := F) c = seq ops4 ∧ main_part5 (F := F) c = seq ops5 := by
  refine ⟨?_, ?_, ?_, ?_, ?_, ?_⟩ <;>
    simp only [main_part0, main_part1, main_part2, main_part3, main_part4, main_part5, fn_where.body, fn_clip.body,
      fn_elu.body, fn_elu_2.body, fn_where_0.body, fn_where_1.body, fn_where_3.body, fn_where_4.body, seq, bind_assoc,
      pure_bind] <;> rfl

/-- Hence @main is the sequence of all windows joined. -/
theorem main_eq (c : Dev nD) : main (F := F) c = seq ops := by
  obtain ⟨e0, e1, e2, e3, e4, e5⟩ := main_parts_eq (F := F) c
  have e : seq (ops (F := F)) = (main_part0 (F := F) c >>= fun _ => main_part1 c >>= fun _ => main_part2 c >>= fun _ =>
      main_part3 c >>= fun _ => main_part4 c >>= fun _ => main_part5 c) := by
    rw [e0, e1, e2, e3, e4, e5]
    simp only [ops, seq_append]
  rw [e]
  rfl

theorem ops_ok : ∀ op ∈ (ops : List (HloOp τ sig (Elt F))), op.bufs ⊆ tcRefs τ sig ∧ op.fresh = ∅ := by
  simp only [ops, List.forall_mem_append]
  refine ⟨?_, ?_, ?_, ?_, ?_, ?_⟩ <;> refine List.forall_iff_forall_mem.mp ?_ <;>
    (simp only [List.Forall, nullary_bufs_sub, unary_bufs_sub, binary_bufs_sub, ternary_bufs_sub, reshape_bufs_sub,
       nary_bufs_sub, true_and]
     repeat' constructor)

/-- Every argument array still holds its launch contents. -/
abbrev argsKept (m mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)

/-- Every run ends with the two results at the line's fold over the launch contents, no argument touched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v236) = Wref m c (Proc.devRef .tc main_v236)
        ∧ r.2.mem ((c.tc : Thread nD τ).loc main_v237) = Wref m c (Proc.devRef .tc main_v237))
      ∧ argsKept m r.2.mem c :=
  (θ_run defs _ _).mono (fun _ h c => ⟨⟨h c _, h c _⟩, by
      repeat' apply And.intro
      all_goals exact (h c _).trans (WritesAt.keep ops_writes _ (by decide))⟩)
    (run_seq (by decide) (by decide) defs main (fun _ => ops) main_eq
      (fun _ => List.forall_iff_forall_mem.mpr fun op h => (ops_ok op h).1) m ρ fun _ op h => (ops_ok op h).2)

/-- Its argument part alone. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      argsKept m r.2.mem c :=
  (θ_run defs _ _).mono (fun _ h c => (h c).2) (run m ρ)

end Cert.ReferenceIdeal.Hand

end
-- ==== Proof.Bridge.Proj.lean ====
import Idealize.ShloMosaic.Lib.ValueIdx
import Idealize.ShloMosaic.PureOps.Ideal

noncomputable section

namespace Cert.Bridge

open Idealize.ShloMosaic Idealize.ShloMosaic.ValueIdx

def ColumnOf (a : (⟨2, ![128, 16]⟩ : Shape).Idx → EReal) (g : Fin 4) (att : (⟨2, ![4, 65]⟩ : Shape).Idx → EReal)
    (half : Fin 2) : Prop :=
  ∀ (d : Fin 128) (h : Fin 4),
    a (ix2 d ⟨4 * g.val + h.val, by omega⟩)
      = if d.val / 32 = h.val then att (ix2 h ⟨32 * half.val + d.val % 32, by omega⟩) else 0

def Projects {n : Nat} (lin : (⟨2, ![n, 128]⟩ : Shape).Idx → EReal) (sc : (⟨2, ![n, 16]⟩ : Shape).Idx → EReal)
    (g : Fin 4) (att : (⟨2, ![4, 65]⟩ : Shape).Idx → EReal) (half : Fin 2) : Prop :=
  ∀ (r : Fin n) (h : Fin 4),
    sc (ix2 r ⟨4 * g.val + h.val, by omega⟩)
      = ∑ k : Fin 32, lin (ix2 r ⟨32 * h.val + k.val, by omega⟩) * att (ix2 h ⟨32 * half.val + k.val, by omega⟩)

def scIdx {n : Nat} (lin : (⟨2, ![n, 128]⟩ : Shape).Idx → EReal) (a : (⟨2, ![128, 16]⟩ : Shape).Idx → EReal) :
    (⟨2, ![n, 16]⟩ : Shape).Idx → EReal :=
  fun i => ∑ d : Fin 128, lin (ix2 (i 0) d) * a (ix2 d (i 1))

def linIdx {n : Nat} (h : (⟨2, ![n, 128]⟩ : Shape).Idx → EReal) (wt : (⟨2, ![128, 128]⟩ : Shape).Idx → EReal)
    (b : (⟨2, ![1, 128]⟩ : Shape).Idx → EReal) : (⟨2, ![n, 128]⟩ : Shape).Idx → EReal :=
  fun i => (∑ k : Fin 128, h (ix2 (i 0) k) * wt (ix2 k (i 1))) + b (ix2 0 (i 1))

end Cert.Bridge

end
-- ==== Proof.KI.Val01.lean ====
import proofs.«133871_g61280593379539_cont_9to1c4b_765_12_alg».proof.Proof.KI.Body0
import proofs.«133871_g61280593379539_cont_9to1c4b_765_12_alg».proof.Proof.KI.Body1
import proofs.«133871_g61280593379539_cont_9to1c4b_765_12_alg».proof.Proof.Bridge.Proj
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem lhs_lin_0 (j : S2000x128.Idx) (k : dot_S2000x128_S128x128_S2000x128_1_0_0_1_n_n.contr.Idx) :
    (dot_S2000x128_S128x128_S2000x128_1_0_0_1_n_n.lhsIdx j k 0 : ℕ) = j 0 := by
  simp [DotDims.lhsIdx, dot_S2000x128_S128x128_S2000x128_1_0_0_1_n_n]; rfl
theorem lhs_lin_1 (j : S2000x128.Idx) (k : dot_S2000x128_S128x128_S2000x128_1_0_0_1_n_n.contr.Idx) :
    (dot_S2000x128_S128x128_S2000x128_1_0_0_1_n_n.lhsIdx j k 1 : ℕ) = k ⟨0, by decide⟩ := by
  simp [DotDims.lhsIdx, dot_S2000x128_S128x128_S2000x128_1_0_0_1_n_n]; rfl
theorem rhs_lin_0 (j : S2000x128.Idx) (k : dot_S2000x128_S128x128_S2000x128_1_0_0_1_n_n.contr.Idx) :
    (dot_S2000x128_S128x128_S2000x128_1_0_0_1_n_n.rhsIdx j k 0 : ℕ) = k ⟨0, by decide⟩ := by
  simp [DotDims.rhsIdx, dot_S2000x128_S128x128_S2000x128_1_0_0_1_n_n]; rfl
theorem rhs_lin_1 (j : S2000x128.Idx) (k : dot_S2000x128_S128x128_S2000x128_1_0_0_1_n_n.contr.Idx) :
    (dot_S2000x128_S128x128_S2000x128_1_0_0_1_n_n.rhsIdx j k 1 : ℕ) = j 1 := by
  simp [DotDims.rhsIdx, dot_S2000x128_S128x128_S2000x128_1_0_0_1_n_n]; rfl

theorem lhs_sc_0 (j : S2000x16.Idx) (k : dot_S2000x128_S128x16_S2000x16_1_0_0_1_n_n.contr.Idx) :
    (dot_S2000x128_S128x16_S2000x16_1_0_0_1_n_n.lhsIdx j k 0 : ℕ) = j 0 := by
  simp [DotDims.lhsIdx, dot_S2000x128_S128x16_S2000x16_1_0_0_1_n_n]; rfl
theorem lhs_sc_1 (j : S2000x16.Idx) (k : dot_S2000x128_S128x16_S2000x16_1_0_0_1_n_n.contr.Idx) :
    (dot_S2000x128_S128x16_S2000x16_1_0_0_1_n_n.lhsIdx j k 1 : ℕ) = k ⟨0, by decide⟩ := by
  simp [DotDims.lhsIdx, dot_S2000x128_S128x16_S2000x16_1_0_0_1_n_n]; rfl
theorem rhs_sc_0 (j : S2000x16.Idx) (k : dot_S2000x128_S128x16_S2000x16_1_0_0_1_n_n.contr.Idx) :
    (dot_S2000x128_S128x16_S2000x16_1_0_0_1_n_n.rhsIdx j k 0 : ℕ) = k ⟨0, by decide⟩ := by
  simp [DotDims.rhsIdx, dot_S2000x128_S128x16_S2000x16_1_0_0_1_n_n]; rfl
theorem rhs_sc_1 (j : S2000x16.Idx) (k : dot_S2000x128_S128x16_S2000x16_1_0_0_1_n_n.contr.Idx) :
    (dot_S2000x128_S128x16_S2000x16_1_0_0_1_n_n.rhsIdx j k 1 : ℕ) = j 1 := by
  simp [DotDims.rhsIdx, dot_S2000x128_S128x16_S2000x16_1_0_0_1_n_n]; rfl

theorem matmul_lin_apply (A : FVec Ideal S2000x128 .f32) (B : FVec Ideal S128x128 .f32) (j : S2000x128.Idx) :
    matmul dot_S2000x128_S128x128_S2000x128_1_0_0_1_n_n none A B (constant S2000x128 .f32 0x00000000#32) j
      = ∑ k : Fin 128, A (ix2 (j 0) k) * B (ix2 k (j 1)) := by
  show FloatOps.matmul _ none A B _ j = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx j ((contrEquiv1 _ 128 rfl rfl).symm c) = ix2 (j 0) c := by
    funext ax; apply Fin.ext
    match ax with
    | ⟨0, _⟩ => exact lhs_lin_0 _ _
    | ⟨1, _⟩ => exact (lhs_lin_1 _ _).trans c2
  have r2 : dot_S2000x128_S128x128_S2000x128_1_0_0_1_n_n.rhsIdx j ((contrEquiv1 _ 128 rfl rfl).symm c) = ix2 c (j 1) := by
    funext ax; apply Fin.ext
    match ax with
    | ⟨0, _⟩ => exact (rhs_lin_0 _ _).trans c2
    | ⟨1, _⟩ => exact rhs_lin_1 _ _
  rw [l2, r2]
  rfl

theorem matmul_sc_apply (A : FVec Ideal S2000x128 .f32) (B : FVec Ideal S128x16 .f32) (j : S2000x16.Idx) :
    matmul dot_S2000x128_S128x16_S2000x16_1_0_0_1_n_n none A B (constant S2000x16 .f32 0x00000000#32) j
      = ∑ k : Fin 128, A (ix2 (j 0) k) * B (ix2 k (j 1)) := by
  show FloatOps.matmul _ none A B _ j = _
  rw [Ideal.matmul_constant_zero_apply,
    ← Equiv.sum_comp (contrEquiv1 dot_S2000x128_S128x16_S2000x16_1_0_0_1_n_n 128 rfl rfl).symm]
  refine Finset.sum_congr rfl fun c _ => ?_
  have c2 := contrEquiv1_symm_val dot_S2000x128_S128x16_S2000x16_1_0_0_1_n_n 128 rfl rfl c
  have l2 : dot_S2000x128_S128x16_S2000x16_1_0_0_1_n_n.lhsIdx j ((contrEquiv1 _ 128 rfl rfl).symm c) = ix2 (j 0) c := by
    funext ax; apply Fin.ext
    match ax with
    | ⟨0, _⟩ => exact lhs_sc_0 _ _
    | ⟨1, _⟩ => exact (lhs_sc_1 _ _).trans c2
  have r2 : dot_S2000x128_S128x16_S2000x16_1_0_0_1_n_n.rhsIdx j ((contrEquiv1 _ 128 rfl rfl).symm c) = ix2 c (j 1) := by
    funext ax; apply Fin.ext
    match ax with
    | ⟨0, _⟩ => exact (rhs_sc_0 _ _).trans c2
    | ⟨1, _⟩ => exact rhs_sc_1 _ _
  rw [l2, r2]
  rfl

theorem pay0_lin_apply (x0 : Vec Ideal S2000x128 .f32) (x1 : Vec Ideal S128x128 .f32) (x2 : Vec Ideal S1x128 .f32) (j : S2000x128.Idx) :
    k0_pay1 x0 x1 x2 j = (∑ k : Fin 128, x0 (ix2 (j 0) k) * x1 (ix2 k (j 1))) + x2 (ix2 0 (j 1)) := by
  unfold k0_pay1
  rw [addf_apply, shapeCast_self, shapeCast_self, matmul_lin_apply]
  congr 1
  refine broadcastTo_apply _ _ _ _ fun a => ?_
  match a with
  | ⟨0, _⟩ => rfl
  | ⟨1, _⟩ => rfl

theorem pay0_sc_apply (x0 : Vec Ideal S2000x128 .f32) (x1 : Vec Ideal S128x128 .f32) (x2 : Vec Ideal S1x128 .f32) (x3 : Vec Ideal S128x16 .f32) (j : S2000x16.Idx) :
    k0_pay2 x0 x1 x2 x3 j = ∑ d : Fin 128, k0_pay1 x0 x1 x2 (ix2 (j 0) d) * x3 (ix2 d (j 1)) := by
  unfold k0_pay2
  rw [shapeCast_self, matmul_sc_apply]

theorem hz2 : (![0, 0] : Fin 2 → Nat) = fun _ => 0 := funext fun a => by fin_cases a <;> rfl

theorem lin_block {n : ℕ} (A : (⟨2, ![n, 128]⟩ : Shape).Idx → EReal) (W : S128x128.Idx → EReal) (B : S1x128.Idx → EReal)
    (x0 : Vec Ideal S2000x128 .f32) (x1 : Vec Ideal S128x128 .f32) (x2 : Vec Ideal S1x128 .f32)
    (j : S2000x128.Idx) (i : (⟨2, ![n, 128]⟩ : Shape).Idx)
    (h0 : ∀ k : Fin 128, x0 (ix2 (j 0) k) = A (ix2 (i 0) k)) (h1 : x1 = W) (h2 : x2 = B) (hj : j 1 = i 1) :
    k0_pay1 x0 x1 x2 j = Cert.Bridge.linIdx A W B i := by
  rw [pay0_lin_apply]
  unfold Cert.Bridge.linIdx
  subst h1 h2
  simp only [h0, hj]

theorem sc_block {n : ℕ} (A : (⟨2, ![n, 128]⟩ : Shape).Idx → EReal) (W : S128x128.Idx → EReal) (B : S1x128.Idx → EReal) (P : S128x16.Idx → EReal)
    (x0 : Vec Ideal S2000x128 .f32) (x1 : Vec Ideal S128x128 .f32) (x2 : Vec Ideal S1x128 .f32) (x3 : Vec Ideal S128x16 .f32)
    (j : S2000x16.Idx) (i : (⟨2, ![n, 16]⟩ : Shape).Idx)
    (h0 : ∀ k : Fin 128, x0 (ix2 (j 0) k) = A (ix2 (i 0) k)) (h1 : x1 = W) (h2 : x2 = B) (h3 : x3 = P) (hj : j 1 = i 1) :
    k0_pay2 x0 x1 x2 x3 j = Cert.Bridge.scIdx (Cert.Bridge.linIdx A W B) P i := by
  rw [pay0_sc_apply]
  unfold Cert.Bridge.scIdx
  subst h3
  refine Finset.sum_congr rfl fun d _ => ?_
  rw [lin_block A W B x0 x1 x2 (ix2 (j 0) d) (ix2 (i 0) d) h0 h1 h2 rfl, hj]

section Region0
variable (V : (c : Dev nD) → (b : Ref sig .tc) → Buf (Elt Ideal) ((c : Thread nD τ).loc b))

theorem idx_facts0 : ∀ t : Fin cfg0.N,
    win0_0.index t (0 : Fin 2) = win0_4.index t (0 : Fin 2) ∧ win0_0.index t (1 : Fin 2) = 0
    ∧ (∀ a : Fin 2, win0_1.index t a = 0) ∧ (∀ a : Fin 2, win0_2.index t a = 0) ∧ (∀ a : Fin 2, win0_3.index t a = 0)
    ∧ win0_4.index t (1 : Fin 2) = 0
    ∧ win0_5.index t (0 : Fin 2) = win0_4.index t (0 : Fin 2) ∧ win0_5.index t (1 : Fin 2) = 0
    ∧ win0_4.index t (0 : Fin 2) ≤ 49 :=
  (by decide +kernel : ∀ t : Fin grid0.N, _)

theorem idx_onto0 : ∀ q : Fin 50, ∃ t : Fin cfg0.N, win0_4.index t (0 : Fin 2) = q.val :=
  (by decide +kernel : ∀ q : Fin 50, ∃ t : Fin grid0.N, win0_4.index t (0 : Fin 2) = q.val)

abbrev lin0 (c : Dev nD) : S100000x128.Idx → EReal :=
  Cert.Bridge.linIdx (n := 100000) (V c main_arg0 : S100000x128.Idx → EReal) (V c main_v162 : S128x128.Idx → EReal) (V c main_v163 : S1x128.Idx → EReal)

abbrev sc0 (c : Dev nD) : S100000x16.Idx → EReal :=
  Cert.Bridge.scIdx (n := 100000) (lin0 V c) (V c main_v144 : S128x16.Idx → EReal)

theorem flushed0_4_eq (c : Dev nD) (t : Fin cfg0.N) :
    (dat0 (F := Ideal) V c).flushed 4 t = ((cfg0.win 4).blk t).view.read (Elt Ideal) (lin0 V c) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x128) hz2, View.ld_unit_zero (S := S1x128) hz2]
  obtain ⟨e00, e01, e1, e2, e3, e41, e50, e51, e4⟩ := idx_facts0 t
  funext j
  refine lin_block (V c main_arg0) (V c main_v162) (V c main_v163) _ _ _ j (((cfg0.win 4).blk t).view.emb j) (fun k => ?_) ?_ ?_ ?_
  · show V c main_arg0 (((cfg0.win 0).blk t).view.emb (ix2 (j 0) k)) = _
    refine congrArg (V c main_arg0) (funext fun a => Fin.ext (by
      match a with
      | ⟨0, _⟩ => show win0_0.index t (0 : Fin 2) * 2000 + 1 * (j 0).val = win0_4.index t (0 : Fin 2) * 2000 + 1 * (j 0).val; omega
      | ⟨1, _⟩ => show win0_0.index t (1 : Fin 2) * 128 + 1 * k.val = k.val; omega))
  · exact funext fun y => congrArg (V c main_v162) (funext fun a => Fin.ext (win0_1.rect_emb_val_of_index_zero t a (e1 a) y))
  · exact funext fun y => congrArg (V c main_v163) (funext fun a => Fin.ext (win0_2.rect_emb_val_of_index_zero t a (e2 a) y))
  · apply Fin.ext
    show (j 1).val = win0_4.index t (1 : Fin 2) * 128 + 1 * (j 1).val
    omega

theorem covered0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto0 ⟨(i 0).val / 2000, by omega⟩
  have q0 : win0_4.index t (0 : Fin 2) = (i 0).val / 2000 := ht
  obtain ⟨e00, e01, e1, e2, e3, e41, e50, e51, e4⟩ := idx_facts0 t
  refine ⟨t, flush0_4 t, ?_⟩
  show i ∈ ((View.whole main_v164_0).slice (win0_4.rect t)).set
  rw [View.set_slice_whole, Rect.mem_set_unit]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

theorem arr0_4 (c : Dev nD) : (dat0 (F := Ideal) V c).arrAt 4 cfg0.N = lin0 V c :=
  (dat0 V c).arrAt_eq_of_cover 4 (lin0 V c) (fun t _ => flushed0_4_eq V c t) (covered0_4)

theorem flushed0_5_eq (c : Dev nD) (t : Fin cfg0.N) :
    (dat0 (F := Ideal) V c).flushed 5 t = ((cfg0.win 5).blk t).view.read (Elt Ideal) (sc0 V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S1x128) hz2, View.ld_unit_zero (S := S128x16) hz2]
  obtain ⟨e00, e01, e1, e2, e3, e41, e50, e51, e4⟩ := idx_facts0 t
  funext j
  refine sc_block (V c main_arg0) (V c main_v162) (V c main_v163) (V c main_v144) _ _ _ _ j (((cfg0.win 5).blk t).view.emb j) (fun k => ?_) ?_ ?_ ?_ ?_
  · show V c main_arg0 (((cfg0.win 0).blk t).view.emb (ix2 (j 0) k)) = _
    refine congrArg (V c main_arg0) (funext fun a => Fin.ext (by
      match a with
      | ⟨0, _⟩ => show win0_0.index t (0 : Fin 2) * 2000 + 1 * (j 0).val = win0_5.index t (0 : Fin 2) * 2000 + 1 * (j 0).val; omega
      | ⟨1, _⟩ => show win0_0.index t (1 : Fin 2) * 128 + 1 * k.val = k.val; omega))
  · exact funext fun y => congrArg (V c main_v162) (funext fun a => Fin.ext (win0_1.rect_emb_val_of_index_zero t a (e1 a) y))
  · exact funext fun y => congrArg (V c main_v163) (funext fun a => Fin.ext (win0_2.rect_emb_val_of_index_zero t a (e2 a) y))
  · exact funext fun y => congrArg (V c main_v144) (funext fun a => Fin.ext (win0_3.rect_emb_val_of_index_zero t a (e3 a) y))
  · apply Fin.ext
    show (j 1).val = win0_5.index t (1 : Fin 2) * 16 + 1 * (j 1).val
    omega

theorem covered0_5 (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  obtain ⟨t, ht⟩ := idx_onto0 ⟨(i 0).val / 2000, by omega⟩
  have q0 : win0_4.index t (0 : Fin 2) = (i 0).val / 2000 := ht
  obtain ⟨e00, e01, e1, e2, e3, e41, e50, e51, e4⟩ := idx_facts0 t
  refine ⟨t, flush0_5 t, ?_⟩
  show i ∈ ((View.whole main_v164_1).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 16 ≤ (i 1).val ∧ (i 1).val < win0_5.index t (1 : Fin 2) * 16 + 16; omega

theorem arr0_5 (c : Dev nD) : (dat0 (F := Ideal) V c).arrAt 5 cfg0.N = sc0 V c :=
  (dat0 V c).arrAt_eq_of_cover 5 (sc0 V c) (fun t _ => flushed0_5_eq V c t) (covered0_5)

end Region0

section Region1
variable (V : (c : Dev nD) → (b : Ref sig .tc) → Buf (Elt Ideal) ((c : Thread nD τ).loc b))

theorem idx_facts1 : ∀ t : Fin cfg1.N,
    win1_0.index t (0 : Fin 2) = win1_4.index t (0 : Fin 2) ∧ win1_0.index t (1 : Fin 2) = 0
    ∧ (∀ a : Fin 2, win1_1.index t a = 0) ∧ (∀ a : Fin 2, win1_2.index t a = 0) ∧ (∀ a : Fin 2, win1_3.index t a = 0)
    ∧ win1_4.index t (1 : Fin 2) = 0
    ∧ win1_5.index t (0 : Fin 2) = win1_4.index t (0 : Fin 2) ∧ win1_5.index t (1 : Fin 2) = 0
    ∧ win1_4.index t (0 : Fin 2) ≤ 4 :=
  (by decide +kernel : ∀ t : Fin grid1.N, _)

theorem idx_onto1 : ∀ q : Fin 5, ∃ t : Fin cfg1.N, win1_4.index t (0 : Fin 2) = q.val :=
  (by decide +kernel : ∀ q : Fin 5, ∃ t : Fin grid1.N, win1_4.index t (0 : Fin 2) = q.val)

abbrev lin1 (c : Dev nD) : S10000x128.Idx → EReal :=
  Cert.Bridge.linIdx (n := 10000) (V c main_arg1 : S10000x128.Idx → EReal) (V c main_v165 : S128x128.Idx → EReal) (V c main_v166 : S1x128.Idx → EReal)

abbrev sc1 (c : Dev nD) : S10000x16.Idx → EReal :=
  Cert.Bridge.scIdx (n := 10000) (lin1 V c) (V c main_v161 : S128x16.Idx → EReal)

theorem flushed1_4_eq (c : Dev nD) (t : Fin cfg1.N) :
    (dat1 (F := Ideal) V c).flushed 4 t = ((cfg1.win 4).blk t).view.read (Elt Ideal) (lin1 V c) := by
  show (cfg1.win 4).cut (grid1.coords t) ((dat1 V c).after 4 t) = _
  rw [after1_4]
  unfold out1_4
  rw [View.canon_unit_zero hz2]
  simp only [View.ld_unit_zero (S := S2000x128) hz2, View.ld_unit_zero (S := S128x128) hz2, View.ld_unit_zero (S := S1x128) hz2]
  obtain ⟨e00, e01, e1, e2, e3, e41, e50, e51, e4⟩ := idx_facts1 t
  funext j
  refine lin_block (V c main_arg1) (V c main_v165) (V c main_v166) _ _ _ j (((cfg1.win 4).blk t).view.emb j) (fun k => ?_) ?_ ?_ ?_
  · show V c main_arg1 (((cfg1.win 0).blk t).view.emb (ix2 (j 0) k)) = _
    refine congrArg (V c main_arg1) (funext fun a => Fin.ext (by
      match a with
      | ⟨0, _⟩ => show win1_0.index t (0 : Fin 2) * 2000 + 1 * (j 0).val = win1_4.index t (0 : Fin 2) * 2000 + 1 * (j 0).val; omega
      | ⟨1, _⟩ => show win1_0.index t (1 : Fin 2) * 128 + 1 * k.val = k.val; omega))
  · exact funext fun y => congrArg (V c main_v165) (funext fun a => Fin.ext (win1_1.rect_emb_val_of_index_zero t a (e1 a) y))
  · exact funext fun y => congrArg (V c main_v166) (funext fun a => Fin.ext (win1_2.rect_emb_val_of_index_zero t a (e2 a) y))
  · apply Fin.ext
    show (j 1).val = win1_4.index t (1 : Fin 2) * 128 + 1 * (j 1).val
    omega

theorem covered1_4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ := idx_onto1 ⟨(i 0).val / 2000, by omega⟩
  have q0 : win1_4.index t (0 : Fin 2) = (i 0).val / 2000 := ht
  obtain ⟨e00, e01, e1, e2, e3, e41, e50, e51, e4⟩ := idx_facts1 t
  refine ⟨t, flush1_4 t, ?_⟩
  show i ∈ ((View.whole main_v167_0).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

theorem arr1_4 (c : Dev nD) : (dat1 (F := Ideal) V c).arrAt 4 cfg1.N = lin1 V c :=
  (dat1 V c).arrAt_eq_of_cover 4 (lin1 V c) (fun t _ => flushed1_4_eq V c t) (covered1_4)

theorem flushed1_5_eq (c : Dev nD) (t : Fin cfg1.N) :
    (dat1 (F := Ideal) V c).flushed 5 t = ((cfg1.win 5).blk t).view.read (Elt Ideal) (sc1 V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S1x128) hz2, View.ld_unit_zero (S := S128x16) hz2]
  obtain ⟨e00, e01, e1, e2, e3, e41, e50, e51, e4⟩ := idx_facts1 t
  funext j
  refine sc_block (V c main_arg1) (V c main_v165) (V c main_v166) (V c main_v161) _ _ _ _ j (((cfg1.win 5).blk t).view.emb j) (fun k => ?_) ?_ ?_ ?_ ?_
  · show V c main_arg1 (((cfg1.win 0).blk t).view.emb (ix2 (j 0) k)) = _
    refine congrArg (V c main_arg1) (funext fun a => Fin.ext (by
      match a with
      | ⟨0, _⟩ => show win1_0.index t (0 : Fin 2) * 2000 + 1 * (j 0).val = win1_5.index t (0 : Fin 2) * 2000 + 1 * (j 0).val; omega
      | ⟨1, _⟩ => show win1_0.index t (1 : Fin 2) * 128 + 1 * k.val = k.val; omega))
  · exact funext fun y => congrArg (V c main_v165) (funext fun a => Fin.ext (win1_1.rect_emb_val_of_index_zero t a (e1 a) y))
  · exact funext fun y => congrArg (V c main_v166) (funext fun a => Fin.ext (win1_2.rect_emb_val_of_index_zero t a (e2 a) y))
  · exact funext fun y => congrArg (V c main_v161) (funext fun a => Fin.ext (win1_3.rect_emb_val_of_index_zero t a (e3 a) y))
  · apply Fin.ext
    show (j 1).val = win1_5.index t (1 : Fin 2) * 16 + 1 * (j 1).val
    omega

theorem covered1_5 (i : S10000x16.Idx) : ∃ t : Fin cfg1.N, (cfg1.win 5).flush t = true ∧ i ∈ ((cfg1.win 5).blk t).view.set := by
  have hi0 : (i 0).val < 10000 := (i 0).isLt
  have hi1 : (i 1).val < 16 := (i 1).isLt
  obtain ⟨t, ht⟩ := idx_onto1 ⟨(i 0).val / 2000, by omega⟩
  have q0 : win1_4.index t (0 : Fin 2) = (i 0).val / 2000 := ht
  obtain ⟨e00, e01, e1, e2, e3, e41, e50, e51, e4⟩ := idx_facts1 t
  refine ⟨t, flush1_5 t, ?_⟩
  show i ∈ ((View.whole main_v167_1).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 16 ≤ (i 1).val ∧ (i 1).val < win1_5.index t (1 : Fin 2) * 16 + 16; omega

theorem arr1_5 (c : Dev nD) : (dat1 (F := Ideal) V c).arrAt 5 cfg1.N = sc1 V c :=
  (dat1 V c).arrAt_eq_of_cover 5 (sc1 V c) (fun t _ => flushed1_5_eq V c t) (covered1_5)

end Region1

end Cert.KernelIdeal.Hand

end
-- ==== Proof.KI.Val23.lean ====
import proofs.«133871_g61280593379539_cont_9to1c4b_765_12_alg».proof.Proof.KI.Body2
import proofs.«133871_g61280593379539_cont_9to1c4b_765_12_alg».proof.Proof.KI.Body3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

noncomputable def epiRow (z s b : Fin 128 → EReal) (k : Fin 128) : EReal :=
  let mu : EReal := Ideal.div (∑ l, z l) (Ideal.ofBits .f32 0x43000000#32)
  let var : EReal := Ideal.div (∑ l, (z l - mu) * (z l - mu)) (Ideal.ofBits .f32 0x43000000#32)
  let y : EReal := (z k - mu) * Ideal.rsqrt (var + Ideal.ofBits .f32 0x3727C5AC#32) * s k + b k
  Scalar.select (Ideal.cmp .ogt y (Ideal.ofBits .f32 0x00000000#32)) y
    (Ideal.exp (min y (Ideal.ofBits .f32 0x00000000#32)) - Ideal.ofBits .f32 0x3F800000#32)

noncomputable def epiIdx {n : Nat} (x lin : (⟨2, ![n, 128]⟩ : Shape).Idx → EReal) (s b : (⟨2, ![1, 128]⟩ : Shape).Idx → EReal) :
    (⟨2, ![n, 128]⟩ : Shape).Idx → EReal := fun i =>
  epiRow (fun l => x (ix2 (i 0) l) + lin (ix2 (i 0) l)) (fun l => s (ix2 0 l)) (fun l => b (ix2 0 l)) (i 1)

theorem lift_row {n : Nat} (h : (⟨2, ![n, 128]⟩ : Shape).Reduces [1] ⟨1, ![n]⟩) (j : (⟨1, ![n]⟩ : Shape).Idx)
    (k : Fin ((⟨2, ![n, 128]⟩ : Shape).size 1)) : h.lift j k = ix2 (j 0) k := by
  funext c; apply Fin.ext
  show h.liftVal j k.val c = _
  unfold Shape.Reduces.liftVal
  match c with
  | ⟨0, _⟩ => simp
  | ⟨1, _⟩ => simp

theorem rowSum_apply (v : FVec Ideal S2000x128 .f32) (r : Fin 2000) :
    shapeCast S2000x1 (multiReduction .add [1] S2000 v 0x00000000#32 reduces_S2000x128_S2000 (.inl rfl) rfl) shapeCasts_S2000_S2000x1 (ix2 r (0 : Fin 1))
      = ∑ l : Fin 128, v (ix2 r l) := by
  rw [shapeCast_apply _ _ (ix2 r (0 : Fin 1)) (ix1 r) (by
    rw [Shape.rowMajor_val_one, Shape.rowMajor_val_two]
    show r.val = r.val * 1 + 0
    omega)]
  refine (Ideal.multiReduction_add_single (a := 1) v _ reduces_S2000x128_S2000 (.inl rfl) rfl (ix1 r)).trans ?_
  exact Finset.sum_congr rfl fun k _ => congrArg v (lift_row _ _ k)

theorem bcCol_apply (v : FVec Ideal S2000x1 .f32) (r : Fin 2000) (k : Fin 128) :
    broadcastTo S2000x128 v broadcasts_S2000x1_S2000x128 (ix2 r k) = v (ix2 r (0 : Fin 1)) := by
  refine broadcastTo_apply v _ (ix2 r k) (ix2 r (0 : Fin 1)) fun ax => ?_
  match ax with
  | ⟨0, _⟩ => rfl
  | ⟨1, _⟩ => rfl

theorem rsqrt_apply' {s : Shape} (v : FVec Ideal s .f32) (i : s.Idx) : rsqrt v i = Ideal.rsqrt (v i) := rfl
theorem exp_apply' {s : Shape} (v : FVec Ideal s .f32) (i : s.Idx) : exp v i = Ideal.exp (v i) := rfl

theorem pay2_apply (x0 x1 : Vec Ideal S2000x128 .f32) (x2 x3 : Vec Ideal S1x128 .f32) (r : Fin 2000) (k : Fin 128) :
    k2_pay1 (F := Ideal) x0 x1 x2 x3 (ix2 r k) = epiIdx (n := 2000) x0 x1 x2 x3 (ix2 r k) := by
  unfold k2_pay1 epiIdx epiRow
  simp only [shapeCast_self]
  simp only [select_apply, cmpf_apply, subf_apply, addf_apply, mulf_apply, divf_apply, minimumf_apply, broadcast_apply,
    broadcastTo_1b_ab_apply, bcCol_apply, rsqrt_apply', exp_apply']
  rw [rowSum_apply (addf x0 x1) r, rowSum_apply _ r]
  simp only [subf_apply, addf_apply, mulf_apply, divf_apply, broadcast_apply, bcCol_apply]
  rw [rowSum_apply (addf x0 x1) r]
  simp only [addf_apply]
  rfl

theorem pay2_eq (x0 x1 : Vec Ideal S2000x128 .f32) (x2 x3 : Vec Ideal S1x128 .f32) :
    k2_pay1 (F := Ideal) x0 x1 x2 x3 = epiIdx (n := 2000) x0 x1 x2 x3 :=
  funext fun y => by rw [eq_ix2 y]; exact pay2_apply x0 x1 x2 x3 (y 0) (y 1)

theorem epiIdx_block {n : Nat} (X L : (⟨2, ![n, 128]⟩ : Shape).Idx → EReal) (S B : (⟨2, ![1, 128]⟩ : Shape).Idx → EReal)
    (x0 x1 : Vec Ideal S2000x128 .f32) (x2 x3 : Vec Ideal S1x128 .f32) (j : S2000x128.Idx) (i : (⟨2, ![n, 128]⟩ : Shape).Idx)
    (h0 : ∀ l : Fin 128, x0 (ix2 (j 0) l) = X (ix2 (i 0) l)) (h1 : ∀ l : Fin 128, x1 (ix2 (j 0) l) = L (ix2 (i 0) l))
    (h2 : ∀ l : Fin 128, x2 (ix2 0 l) = S (ix2 0 l)) (h3 : ∀ l : Fin 128, x3 (ix2 0 l) = B (ix2 0 l))
    (hc : (j 1).val = (i 1).val) :
    epiIdx (n := 2000) x0 x1 x2 x3 j = epiIdx X L S B i := by
  unfold epiIdx
  have e : (j 1 : Fin 128) = (i 1 : Fin 128) := Fin.ext hc
  simp only [h0, h1, h2, h3]
  exact congrArg _ e

theorem hz : (![0, 0] : Fin 2 → Nat) = fun _ => 0 := funext fun a => by fin_cases a <;> rfl

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ (∀ a : Fin 2, win2_2.index t a = 0) ∧ (∀ a : Fin 2, win2_3.index t a = 0)
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

theorem flushed2_eq (c : Dev nD) (t : Fin cfg2.N) :
    (dat2 (F := Ideal) V c).flushed 4 t = ((cfg2.win 4).blk t).view.read (Elt Ideal)
      (epiIdx (V c main_v306) (V c main_v164_0) (V c main_v376) (V c main_v377)) := by
  show (cfg2.win 4).cut (grid2.coords t) ((dat2 V c).after 4 t) = _
  rw [after2_4]
  unfold out2_4
  rw [View.canon_unit_zero hz]
  simp only [View.ld_unit_zero (S := S2000x128) hz, View.ld_unit_zero (S := S1x128) hz]
  rw [pay2_eq]
  obtain ⟨e00, e01, e10, e11, e2, e3, e40, e41⟩ := idx_facts2 t
  funext j
  refine epiIdx_block (V c main_v306) (V c main_v164_0) (V c main_v376) (V c main_v377) _ _ _ _ j (((cfg2.win 4).blk t).view.emb j) (fun l => ?_) (fun l => ?_) (fun l => ?_) (fun l => ?_) ?_
  · show V c main_v306 (((cfg2.win 0).blk t).view.emb (ix2 (j 0) l)) = V c main_v306 (ix2 ((((cfg2.win 4).blk t).view.emb j) 0) l)
    refine congrArg _ (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * l.val = l.val; omega
  · show V c main_v164_0 (((cfg2.win 1).blk t).view.emb (ix2 (j 0) l)) = V c main_v164_0 (ix2 ((((cfg2.win 4).blk t).view.emb j) 0) l)
    refine congrArg _ (funext fun a => Fin.ext ?_)
    match a with
    | ⟨0, _⟩ => show win2_1.index t (0 : Fin 2) * 2000 + 1 * (j 0).val = win2_4.index t (0 : Fin 2) * 2000 + 1 * (j 0).val; omega
    | ⟨1, _⟩ => show win2_1.index t (1 : Fin 2) * 128 + 1 * l.val = l.val; omega
  · exact congrArg (V c main_v376) (funext fun a => Fin.ext (win2_2.rect_emb_val_of_index_zero t a (e2 a) (ix2 (0 : Fin 1) l)))
  · exact congrArg (V c main_v377) (funext fun a => Fin.ext (win2_3.rect_emb_val_of_index_zero t a (e3 a) (ix2 (0 : Fin 1) l)))
  · show (j 1).val = win2_4.index t (1 : Fin 2) * 128 + 1 * (j 1).val
    omega

theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ : ∃ t : Fin cfg2.N, t.val = (i 0).val / 2000 := ⟨⟨(i 0).val / 2000, by have h : cfg2.N = 50 := N_2; omega⟩, rfl⟩
  obtain ⟨-, -, -, -, -, -, e40, e41⟩ := idx_facts2 t
  refine ⟨t, flush2_4 t, ?_⟩
  show i ∈ ((View.whole main_v378).slice (win2_4.rect t)).set
  rw [View.set_slice_whole, Rect.mem_set_unit]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

theorem arr2_4 (c : Dev nD) : (dat2 (F := Ideal) V c).arrAt 4 cfg2.N
    = epiIdx (V c main_v306) (V c main_v164_0) (V c main_v376) (V c main_v377) :=
  (dat2 V c).arrAt_eq_of_cover 4 (epiIdx (V c main_v306) (V c main_v164_0) (V c main_v376) (V c main_v377))
    (fun t _ => flushed2_eq V c t) cover2

theorem pay3_eq (x0 x1 : Vec Ideal S2000x128 .f32) (x2 x3 : Vec Ideal S1x128 .f32) :
    k3_pay1 (F := Ideal) x0 x1 x2 x3 = epiIdx (n := 2000) x0 x1 x2 x3 :=
  pay2_eq x0 x1 x2 x3

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ (∀ a : Fin 2, win3_2.index t a = 0) ∧ (∀ a : Fin 2, win3_3.index t a = 0)
    ∧ win3_4.index t (0 : Fin 2) = t.val ∧ win3_4.index t (1 : Fin 2) = 0 :=
  (by decide +kernel : ∀ t : Fin grid3.N, _)

theorem flushed3_eq (c : Dev nD) (t : Fin cfg3.N) :
    (dat3 (F := Ideal) V c).flushed 4 t = ((cfg3.win 4).blk t).view.read (Elt Ideal)
      (epiIdx (V c main_v375) (V c main_v167_0) (V c main_v379) (V c main_v380)) := by
  show (cfg3.win 4).cut (grid3.coords t) ((dat3 V c).after 4 t) = _
  rw [after3_4]
  unfold out3_4
  rw [View.canon_unit_zero hz]
  simp only [View.ld_unit_zero (S := S2000x128) hz, View.ld_unit_zero (S := S1x128) hz]
  rw [pay3_eq]
  obtain ⟨e00, e01, e10, e11, e2, e3, e40, e41⟩ := idx_facts3 t
  funext j
  refine epiIdx_block (V c main_v375) (V c main_v167_0) (V c main_v379) (V c main_v380) _ _ _ _ j (((cfg3.win 4).blk t).view.emb j) (fun l => ?_) (fun l => ?_) (fun l => ?_) (fun l => ?_) ?_
  · show V c main_v375 (((cfg3.win 0).blk t).view.emb (ix2 (j 0) l)) = V c main_v375 (ix2 ((((cfg3.win 4).blk t).view.emb j) 0) l)
    refine congrArg _ (funext fun a => Fin.ext ?_)
    match a with
    | ⟨0, _⟩ => show win3_0.index t (0 : Fin 2) * 2000 + 1 * (j 0).val = win3_4.index t (0 : Fin 2) * 2000 + 1 * (j 0).val; omega
    | ⟨1, _⟩ => show win3_0.index t (1 : Fin 2) * 128 + 1 * l.val = l.val; omega
  · show V c main_v167_0 (((cfg3.win 1).blk t).view.emb (ix2 (j 0) l)) = V c main_v167_0 (ix2 ((((cfg3.win 4).blk t).view.emb j) 0) l)
    refine congrArg _ (funext fun a => Fin.ext ?_)
    match a with
    | ⟨0, _⟩ => show win3_1.index t (0 : Fin 2) * 2000 + 1 * (j 0).val = win3_4.index t (0 : Fin 2) * 2000 + 1 * (j 0).val; omega
    | ⟨1, _⟩ => show win3_1.index t (1 : Fin 2) * 128 + 1 * l.val = l.val; omega
  · exact congrArg (V c main_v379) (funext fun a => Fin.ext (win3_2.rect_emb_val_of_index_zero t a (e2 a) (ix2 (0 : Fin 1) l)))
  · exact congrArg (V c main_v380) (funext fun a => Fin.ext (win3_3.rect_emb_val_of_index_zero t a (e3 a) (ix2 (0 : Fin 1) l)))
  · show (j 1).val = win3_4.index t (1 : Fin 2) * 128 + 1 * (j 1).val
    omega

theorem cover3 (i : S10000x128.Idx) : ∃ t : Fin cfg3.N, (cfg3.win 4).flush t = true ∧ i ∈ ((cfg3.win 4).blk t).view.set := by
  have hi0 : (i 0).val < 10000 := (i 0).isLt
  have hi1 : (i 1).val < 128 := (i 1).isLt
  obtain ⟨t, ht⟩ : ∃ t : Fin cfg3.N, t.val = (i 0).val / 2000 := ⟨⟨(i 0).val / 2000, by have h : cfg3.N = 5 := N_3; omega⟩, rfl⟩
  obtain ⟨-, -, -, -, -, -, e40, e41⟩ := idx_facts3 t
  refine ⟨t, flush3_4 t, ?_⟩
  show i ∈ ((View.whole main_v381).slice (win3_4.rect t)).set
  rw [View.set_slice_whole, Rect.mem_set_unit]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

theorem arr3_4 (c : Dev nD) : (dat3 (F := Ideal) V c).arrAt 4 cfg3.N
    = epiIdx (V c main_v375) (V c main_v167_0) (V c main_v379) (V c main_v380) :=
  (dat3 V c).arrAt_eq_of_cover 4 (epiIdx (V c main_v375) (V c main_v167_0) (V c main_v379) (V c main_v380))
    (fun t _ => flushed3_eq V c t) cover3

end Cert.KernelIdeal.Hand

end
-- ==== Proof.KI.ValHost.lean ====
import proofs.«133871_g61280593379539_cont_9to1c4b_765_12_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

abbrev WritesEach {Val : EltTy → Type} (ops : List (HloOp τ sig Val)) (rs : List (Ref sig .tc)) : Prop :=
  List.Forall₂ (fun op r => op.writes = {Proc.devRef .tc r}) ops rs

theorem after_keep {Val : EltTy → Type} {ops : List (HloOp τ sig Val)} {rs : List (Ref sig .tc)} (h : WritesEach ops rs)
    (V : Valuation τ sig Val) {r : Ref sig .tc} (hr : r ∉ rs) :
    StableHlo.after ops V (Proc.devRef .tc r) = V (Proc.devRef .tc r) := by
  induction h generalizing V with
  | nil => rfl
  | @cons op r' ops rs hw _ ih =>
    rw [StableHlo.after_cons, ih _ (fun h' => hr (List.mem_cons_of_mem _ h'))]
    exact op.result_of_not_mem V (by
      rw [hw, Finset.mem_singleton]
      exact StableHlo.devRef_ne_of_ne (fun e => hr (e ▸ List.mem_cons_self)))

abbrev writes0 : List (Ref sig .tc) :=
  [main_cst, main_v0, main_v1, main_v2, main_c, main_v3, main_v4, main_cst_0, main_v5, main_v6,
   main_v7, main_c_1, main_v8, main_v9, main_cst_2, main_v10, main_v11, main_v12, main_c_3, main_v13,
   main_v14, main_cst_4, main_v15, main_v16, main_v17, main_c_5, main_v18, main_v19, main_cst_6, main_v20,
   main_v21, main_v22, main_c_7, main_v23, main_v24, main_cst_8, main_v25, main_v26, main_v27, main_c_9,
   main_v28, main_v29, main_cst_10, main_v30, main_v31, main_v32, main_c_11, main_v33, main_v34, main_cst_12,
   main_v35, main_v36, main_v37, main_c_13, main_v38, main_v39, main_cst_14, main_v40, main_v41, main_v42,
   main_c_15, main_v43, main_v44, main_cst_16, main_v45, main_v46, main_v47, main_c_17, main_v48, main_v49,
   main_cst_18, main_v50, main_v51, main_v52, main_c_19, main_v53, main_v54, main_cst_20, main_v55, main_v56,
   main_v57, main_c_21, main_v58, main_v59, main_cst_22, main_v60, main_v61, main_v62, main_c_23, main_v63,
   main_v64, main_cst_24, main_v65, main_v66, main_v67, main_c_25, main_v68, main_v69, main_cst_26, main_v70,
   main_v71, main_v72, main_c_27, main_v73, main_v74, main_cst_28, main_v75, main_v76, main_v77, main_c_29,
   main_v78, main_v79, main_cst_30, main_v80, main_v81, main_v82, main_c_31, main_v83, main_v84, main_cst_32,
   main_v85, main_v86, main_v87, main_c_33, main_v88, main_v89, main_cst_34, main_v90, main_v91, main_v92,
   main_c_35, main_v93, main_v94, main_cst_36, main_v95, main_v96, main_v97, main_c_37, main_v98, main_v99,
   main_cst_38, main_v100, main_v101, main_v102, main_c_39, main_v103, main_v104, main_cst_40, main_v105, main_v106,
   main_v107, main_c_41, main_v108, main_v109, main_cst_42, main_v110, main_v111, main_v112, main_c_43, main_v113,
   main_v114, main_cst_44, main_v115, main_v116, main_v117, main_c_45, main_v118, main_v119, main_cst_46, main_v120,
   main_cst_47, main_v121, main_cst_48, main_v122, main_cst_49, main_v123, main_cst_50, main_v124, main_cst_51, main_v125,
   main_cst_52, main_v126, main_cst_53, main_v127, main_v128, main_v129, main_v130, main_v131, main_v132, main_v133,
   main_v134, main_v135, main_v136, main_v137, main_v138, main_v139, main_v140, main_v141, main_v142, main_v143,
   main_v144, main_v145, main_v146, main_v147, main_v148, main_v149, main_v150, main_v151, main_v152, main_v153,
   main_v154, main_v155, main_v156, main_v157, main_v158, main_v159, main_v160, main_v161, main_v162, main_v163]

theorem hostOps0_writes : WritesEach (hostOps0 : List (HloOp τ sig (Elt F))) writes0 := by
  repeat (first | exact List.Forall₂.nil | refine List.Forall₂.cons rfl ?_)

theorem hostOps1_writes : WritesEach (hostOps1 : List (HloOp τ sig (Elt F))) [main_v165, main_v166] :=
  .cons rfl (.cons rfl .nil)

theorem h1_keep (W : Valuation τ sig (Elt F)) (r : Ref sig .tc) (hr : r ∉ [main_v165, main_v166]) :
    StableHlo.after hostOps1 W (Proc.devRef .tc r) = W (Proc.devRef .tc r) :=
  after_keep hostOps1_writes W hr

theorem hostOps3_writes : WritesEach (hostOps3 : List (HloOp τ sig (Elt F))) [main_v379, main_v380] :=
  .cons rfl (.cons rfl .nil)

theorem h3_keep (W : Valuation τ sig (Elt F)) (r : Ref sig .tc) (hr : r ∉ [main_v379, main_v380]) :
    StableHlo.after hostOps3 W (Proc.devRef .tc r) = W (Proc.devRef .tc r) :=
  after_keep hostOps3_writes W hr

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

theorem after_split {Val : EltTy → Type} (ops : List (HloOp τ sig Val)) (n : Nat) (V : Valuation τ sig Val) :
    StableHlo.after ops V = StableHlo.after (ops.drop n) (StableHlo.after (ops.take n) V) := by
  rw [← after_append, List.take_append_drop]

theorem hostOps0_last2 : (hostOps0 : List (HloOp τ sig (Elt F))).drop 218
    = [ StableHlo.unary main_arg11 main_v162 ((transpose S128x128 [1, 0] · transposes_S128x128_S128x128_1_0) : (⟨S128x128, .f32⟩ : BufTy).Contents (Elt F) → (⟨S128x128, .f32⟩ : BufTy).Contents (Elt F)),
        StableHlo.unary main_arg12 main_v163 (broadcastInDim S1x128 ![1] bcast_S128_S1x128_1 : (⟨S128, .f32⟩ : BufTy).Contents (Elt F) → (⟨S1x128, .f32⟩ : BufTy).Contents (Elt F)) ] :=
  rfl

theorem h0_v162 (W : Valuation τ sig (Elt F)) :
    StableHlo.after hostOps0 W (Proc.devRef .tc main_v162)
      = transpose S128x128 [1, 0] (W (Proc.devRef .tc main_arg11)) transposes_S128x128_S128x128_1_0 := by
  rw [after_split hostOps0 218, hostOps0_last2]
  after_results
  rw [after_keep (List.forall₂_take 218 hostOps0_writes) W (by decide)]

theorem h0_v163 (W : Valuation τ sig (Elt F)) :
    StableHlo.after hostOps0 W (Proc.devRef .tc main_v163)
      = broadcastInDim S1x128 ![1] bcast_S128_S1x128_1 (W (Proc.devRef .tc main_arg12)) := by
  rw [after_split hostOps0 218, hostOps0_last2]
  after_results
  rw [after_keep (List.forall₂_take 218 hostOps0_writes) W (by decide)]

theorem h1_v165 (W : Valuation τ sig (Elt F)) :
    StableHlo.after hostOps1 W (Proc.devRef .tc main_v165)
      = transpose S128x128 [1, 0] (W (Proc.devRef .tc main_arg13)) transposes_S128x128_S128x128_1_0 := by
  after_results

theorem h1_v166 (W : Valuation τ sig (Elt F)) :
    StableHlo.after hostOps1 W (Proc.devRef .tc main_v166)
      = broadcastInDim S1x128 ![1] bcast_S128_S1x128_1 (W (Proc.devRef .tc main_arg14)) := by
  after_results

theorem h3_v379 (W : Valuation τ sig (Elt F)) :
    StableHlo.after hostOps3 W (Proc.devRef .tc main_v379)
      = broadcastInDim S1x128 ![1] bcast_S128_S1x128_1 (W (Proc.devRef .tc main_arg20)) := by
  after_results

theorem h3_v380 (W : Valuation τ sig (Elt F)) :
    StableHlo.after hostOps3 W (Proc.devRef .tc main_v380)
      = broadcastInDim S1x128 ![1] bcast_S128_S1x128_1 (W (Proc.devRef .tc main_arg21)) := by
  after_results

end Cert.KernelIdeal.Hand

end
-- ==== Proof.KI.EdgeDefs.lean ====
import proofs.«133871_g61280593379539_cont_9to1c4b_765_12_alg».proof.KernelIdeal

noncomputable section

namespace Cert.KernelIdeal.Hand

open Idealize.ShloMosaic Cert.KernelIdeal Cert.KernelIdeal.Facts₀ Cert.KernelIdeal.Facts

variable {F : FTy → Type} [FloatOps F] [Cert.KernelIdeal.Facts]

abbrev FT (F : FTy → Type) (S : Shape) : Type := (⟨S, .f32⟩ : BufTy).Contents (Elt F)

abbrev IT (F : FTy → Type) (S : Shape) : Type := (⟨S, .i32⟩ : BufTy).Contents (Elt F)

noncomputable def wrapIdxK (N : BitVec 32) (i : IT F S30000) : IT F S30000x1 :=
  broadcastInDim S30000x1 ![0] bcast_S30000_S30000x1_0
    (select (cmpi .slt i (broadcastInDim S30000 ![] bcast_S_S30000 (constantI S_ 32 0#32)))
      (addi i (broadcastInDim S30000 ![] bcast_S_S30000 (constantI S_ 32 N))) i)

noncomputable def tabIdx (col : BitVec 32) (i : IT F S30000x1) : IT F S30000x2 :=
  concatenate S30000x2 1 [⟨S30000x1, i⟩, ⟨S30000x1, broadcastInDim S30000x1 ![] bcast_S_S30000x1 (constantI S_ 32 col)⟩]
    concatenates_S30000x1_S30000x1_S30000x2_d1

noncomputable def attF (att : FT F S4x65) : FT F S4 :=
  shapeCast S4 (extractStridedSlice S4x1 ![0, 64] att slices_S4x65_S4x1_0_64) shapeCasts_S4x1_S4

noncomputable def scoresK (ss sd : FT F S30000x4) (feat : FT F S30000x1) (att : FT F S4x65) : FT F S30000x4 :=
  addf (addf ss sd)
    (mulf (broadcastInDim S30000x4 ![0, 1] bcast_S30000x1_S30000x4_0_1 feat)
      (broadcastInDim S30000x4 ![0, 1] bcast_S1x4_S30000x4_0_1 (broadcastInDim S1x4 ![1] bcast_S4_S1x4_1 (attF att))))

noncomputable def alphaK (s : FT F S30000x4) : FT F S30000x4 :=
  Host.exp
    (minimumf (broadcastInDim S30000x4 ![] bcast_S_S30000x4 (id (constant S_ .f32 0x41A00000#32)))
      (maximumf (broadcastInDim S30000x4 ![] bcast_S_S30000x4 (id (constant S_ .f32 0xC1A00000#32)))
        (select (cmpf .oge s (broadcastInDim S30000x4 ![] bcast_S_S30000x4 (constant S_ .f32 0x00000000#32))) s
          (mulf (broadcastInDim S30000x4 ![] bcast_S_S30000x4 (constant S_ .f32 0x3E4CCCCD#32)) s))))

noncomputable def edgeTail {Sd4 Sd128 : Shape}
    (sc4 : ScatterDims Sd4 S30000x1 S30000x4) (g4 : GatherDims Sd4 S30000x1 S30000x4)
    (sc128 : ScatterDims Sd128 S30000x1 S30000x128)
    (hb4 : S_.BroadcastsInDim Sd4 (![] : Fin 0 → Fin Sd4.rank)) (hb128 : S_.BroadcastsInDim Sd128 (![] : Fin 0 → Fin Sd128.rank))
    (hs : FT F S30000x128) (idst : IT F S30000x1) (a : FT F S30000x4) : FT F Sd128 :=
  let den : FT F Sd4 := Host.scatterAdd sc4 (broadcastInDim Sd4 ![] hb4 (constant S_ .f32 0x00000000#32)) idst a
  let w : FT F S30000x4 := Host.divf a
    (addf (Host.gather g4 den idst) (broadcastInDim S30000x4 ![] bcast_S_S30000x4 (constant S_ .f32 0x358637BD#32)))
  Host.scatterAdd sc128 (broadcastInDim Sd128 ![] hb128 (constant S_ .f32 0x00000000#32)) idst
    (mulf hs
      (shapeCast S30000x128 (broadcastInDim S30000x4x32 ![0, 1] bcast_S30000x4_S30000x4x32_0_1 w) shapeCasts_S30000x4x32_S30000x128))

noncomputable def edgePhase {Ss16 Sd16 Ss128 Sd4 Sd128 : Shape}
    (gS : GatherDims Ss16 S30000x2 S30000x4) (gD : GatherDims Sd16 S30000x2 S30000x4)
    (sc4 : ScatterDims Sd4 S30000x1 S30000x4) (g4 : GatherDims Sd4 S30000x1 S30000x4)
    (gL : GatherDims Ss128 S30000x1 S30000x128) (sc128 : ScatterDims Sd128 S30000x1 S30000x128)
    (hb4 : S_.BroadcastsInDim Sd4 (![] : Fin 0 → Fin Sd4.rank)) (hb128 : S_.BroadcastsInDim Sd128 (![] : Fin 0 → Fin Sd128.rank))
    (cs cd : BitVec 32)
    (scS : FT F Ss16) (scD : FT F Sd16) (linS : FT F Ss128) (isrc idst : IT F S30000x1) (feat : FT F S30000x1)
    (att : FT F S4x65) : FT F Sd128 :=
  edgeTail sc4 g4 sc128 hb4 hb128 (Host.gather gL linS isrc) idst
    (alphaK (scoresK (Host.gather gS scS (tabIdx cs isrc)) (Host.gather gD scD (tabIdx cd idst)) feat att))

structure ArgsK (F : FTy → Type) where
  hOp : FT F S100000x128
  hMac : FT F S10000x128
  seqSrc : IT F S30000
  seqDst : IT F S30000
  omSrc : IT F S30000
  omDst : IT F S30000
  moSrc : IT F S30000
  moDst : IT F S30000
  featSeq : FT F S30000x1
  featOm : FT F S30000x1
  featMo : FT F S30000x1
  wOp : FT F S128x128
  bOp : FT F S128
  wMac : FT F S128x128
  bMac : FT F S128
  attSeq : FT F S4x65
  attOm : FT F S4x65
  attMo : FT F S4x65
  lnOpS : FT F S128
  lnOpB : FT F S128
  lnMacS : FT F S128
  lnMacB : FT F S128

variable (A : ArgsK F) (linOp : FT F S100000x128) (scOp : FT F S100000x16) (linMac : FT F S10000x128) (scMac : FT F S10000x16)

noncomputable def edgeSeq : FT F S100000x128 :=
  edgePhase gather_S100000x16_S30000x2_S30000x4_1_0_n_n_01_1_14 gather_S100000x16_S30000x2_S30000x4_1_0_n_n_01_1_14
    scatter_S100000x4_S30000x1_S30000x4_1_0_0_1 gather_S100000x4_S30000x1_S30000x4_1_0_n_n_0_1_14
    gather_S100000x128_S30000x1_S30000x128_1_0_n_n_0_1_1128 scatter_S100000x128_S30000x1_S30000x128_1_0_0_1
    bcast_S_S100000x4 bcast_S_S100000x128 0#32 4#32
    scOp scOp linOp (wrapIdxK 100000#32 A.seqSrc) (wrapIdxK 100000#32 A.seqDst) A.featSeq A.attSeq

noncomputable def edgeMo : FT F S100000x128 :=
  edgePhase gather_S10000x16_S30000x2_S30000x4_1_0_n_n_01_1_14 gather_S100000x16_S30000x2_S30000x4_1_0_n_n_01_1_14
    scatter_S100000x4_S30000x1_S30000x4_1_0_0_1 gather_S100000x4_S30000x1_S30000x4_1_0_n_n_0_1_14
    gather_S10000x128_S30000x1_S30000x128_1_0_n_n_0_1_1128 scatter_S100000x128_S30000x1_S30000x128_1_0_0_1
    bcast_S_S100000x4 bcast_S_S100000x128 4#32 12#32
    scMac scOp linMac (wrapIdxK 10000#32 A.moSrc) (wrapIdxK 100000#32 A.moDst) A.featMo A.attMo

noncomputable def edgeOm : FT F S10000x128 :=
  edgePhase gather_S100000x16_S30000x2_S30000x4_1_0_n_n_01_1_14 gather_S10000x16_S30000x2_S30000x4_1_0_n_n_01_1_14
    scatter_S10000x4_S30000x1_S30000x4_1_0_0_1 gather_S10000x4_S30000x1_S30000x4_1_0_n_n_0_1_14
    gather_S100000x128_S30000x1_S30000x128_1_0_n_n_0_1_1128 scatter_S10000x128_S30000x1_S30000x128_1_0_0_1
    bcast_S_S10000x4 bcast_S_S10000x128 8#32 0#32
    scOp scMac linOp (wrapIdxK 100000#32 A.omSrc) (wrapIdxK 10000#32 A.omDst) A.featOm A.attOm

noncomputable def kOutOp : FT F S100000x128 := addf (edgeSeq A linOp scOp) (edgeMo A scOp linMac scMac)

noncomputable def kOutMac : FT F S10000x128 := edgeOm A linOp scOp scMac

end Cert.KernelIdeal.Hand

end
-- ==== Proof.KI.ValEdge.lean ====
import proofs.«133871_g61280593379539_cont_9to1c4b_765_12_alg».proof.Proof.Gen.KernelIdeal.Launch
import proofs.«133871_g61280593379539_cont_9to1c4b_765_12_alg».proof.Proof.KI.EdgeDefs

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The thirteen stretches of the edge phase, in program order. -/
noncomputable abbrev edgeOps : List (List (HloOp τ sig (Elt F))) :=
  [hostOps2, hostOps2_1, hostOps2_2, hostOps2_3, hostOps2_4, hostOps2_5, hostOps2_6, hostOps2_7, hostOps2_8, hostOps2_9, hostOps2_10, hostOps2_11, hostOps2_12]

/-- The buffers written, stretch by stretch. -/
noncomputable abbrev EWs : List (List (Ref sig .tc)) :=
  [[main_v168, main_v169, main_c_54, main_v170, main_v171, main_c_55, main_v172, main_v173, main_v174, main_v175, main_c_56, main_v176, main_v177, main_v178, main_c_57, main_v179, main_v180, main_c_58, main_v181, main_v182, main_v183, main_v184, main_c_59, main_v185, main_v186, main_v187, main_v188, main_v189, main_v190, main_v191, main_v192, main_v193, main_cst_60, main_v194, main_v195, main_cst_61, main_v196, main_v197],
   [main_v198],
   [main_cst_62, main_cst_63],
   [main_call1_v0, main_call1_v1, main_call1_v2, main_call1_v3, main_call1_v4, main_v199],
   [main_v200, main_cst_64, main_v201, main_c_65, main_v202, main_v203, main_c_66, main_v204, main_v205, main_v206, main_v207, main_v208, main_c_67, main_v209, main_v210, main_c_68, main_v211, main_v212, main_v213, main_v214, main_v215, main_cst_69, main_v216, main_v217, main_v218, main_c_70, main_v219, main_v220, main_c_71, main_v221, main_v222, main_v223, main_v224, main_v225, main_v226, main_v227, main_v228, main_cst_72, main_v229, main_c_73, main_v230, main_v231, main_c_74, main_v232, main_v233, main_v234, main_v235, main_v236, main_v237, main_v238, main_c_75, main_v239, main_v240, main_c_76, main_v241, main_v242, main_v243, main_v244, main_c_77, main_v245, main_v246, main_v247, main_c_78, main_v248, main_v249, main_c_79, main_v250, main_v251, main_v252, main_v253, main_c_80, main_v254, main_v255, main_v256, main_v257, main_v258, main_v259, main_v260, main_v261, main_v262, main_cst_81, main_v263, main_v264, main_cst_82, main_v265, main_v266],
   [main_v267],
   [main_cst_83, main_cst_84],
   [main_call3_v0, main_call3_v1, main_call3_v2, main_call3_v3, main_call3_v4, main_v268],
   [main_v269, main_cst_85, main_v270, main_c_86, main_v271, main_v272, main_c_87, main_v273, main_v274, main_v275, main_v276, main_v277, main_c_88, main_v278, main_v279, main_c_89, main_v280, main_v281, main_v282, main_v283, main_v284, main_cst_90, main_v285, main_v286, main_v287, main_c_91, main_v288, main_v289, main_c_92, main_v290, main_v291, main_v292, main_v293, main_v294, main_v295, main_v296, main_v297, main_cst_93, main_v298, main_c_94, main_v299, main_v300, main_c_95, main_v301, main_v302, main_v303, main_v304, main_v305, main_v306, main_v307, main_v308, main_c_96, main_v309, main_v310, main_c_97, main_v311, main_v312, main_v313, main_v314, main_c_98, main_v315, main_v316, main_v317, main_c_99, main_v318, main_v319, main_c_100, main_v320, main_v321, main_v322, main_v323, main_c_101, main_v324, main_v325, main_v326, main_v327, main_v328, main_v329, main_v330, main_v331, main_v332, main_cst_102, main_v333, main_v334, main_cst_103, main_v335, main_v336],
   [main_v337],
   [main_cst_104, main_cst_105],
   [main_call5_v0, main_call5_v1, main_call5_v2, main_call5_v3, main_call5_v4, main_v338],
   [main_v339, main_cst_106, main_v340, main_c_107, main_v341, main_v342, main_c_108, main_v343, main_v344, main_v345, main_v346, main_v347, main_c_109, main_v348, main_v349, main_c_110, main_v350, main_v351, main_v352, main_v353, main_v354, main_cst_111, main_v355, main_v356, main_v357, main_c_112, main_v358, main_v359, main_c_113, main_v360, main_v361, main_v362, main_v363, main_v364, main_v365, main_v366, main_v367, main_cst_114, main_v368, main_c_115, main_v369, main_v370, main_c_116, main_v371, main_v372, main_v373, main_v374, main_v375, main_v376, main_v377]]

noncomputable abbrev edgeW : List (Ref sig .tc) := EWs.flatten

/-- Each operation writes one buffer, and its stretch's list has it. -/
theorem ewrites : List.Forall₂ (fun ops W => ops.Forall fun op => op.writes ⊆ (W.map (Proc.devRef (τ := τ) .tc)).toFinset)
    (edgeOps (F := F)) EWs := by
  repeat' first | exact List.Forall₂.nil | apply List.Forall₂.cons | apply And.intro
  all_goals exact Finset.singleton_subset_iff.mpr (List.mem_toFinset.mpr (List.mem_map_of_mem (by decide)))

/-- The contents after stretches a, …, a + n - 1 run from V. -/
noncomputable abbrev runE (a n : ℕ) (V : Valuation τ sig (Elt F)) : Valuation τ sig (Elt F) :=
  ((edgeOps.drop a).take n).foldl (fun V ops => StableHlo.after ops V) V

/-- A buffer none of a run of stretches writes passes through the run. -/
theorem keepL {r : Ref sig .tc} : ∀ {L : List (List (HloOp τ sig (Elt F)))} {Ws : List (List (Ref sig .tc))},
    List.Forall₂ (fun ops W => ops.Forall fun op => op.writes ⊆ (W.map (Proc.devRef (τ := τ) .tc)).toFinset) L Ws →
    r ∉ Ws.flatten → ∀ V, L.foldl (fun V ops => StableHlo.after ops V) V (Proc.devRef .tc r) = V (Proc.devRef .tc r)
  | _, _, .nil, _, _ => rfl
  | _, _, .cons h hs, hr, V => by
    rw [List.flatten_cons, List.mem_append, not_or] at hr
    rw [List.foldl_cons, keepL hs hr.2, StableHlo.after_of_writes_sub _ V h hr.1]

theorem keepR (a n : ℕ) {r : Ref sig .tc} (h : r ∉ ((EWs.drop a).take n).flatten) (V : Valuation τ sig (Elt F)) :
    runE a n V (Proc.devRef .tc r) = V (Proc.devRef .tc r) :=
  keepL (List.forall₂_take n (List.forall₂_drop a ewrites)) h V

theorem out_v164_0 : main_v164_0 ∉ edgeW := by decide
theorem out_v167_0 : main_v167_0 ∉ edgeW := by decide

noncomputable def afterEdge (W : Valuation τ sig (Elt F)) : Valuation τ sig (Elt F) :=
  StableHlo.after hostOps2_12 (StableHlo.after hostOps2_11 (StableHlo.after hostOps2_10 (StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 W))))))))))))

theorem edge_keep (W : Valuation τ sig (Elt F)) (b : Ref sig .tc) (hb : b ∉ edgeW) : afterEdge W (Proc.devRef .tc b) = W (Proc.devRef .tc b) :=
  keepL ewrites hb W

/-- Slope 0.2 on the negative side. -/
noncomputable def leakyK (s : FT F S30000x4) : FT F S30000x4 :=
  select (cmpf .oge s (broadcastInDim S30000x4 ![] bcast_S_S30000x4 (constant S_ .f32 0x00000000#32))) s
    (mulf (broadcastInDim S30000x4 ![] bcast_S_S30000x4 (constant S_ .f32 0x3E4CCCCD#32)) s)
/-- Clamp to [-20, 20]. -/
noncomputable def clipK (x : FT F S30000x4) : FT F S30000x4 :=
  minimumf (broadcastInDim S30000x4 ![] bcast_S_S30000x4 (id (constant S_ .f32 0x41A00000#32)))
    (maximumf (broadcastInDim S30000x4 ![] bcast_S_S30000x4 (id (constant S_ .f32 0xC1A00000#32))) x)

noncomputable def argsK (W : Valuation τ sig (Elt F)) : ArgsK F :=
  ⟨W (Proc.devRef .tc main_arg0), W (Proc.devRef .tc main_arg1), W (Proc.devRef .tc main_arg2), W (Proc.devRef .tc main_arg3), W (Proc.devRef .tc main_arg4), W (Proc.devRef .tc main_arg5), W (Proc.devRef .tc main_arg6), W (Proc.devRef .tc main_arg7), W (Proc.devRef .tc main_arg8), W (Proc.devRef .tc main_arg9), W (Proc.devRef .tc main_arg10), W (Proc.devRef .tc main_arg11), W (Proc.devRef .tc main_arg12), W (Proc.devRef .tc main_arg13), W (Proc.devRef .tc main_arg14), W (Proc.devRef .tc main_arg15), W (Proc.devRef .tc main_arg16), W (Proc.devRef .tc main_arg17), W (Proc.devRef .tc main_arg18), W (Proc.devRef .tc main_arg19), W (Proc.devRef .tc main_arg20), W (Proc.devRef .tc main_arg21)⟩

/-- The contents after stretches 0 … 3, 0 … 5, 0 … 7 and 0 … 9. -/
noncomputable abbrev pre3 (W : Valuation τ sig (Elt F)) : Valuation τ sig (Elt F) := StableHlo.after hostOps2_3 (StableHlo.after hostOps2_2 (StableHlo.after hostOps2_1 (StableHlo.after hostOps2 W)))
noncomputable abbrev pre5 (W : Valuation τ sig (Elt F)) : Valuation τ sig (Elt F) := StableHlo.after hostOps2_5 (StableHlo.after hostOps2_4 (pre3 W))
noncomputable abbrev pre7 (W : Valuation τ sig (Elt F)) : Valuation τ sig (Elt F) := StableHlo.after hostOps2_7 (StableHlo.after hostOps2_6 (pre5 W))
noncomputable abbrev pre9 (W : Valuation τ sig (Elt F)) : Valuation τ sig (Elt F) := StableHlo.after hostOps2_9 (StableHlo.after hostOps2_8 (pre7 W))
theorem keepPre3 {r : Ref sig .tc} (h : r ∉ (EWs.take 4).flatten) (W : Valuation τ sig (Elt F)) : pre3 W (Proc.devRef .tc r) = W (Proc.devRef .tc r) := keepR 0 4 h W
theorem keepPre5 {r : Ref sig .tc} (h : r ∉ (EWs.take 6).flatten) (W : Valuation τ sig (Elt F)) : pre5 W (Proc.devRef .tc r) = W (Proc.devRef .tc r) := keepR 0 6 h W
theorem keepPre7 {r : Ref sig .tc} (h : r ∉ (EWs.take 8).flatten) (W : Valuation τ sig (Elt F)) : pre7 W (Proc.devRef .tc r) = W (Proc.devRef .tc r) := keepR 0 8 h W
theorem keepPre9 {r : Ref sig .tc} (h : r ∉ (EWs.take 10).flatten) (W : Valuation τ sig (Elt F)) : pre9 W (Proc.devRef .tc r) = W (Proc.devRef .tc r) := keepR 0 10 h W

set_option maxHeartbeats 8000000 in
/-- Relation operation → operation, whole, after the first six stretches. -/
theorem seq5 (W : Valuation τ sig (Elt F)) : pre5 W (Proc.devRef .tc main_v236) = edgeSeq (argsK W) (W (Proc.devRef .tc main_v164_0)) (W (Proc.devRef .tc main_v164_1)) := by
  dsimp only [pre5, pre3]
  after_results_simp
  rfl
set_option maxHeartbeats 8000000 in
/-- Relation machine → operation: the sloped logits, after the first six stretches. -/
theorem mo_leaky (V : Valuation τ sig (Elt F)) : StableHlo.after hostOps2_5 (StableHlo.after hostOps2_4 V) (Proc.devRef .tc main_v267)
    = leakyK (scoresK (Host.gather gather_S10000x16_S30000x2_S30000x4_1_0_n_n_01_1_14 (V (Proc.devRef .tc main_v167_1)) (tabIdx 4#32 (wrapIdxK 10000#32 (V (Proc.devRef .tc main_arg6)))))
        (Host.gather gather_S100000x16_S30000x2_S30000x4_1_0_n_n_01_1_14 (V (Proc.devRef .tc main_v164_1)) (tabIdx 12#32 (wrapIdxK 100000#32 (V (Proc.devRef .tc main_arg7))))) (V (Proc.devRef .tc main_arg10)) (V (Proc.devRef .tc main_arg17))) := by
  after_results_simp
  rfl
theorem mo5 (W : Valuation τ sig (Elt F)) : pre5 W (Proc.devRef .tc main_v267)
    = leakyK (scoresK (Host.gather gather_S10000x16_S30000x2_S30000x4_1_0_n_n_01_1_14 (W (Proc.devRef .tc main_v167_1)) (tabIdx 4#32 (wrapIdxK 10000#32 (W (Proc.devRef .tc main_arg6)))))
        (Host.gather gather_S100000x16_S30000x2_S30000x4_1_0_n_n_01_1_14 (W (Proc.devRef .tc main_v164_1)) (tabIdx 12#32 (wrapIdxK 100000#32 (W (Proc.devRef .tc main_arg7))))) (W (Proc.devRef .tc main_arg10)) (W (Proc.devRef .tc main_arg17))) :=
  (mo_leaky (pre3 W)).trans (by rw [keepPre3 (r := main_v167_1) (by decide), keepPre3 (r := main_arg6) (by decide), keepPre3 (r := main_v164_1) (by decide), keepPre3 (r := main_arg7) (by decide), keepPre3 (r := main_arg10) (by decide), keepPre3 (r := main_arg17) (by decide)])
set_option maxHeartbeats 8000000 in
/-- From the sloped logits of the second relation: clamp, exponential, normalised weighted sum, added to the first relation's sum. -/
theorem op_sum (V : Valuation τ sig (Elt F)) : StableHlo.after hostOps2_12 (StableHlo.after hostOps2_11 (StableHlo.after hostOps2_10 (StableHlo.after hostOps2_9 (StableHlo.after hostOps2_8 (StableHlo.after hostOps2_7 (StableHlo.after hostOps2_6 V)))))) (Proc.devRef .tc main_v306)
    = addf (V (Proc.devRef .tc main_v236))
        (edgeTail scatter_S100000x4_S30000x1_S30000x4_1_0_0_1 gather_S100000x4_S30000x1_S30000x4_1_0_n_n_0_1_14 scatter_S100000x128_S30000x1_S30000x128_1_0_0_1 bcast_S_S100000x4 bcast_S_S100000x128
          (Host.gather gather_S10000x128_S30000x1_S30000x128_1_0_n_n_0_1_1128 (V (Proc.devRef .tc main_v167_0)) (wrapIdxK 10000#32 (V (Proc.devRef .tc main_arg6))))
          (wrapIdxK 100000#32 (V (Proc.devRef .tc main_arg7))) (Host.exp (clipK (V (Proc.devRef .tc main_v267))))) := by
  after_results_simp
  rfl
set_option maxHeartbeats 8000000 in
/-- Relation operation → machine: the sloped logits, after the first ten stretches. -/
theorem om_leaky (V : Valuation τ sig (Elt F)) : StableHlo.after hostOps2_9 (StableHlo.after hostOps2_8 V) (Proc.devRef .tc main_v337)
    = leakyK (scoresK (Host.gather gather_S100000x16_S30000x2_S30000x4_1_0_n_n_01_1_14 (V (Proc.devRef .tc main_v164_1)) (tabIdx 8#32 (wrapIdxK 100000#32 (V (Proc.devRef .tc main_arg4)))))
        (Host.gather gather_S10000x16_S30000x2_S30000x4_1_0_n_n_01_1_14 (V (Proc.devRef .tc main_v167_1)) (tabIdx 0#32 (wrapIdxK 10000#32 (V (Proc.devRef .tc main_arg5))))) (V (Proc.devRef .tc main_arg9)) (V (Proc.devRef .tc main_arg16))) := by
  after_results_simp
  rfl
theorem om9 (W : Valuation τ sig (Elt F)) : pre9 W (Proc.devRef .tc main_v337)
    = leakyK (scoresK (Host.gather gather_S100000x16_S30000x2_S30000x4_1_0_n_n_01_1_14 (W (Proc.devRef .tc main_v164_1)) (tabIdx 8#32 (wrapIdxK 100000#32 (W (Proc.devRef .tc main_arg4)))))
        (Host.gather gather_S10000x16_S30000x2_S30000x4_1_0_n_n_01_1_14 (W (Proc.devRef .tc main_v167_1)) (tabIdx 0#32 (wrapIdxK 10000#32 (W (Proc.devRef .tc main_arg5))))) (W (Proc.devRef .tc main_arg9)) (W (Proc.devRef .tc main_arg16))) :=
  (om_leaky (pre7 W)).trans (by rw [keepPre7 (r := main_v164_1) (by decide), keepPre7 (r := main_arg4) (by decide), keepPre7 (r := main_v167_1) (by decide), keepPre7 (r := main_arg5) (by decide), keepPre7 (r := main_arg9) (by decide), keepPre7 (r := main_arg16) (by decide)])
set_option maxHeartbeats 8000000 in
/-- The last three stretches clip and exponentiate and end relation operation → machine. -/
theorem om_tail (V : Valuation τ sig (Elt F)) : StableHlo.after hostOps2_12 (StableHlo.after hostOps2_11 (StableHlo.after hostOps2_10 V)) (Proc.devRef .tc main_v375)
    = edgeTail scatter_S10000x4_S30000x1_S30000x4_1_0_0_1 gather_S10000x4_S30000x1_S30000x4_1_0_n_n_0_1_14 scatter_S10000x128_S30000x1_S30000x128_1_0_0_1 bcast_S_S10000x4 bcast_S_S10000x128
        (Host.gather gather_S100000x128_S30000x1_S30000x128_1_0_n_n_0_1_1128 (V (Proc.devRef .tc main_v164_0)) (wrapIdxK 100000#32 (V (Proc.devRef .tc main_arg4))))
        (wrapIdxK 10000#32 (V (Proc.devRef .tc main_arg5))) (Host.exp (clipK (V (Proc.devRef .tc main_v337)))) := by
  after_results_simp
  rfl

theorem edge_v306 (W : Valuation τ sig (Elt F)) : afterEdge W (Proc.devRef .tc main_v306)
    = kOutOp (argsK W) (W (Proc.devRef .tc main_v164_0)) (W (Proc.devRef .tc main_v164_1)) (W (Proc.devRef .tc main_v167_0)) (W (Proc.devRef .tc main_v167_1)) := by
  show StableHlo.after hostOps2_12 (StableHlo.after hostOps2_11 (StableHlo.after hostOps2_10 (StableHlo.after hostOps2_9 (StableHlo.after hostOps2_8 (StableHlo.after hostOps2_7 (StableHlo.after hostOps2_6 (pre5 W))))))) _ = _
  rw [op_sum, seq5, mo5, keepPre5 (r := main_v167_0) (by decide), keepPre5 (r := main_arg6) (by decide), keepPre5 (r := main_arg7) (by decide)]
  rfl

theorem edge_v375 (W : Valuation τ sig (Elt F)) : afterEdge W (Proc.devRef .tc main_v375)
    = kOutMac (argsK W) (W (Proc.devRef .tc main_v164_0)) (W (Proc.devRef .tc main_v164_1)) (W (Proc.devRef .tc main_v167_1)) := by
  show StableHlo.after hostOps2_12 (StableHlo.after hostOps2_11 (StableHlo.after hostOps2_10 (pre9 W))) _ = _
  rw [om_tail, om9, keepPre9 (r := main_v164_0) (by decide), keepPre9 (r := main_arg4) (by decide), keepPre9 (r := main_arg5) (by decide)]
  rfl

theorem ln_v376 (V : Valuation τ sig (Elt F)) : StableHlo.after hostOps2_12 (StableHlo.after hostOps2_11 (StableHlo.after hostOps2_10 V)) (Proc.devRef .tc main_v376)
    = broadcastInDim S1x128 ![1] bcast_S128_S1x128_1 (V (Proc.devRef .tc main_arg18)) := by
  after_results_simp
theorem ln_v377 (V : Valuation τ sig (Elt F)) : StableHlo.after hostOps2_12 (StableHlo.after hostOps2_11 (StableHlo.after hostOps2_10 V)) (Proc.devRef .tc main_v377)
    = broadcastInDim S1x128 ![1] bcast_S128_S1x128_1 (V (Proc.devRef .tc main_arg19)) := by
  after_results_simp
theorem edge_v376 (W : Valuation τ sig (Elt F)) : afterEdge W (Proc.devRef .tc main_v376)
    = broadcastInDim S1x128 ![1] bcast_S128_S1x128_1 (W (Proc.devRef .tc main_arg18)) := by
  show StableHlo.after hostOps2_12 (StableHlo.after hostOps2_11 (StableHlo.after hostOps2_10 (pre9 W))) _ = _
  rw [ln_v376, keepPre9 (r := main_arg18) (by decide)]
theorem edge_v377 (W : Valuation τ sig (Elt F)) : afterEdge W (Proc.devRef .tc main_v377)
    = broadcastInDim S1x128 ![1] bcast_S128_S1x128_1 (W (Proc.devRef .tc main_arg19)) := by
  show StableHlo.after hostOps2_12 (StableHlo.after hostOps2_11 (StableHlo.after hostOps2_10 (pre9 W))) _ = _
  rw [ln_v377, keepPre9 (r := main_arg19) (by decide)]

end Cert.KernelIdeal.Hand
end
-- ==== Proof.KI.ValHostCat.lean ====
import proofs.«133871_g61280593379539_cont_9to1c4b_765_12_alg».proof.Proof.KI.ValHost
import proofs.«133871_g61280593379539_cont_9to1c4b_765_12_alg».proof.Proof.LibNary5

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

theorem after_pre {Val : EltTy → Type} {ops : List (HloOp τ sig Val)} {rs : List (Ref sig .tc)} (h : WritesEach ops rs)
    (n : Nat) (V : Valuation τ sig Val) {r : Ref sig .tc} (hr : r ∉ rs.drop n) :
    StableHlo.after ops V (Proc.devRef .tc r) = StableHlo.after (ops.take n) V (Proc.devRef .tc r) := by
  rw [after_split ops n, after_keep (List.forall₂_drop n h) _ hr]

theorem after_at {Val : EltTy → Type} {ops : List (HloOp τ sig Val)} {rs : List (Ref sig .tc)} (h : WritesEach ops rs)
    (n : Nat) (op : HloOp τ sig Val) (hd : ops.drop n = op :: ops.drop (n + 1)) (V : Valuation τ sig Val)
    {r : Ref sig .tc} (hr : r ∉ rs.drop (n + 1)) :
    StableHlo.after ops V (Proc.devRef .tc r) = op.result (StableHlo.after (ops.take n) V) (Proc.devRef .tc r) := by
  rw [after_split ops n, hd, StableHlo.after_cons, after_keep (List.forall₂_drop (n + 1) h) _ hr]

end Cert.KernelIdeal.Hand

end
-- ==== Proof.LibScatter.lean ====
import Idealize.ShloMosaic.PureOps.ShapeOps

namespace Idealize.ShloMosaic.ScatterRead

variable {α : Type} {s si u : Shape} {w : Nat}

private def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

private theorem scatter_eq_foldl (d : ScatterDims s si u) (f : α → α → α) (x : s.Idx → α) (idx : IVec si w)
    (upd : u.Idx → α) :
    Host.scatter d f x idx upd = (List.finRange u.numel).foldl (step d f idx upd) x := rfl

private theorem step_apply_of_ne (d : ScatterDims s si u) (f : α → α → α) (idx : IVec si w) (upd : u.Idx → α)
    (r : s.Idx → α) (n : Fin u.numel) (p : s.Idx) (h : d.resultIdx? (u.rowMajor.symm n) idx ≠ some p) :
    step d f idx upd r n p = r p := by
  unfold step
  generalize d.resultIdx? (u.rowMajor.symm n) idx = q at h
  cases q with
  | none => rfl
  | some i =>
    have hne : p ≠ i := fun e => h (by rw [e])
    exact if_neg hne

private theorem step_apply_of_eq (d : ScatterDims s si u) (f : α → α → α) (idx : IVec si w) (upd : u.Idx → α)
    (r : s.Idx → α) (n : Fin u.numel) (p : s.Idx) (h : d.resultIdx? (u.rowMajor.symm n) idx = some p) :
    step d f idx upd r n p = f (r p) (upd (u.rowMajor.symm n)) := by
  unfold step
  rw [h]
  exact if_pos rfl

private theorem foldl_apply_of_miss (d : ScatterDims s si u) (f : α → α → α) (idx : IVec si w) (upd : u.Idx → α)
    (p : s.Idx) (l : List (Fin u.numel)) (r : s.Idx → α)
    (h : ∀ n ∈ l, d.resultIdx? (u.rowMajor.symm n) idx ≠ some p) :
    l.foldl (step d f idx upd) r p = r p := by
  induction l generalizing r with
  | nil => rfl
  | cons a t ih =>
    rw [List.foldl_cons, ih _ (fun n hn => h n (List.mem_cons_of_mem _ hn))]
    exact step_apply_of_ne d f idx upd r a p (h a List.mem_cons_self)

private theorem foldl_apply_of_unique (d : ScatterDims s si u) (f : α → α → α) (idx : IVec si w) (upd : u.Idx → α)
    (p : s.Idx) (n0 : Fin u.numel) (l : List (Fin u.numel)) (r : s.Idx → α)
    (hnd : l.Nodup) (hmem : n0 ∈ l) (h0 : d.resultIdx? (u.rowMajor.symm n0) idx = some p)
    (huniq : ∀ n ∈ l, d.resultIdx? (u.rowMajor.symm n) idx = some p → n = n0) :
    l.foldl (step d f idx upd) r p = f (r p) (upd (u.rowMajor.symm n0)) := by
  induction l generalizing r with
  | nil => exact absurd hmem List.not_mem_nil
  | cons a t ih =>
    rw [List.foldl_cons]
    have hnd' := List.nodup_cons.mp hnd
    by_cases ha : a = n0
    · subst ha
      rw [foldl_apply_of_miss d f idx upd p t _ (fun n hn hland => by
        have := huniq n (List.mem_cons_of_mem _ hn) hland
        exact hnd'.1 (this ▸ hn))]
      exact step_apply_of_eq d f idx upd r a p h0
    · have hmem' : n0 ∈ t := by
        rcases List.mem_cons.mp hmem with e | e
        · exact absurd e.symm ha
        · exact e
      rw [ih _ hnd'.2 hmem' (fun n hn => huniq n (List.mem_cons_of_mem _ hn))]
      rw [step_apply_of_ne d f idx upd r a p (fun hland => ha (huniq a List.mem_cons_self hland))]

theorem scatter_apply_of_miss (d : ScatterDims s si u) (f : α → α → α) (x : s.Idx → α) (idx : IVec si w) (upd : u.Idx → α)
    (p : s.Idx) (h : ∀ j : u.Idx, d.resultIdx? j idx ≠ some p) :
    Host.scatter d f x idx upd p = x p := by
  rw [scatter_eq_foldl]
  exact foldl_apply_of_miss d f idx upd p _ x (fun n _ => h (u.rowMajor.symm n))

theorem scatter_apply_of_unique (d : ScatterDims s si u) (f : α → α → α) (x : s.Idx → α) (idx : IVec si w) (upd : u.Idx → α)
    (p : s.Idx) (j : u.Idx) (hj : d.resultIdx? j idx = some p) (huniq : ∀ j' : u.Idx, d.resultIdx? j' idx = some p → j' = j) :
    Host.scatter d f x idx upd p = f (x p) (upd j) := by
  rw [scatter_eq_foldl]
  have e : u.rowMajor.symm (u.rowMajor j) = j := Equiv.symm_apply_apply _ _
  have := foldl_apply_of_unique d f idx upd p (u.rowMajor j) (List.finRange u.numel) x
    (List.nodup_finRange _) (List.mem_finRange _) (by rw [e]; exact hj)
    (fun n _ hland => by
      have hn := huniq _ hland
      rw [← hn, Equiv.apply_symm_apply])
  rw [this, e]

end Idealize.ShloMosaic.ScatterRead
-- ==== Proof.KI.ValHostSeg.lean ====
import proofs.«133871_g61280593379539_cont_9to1c4b_765_12_alg».proof.Proof.KI.ValHostCat
import proofs.«133871_g61280593379539_cont_9to1c4b_765_12_alg».proof.Proof.Bridge.Proj
import proofs.«133871_g61280593379539_cont_9to1c4b_765_12_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

abbrev hc_segVec (att : (⟨S4x65, .f32⟩ : BufTy).Contents (Elt F)) (r c : Nat) (hs : S4x65.Slices ![r, c] S1x32) (start : BitVec 32) :
    (⟨S128, .f32⟩ : BufTy).Contents (Elt F) :=
  Host.scatter scatter_S128_S1_S32_0_n_0_0 (fun _ b => b)
    (broadcastInDim S128 ![] bcast_S_S128 (constant S_ .f32 0x00000000#32))
    (broadcastInDim S1 ![] bcast_S_S1 (constantI S_ 32 start))
    (shapeCast S32 (extractStridedSlice S1x32 ![r, c] att hs) shapeCasts_S1x32_S32)

theorem hc_scat_start (c : BitVec 32) (j : S32.Idx) (a : Fin 1) :
    scatter_S128_S1_S32_0_n_0_0.start j (broadcastInDim S1 ![] bcast_S_S1 (constantI S_ 32 c)) a = c.toInt := by
  obtain rfl : a = 0 := Subsingleton.elim _ _
  unfold ScatterDims.start
  rw [dif_pos (by decide)]
  rfl

theorem hc_scat_window (j : S32.Idx) (a : Fin 1) :
    scatter_S128_S1_S32_0_n_0_0.window j a = (j 0).val := by
  obtain rfl : a = 0 := Subsingleton.elim _ _
  unfold ScatterDims.window
  rw [dif_pos (by decide)]
  rfl

theorem hc_scat_resultIdx (c : BitVec 32) (n : Nat) (hc : c.toInt = (n : Int)) (hn : n + 32 ≤ 128) (j : S32.Idx) :
    scatter_S128_S1_S32_0_n_0_0.resultIdx? j (broadcastInDim S1 ![] bcast_S_S1 (constantI S_ 32 c))
      = some (ix1 ⟨n + (j 0).val, by have : (j 0).val < 32 := (j 0).isLt; omega⟩) := by
  have hj : (j 0).val < 32 := (j 0).isLt
  unfold ScatterDims.resultIdx?
  have hall : ∀ a : Fin S128.rank, 0 ≤ scatter_S128_S1_S32_0_n_0_0.start j (broadcastInDim S1 ![] bcast_S_S1 (constantI S_ 32 c)) a
        + (scatter_S128_S1_S32_0_n_0_0.window j a : Int)
      ∧ scatter_S128_S1_S32_0_n_0_0.start j (broadcastInDim S1 ![] bcast_S_S1 (constantI S_ 32 c)) a
        + (scatter_S128_S1_S32_0_n_0_0.window j a : Int) < S128.size a := by
    intro a
    rw [hc_scat_start, hc_scat_window, hc]
    obtain rfl : a = 0 := Subsingleton.elim _ _
    show 0 ≤ (n : Int) + ((j 0).val : Int) ∧ (n : Int) + ((j 0).val : Int) < (128 : Nat)
    omega
  rw [dif_pos hall]
  congr 1
  funext a
  obtain rfl : a = 0 := Subsingleton.elim _ _
  apply Fin.ext
  show (scatter_S128_S1_S32_0_n_0_0.start j (broadcastInDim S1 ![] bcast_S_S1 (constantI S_ 32 c)) 0
        + (scatter_S128_S1_S32_0_n_0_0.window j 0 : Int)).toNat = n + (j 0).val
  rw [hc_scat_start, hc_scat_window, hc]
  omega

theorem hc_scat_read {α : Type} (c : BitVec 32) (n : Nat) (hc : c.toInt = (n : Int)) (hn : n + 32 ≤ 128)
    (x : S128.Idx → α) (upd : S32.Idx → α) (d : Fin 128) :
    Host.scatter scatter_S128_S1_S32_0_n_0_0 (fun _ b => b) x (broadcastInDim S1 ![] bcast_S_S1 (constantI S_ 32 c)) upd (ix1 d)
      = if h : n ≤ d.val ∧ d.val < n + 32 then upd (ix1 ⟨d.val - n, by omega⟩) else x (ix1 d) := by
  split
  · next h =>
    refine ScatterRead.scatter_apply_of_unique _ _ _ _ _ _ (ix1 ⟨d.val - n, by omega⟩) ?_ ?_
    · rw [hc_scat_resultIdx c n hc hn]
      congr 2
      apply Fin.ext
      show n + (d.val - n) = d.val
      omega
    · intro j' hj'
      rw [hc_scat_resultIdx c n hc hn] at hj'
      have e := congrArg (fun p : S128.Idx => (p 0).val) (Option.some.inj hj')
      rw [eq_ix1 j']
      congr 1
      apply Fin.ext
      show (j' 0).val = d.val - n
      have e' : n + (j' 0).val = d.val := e
      omega
  · next h =>
    refine ScatterRead.scatter_apply_of_miss _ _ _ _ _ _ ?_
    intro j hj
    rw [hc_scat_resultIdx c n hc hn] at hj
    have e : n + (j 0).val = d.val := congrArg (fun p : S128.Idx => (p 0).val) (Option.some.inj hj)
    have hj32 : (j 0).val < 32 := (j 0).isLt
    omega

theorem hc_concat16_apply {α : Type} (c0 c1 c2 c3 c4 c5 c6 c7 c8 c9 c10 c11 c12 c13 c14 c15 : S128x1.Idx → α)
    (hcat : Shape.Concatenates ([(⟨S128x1, c0⟩ : (s : Shape) × (s.Idx → α)), ⟨S128x1, c1⟩, ⟨S128x1, c2⟩, ⟨S128x1, c3⟩, ⟨S128x1, c4⟩, ⟨S128x1, c5⟩, ⟨S128x1, c6⟩, ⟨S128x1, c7⟩, ⟨S128x1, c8⟩, ⟨S128x1, c9⟩, ⟨S128x1, c10⟩, ⟨S128x1, c11⟩, ⟨S128x1, c12⟩, ⟨S128x1, c13⟩, ⟨S128x1, c14⟩, ⟨S128x1, c15⟩].map (·.1)) S128x16 1)
    (d : Fin 128) (k : Fin 16) :
    concatenate S128x16 1 [⟨S128x1, c0⟩, ⟨S128x1, c1⟩, ⟨S128x1, c2⟩, ⟨S128x1, c3⟩, ⟨S128x1, c4⟩, ⟨S128x1, c5⟩, ⟨S128x1, c6⟩, ⟨S128x1, c7⟩, ⟨S128x1, c8⟩, ⟨S128x1, c9⟩, ⟨S128x1, c10⟩, ⟨S128x1, c11⟩, ⟨S128x1, c12⟩, ⟨S128x1, c13⟩, ⟨S128x1, c14⟩, ⟨S128x1, c15⟩] hcat (ix2 d k)
      = (![c0, c1, c2, c3, c4, c5, c6, c7, c8, c9, c10, c11, c12, c13, c14, c15] k) (ix2 d 0) := by
  have key : ∀ (f : Fin 16 → S128x1.Idx → α) (xs : List ((s : Shape) × (s.Idx → α)))
      (hx : xs = List.ofFn fun n : Fin 16 => (⟨S128x1, f n⟩ : (s : Shape) × (s.Idx → α)))
      (h : Shape.Concatenates (xs.map (·.1)) S128x16 1), concatenate S128x16 1 xs h (ix2 d k) = f k (ix2 d 0) := by
    intro f xs hx h
    subst hx
    exact concatenate_ofFn_unit_apply (t := S128x16) (s₁ := S128x1) (1 : Fin 2) f h rfl rfl (ix2 d k) k rfl (ix2 d (0 : Fin 1))
      (fun b hb => match b, hb with
        | ⟨0, _⟩, _ => rfl
        | ⟨1, _⟩, hb => absurd rfl hb)
  exact key _ _ (by rfl) hcat

theorem hc_segVec_apply (att : S4x65.Idx → EReal) (r c : Nat) (hs : S4x65.Slices ![r, c] S1x32) (start : BitVec 32) (n : Nat)
    (hstart : start.toInt = (n : Int)) (hn : n + 32 ≤ 128) (hr : r < 4) (hc : c + 32 ≤ 65) (d : Fin 128) :
    hc_segVec (F := Ideal) att r c hs start (ix1 d)
      = if h : n ≤ d.val ∧ d.val < n + 32 then att (ix2 ⟨r, hr⟩ ⟨c + (d.val - n), by omega⟩) else 0 := by
  show Host.scatter scatter_S128_S1_S32_0_n_0_0 (fun _ b => b) _ (broadcastInDim S1 ![] bcast_S_S1 (constantI S_ 32 start)) _ (ix1 d) = _
  rw [hc_scat_read start n hstart hn]
  split
  · next h =>
    rw [shapeCast_1a_a_apply]
    exact extractStridedSlice_apply _ _ hs _ _ (fun a => match a with | ⟨0, _⟩ => rfl | ⟨1, _⟩ => rfl)
  · exact Ideal.ofBits_zero_f32

end Cert.KernelIdeal.Hand

end
-- ==== Proof.KI.ValHostCol.lean ====
import proofs.«133871_g61280593379539_cont_9to1c4b_765_12_alg».proof.Proof.KI.ValHostSeg
import proofs.«133871_g61280593379539_cont_9to1c4b_765_12_alg».proof.Proof.Bridge.Proj
import proofs.«133871_g61280593379539_cont_9to1c4b_765_12_alg».proof.Proof.LibScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]

-- Where the k-th operation writes the reference of index o + k, a column is its broadcast of what the seven operations ending at its operand leave.
theorem after_col {Val : EltTy → Type} {ops : List (HloOp τ sig Val)} {rs : List (Ref sig .tc)} (h : WritesEach ops rs)
    (o : Nat) (W : Valuation τ sig Val) {x y : Ref sig .tc} (f : x.ty.Contents Val → y.ty.Contents Val) (hx) (hy)
    (b0 b1 b2 b3 b4 b5 b6 : HloOp τ sig Val)
    (hd : ops.drop (y.idx.val - o) = StableHlo.unary x y f hx hy :: ops.drop (y.idx.val - o + 1))
    (hb : (ops.drop (x.idx.val - o - 6)).take 7 = [b0, b1, b2, b3, b4, b5, b6])
    (hy1 : y ∉ rs.drop (y.idx.val - o + 1)) (hx1 : x ∉ rs.drop (y.idx.val - o)) (hx2 : x ∉ rs.drop (x.idx.val - o - 6 + 7)) :
    StableHlo.after ops W (Proc.devRef .tc y)
      = f (StableHlo.after [b0, b1, b2, b3, b4, b5, b6] (StableHlo.after (ops.take (x.idx.val - o - 6)) W) (Proc.devRef .tc x)) := by
  rw [after_at h _ _ hd W hy1, StableHlo.unary_result, ← after_pre h _ W hx1, after_split ops (x.idx.val - o - 6),
    after_split (ops.drop (x.idx.val - o - 6)) 7, after_keep (List.forall₂_drop 7 (List.forall₂_drop _ h)) _ (by rwa [List.drop_drop]), hb]

-- A column whose segment is row hv, half halfv, written from 32·hv on: the entry of head hv where row d belongs to it, else zero.
theorem hc_col_at (att : S4x65.Idx → EReal) (r c : Nat) (hs : S4x65.Slices ![r, c] S1x32) (start : BitVec 32)
    (hv : Nat) (hh : hv < 4) (halfv : Nat) (hhalf : halfv < 2) (d : Fin 128) (hr : r = hv) (hc : c = 32 * halfv)
    (hst : start.toInt = ((32 * hv : Nat) : Int)) :
    broadcastInDim S128x1 ![0] bcast_S128_S128x1_0 (hc_segVec (F := Ideal) att r c hs start) (ix2 d (0 : Fin 1))
      = if d.val / 32 = hv then att (ix2 (⟨hv, hh⟩ : Fin 4) ⟨32 * halfv + d.val % 32, by omega⟩) else 0 := by
  have hd := d.isLt
  have hb : broadcastInDim S128x1 ![0] bcast_S128_S128x1_0 (hc_segVec (F := Ideal) att r c hs start) (ix2 d (0 : Fin 1))
      = hc_segVec (F := Ideal) att r c hs start (ix1 d) :=
    broadcastInDim_apply _ _ _ _ _ (fun a => match a with | ⟨0, _⟩ => rfl)
  rw [hb, hc_segVec_apply att r c hs start (32 * hv) hst (by omega) (by omega) (by omega) d]
  by_cases hdh : d.val / 32 = hv
  · rw [dif_pos ⟨by omega, by omega⟩, if_pos hdh]
    subst hr hc
    congr 1
    funext a
    match a with
    | ⟨0, _⟩ => rfl
    | ⟨1, _⟩ => exact Fin.ext (by show _ + (d.val - _) = _ + d.val % 32; omega)
  · rw [dif_neg (by omega), if_neg hdh]

-- The operation writing y, at position y's index less o, is a function of its operands' final contents when none of them is written from there on.
theorem after_nary {Val : EltTy → Type} {ops : List (HloOp τ sig Val)} {rs : List (Ref sig .tc)} (h : WritesEach ops rs)
    (o : Nat) (W : Valuation τ sig Val) {n : Nat} {xs : Fin n → Ref sig .tc} {y : Ref sig .tc}
    (f : ((k : Fin n) → (xs k).ty.Contents Val) → y.ty.Contents Val) (hxs) (hy)
    (hd : ops.drop (y.idx.val - o) = StableHlo.nary xs y f hxs hy :: ops.drop (y.idx.val - o + 1))
    (hy1 : y ∉ rs.drop (y.idx.val - o + 1)) (hx1 : ∀ k, xs k ∉ rs.drop (y.idx.val - o)) :
    StableHlo.after ops W (Proc.devRef .tc y) = f fun k => StableHlo.after ops W (Proc.devRef .tc (xs k)) := by
  rw [after_at h _ _ hd W hy1, StableHlo.nary_result]
  exact congrArg f (funext fun k => (after_pre h _ W (hx1 k)).symm)

theorem h0_v144_col0 (W : Valuation τ sig (Elt Ideal)) :
    Cert.Bridge.ColumnOf (StableHlo.after hostOps0 W (Proc.devRef .tc main_v144)) 0 (W (Proc.devRef .tc main_arg15)) 0 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

theorem h0_v144_col1 (W : Valuation τ sig (Elt Ideal)) :
    Cert.Bridge.ColumnOf (StableHlo.after hostOps0 W (Proc.devRef .tc main_v144)) 1 (W (Proc.devRef .tc main_arg15)) 1 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

theorem h0_v144_col2 (W : Valuation τ sig (Elt Ideal)) :
    Cert.Bridge.ColumnOf (StableHlo.after hostOps0 W (Proc.devRef .tc main_v144)) 2 (W (Proc.devRef .tc main_arg16)) 0 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

theorem h0_v144_col3 (W : Valuation τ sig (Elt Ideal)) :
    Cert.Bridge.ColumnOf (StableHlo.after hostOps0 W (Proc.devRef .tc main_v144)) 3 (W (Proc.devRef .tc main_arg17)) 1 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

theorem h0_v161_col0 (W : Valuation τ sig (Elt Ideal)) :
    Cert.Bridge.ColumnOf (StableHlo.after hostOps0 W (Proc.devRef .tc main_v161)) 0 (W (Proc.devRef .tc main_arg16)) 1 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

theorem h0_v161_col1 (W : Valuation τ sig (Elt Ideal)) :
    Cert.Bridge.ColumnOf (StableHlo.after hostOps0 W (Proc.devRef .tc main_v161)) 1 (W (Proc.devRef .tc main_arg17)) 0 := by
  intro d h
  rw [after_nary hostOps0_writes 22 W _ _ _ (by rfl) (by decide) (by decide)]
  dsimp only [Matrix.cons_val]
  rw [hc_concat16_apply]
  generalize hV : StableHlo.after hostOps0 W = V
  fin_cases h <;>
    (show V (Proc.devRef .tc _) _ = _
     subst hV
     rw [after_col hostOps0_writes 22 W _ _ _ _ _ _ _ _ _ _ (by rfl) (by rfl) (by decide) (by decide) (by decide)]
     after_results
     rw [after_keep (List.forall₂_take _ hostOps0_writes) W (by decide)]
     exact hc_col_at _ _ _ _ _ _ _ _ (by decide) d (by rfl) (by rfl) (by decide))

end Cert.KernelIdeal.Hand

end
-- ==== Proof.Bridge.Lin.lean ====
import proofs.«133871_g61280593379539_cont_9to1c4b_765_12_alg».proof.Proof.Spec
import proofs.«133871_g61280593379539_cont_9to1c4b_765_12_alg».proof.Proof.Bridge.Proj
import Idealize.ShloMosaic.Lib.StackMember
import Idealize.ShloMosaic.Lib.Pipeline.Value

noncomputable section

namespace Cert.Bridge

open Idealize.ShloMosaic Idealize.ShloMosaic.ValueIdx Idealize.ShloMosaic.StackMember
open Cert.ReferenceIdeal Cert.ReferenceIdeal.Facts₀ Cert.ReferenceIdeal.Spec

variable [Cert.ReferenceIdeal.Facts]

theorem row_bcast_apply {n : Nat}
    (hb : (⟨2, ![1, 128]⟩ : Shape).BroadcastsInDim (⟨2, ![n, 128]⟩ : Shape) (![0, 1] : Fin 2 → Fin 2))
    (x : (⟨2, ![1, 128]⟩ : Shape).Idx → EReal) (r : Fin n) (c : Fin 128) :
    broadcastInDim (⟨2, ![n, 128]⟩ : Shape) ![0, 1] hb x (ix2 r c) = x (ix2 0 c) := by
  refine broadcastInDim_apply _ hb x _ _ fun a => ?_
  match a with
  | ⟨0, _⟩ => rfl
  | ⟨1, _⟩ => rfl

theorem lin_op (h : FT Ideal S100000x128) (W : FT Ideal S128x128) (b : FT Ideal S128) :
    linIdx h (transpose S128x128 [1, 0] W transposes_S128x128_S128x128_1_0)
        (broadcastInDim S1x128 ![1] bcast_S128_S1x128_1 b) = Spec.linOp h W b := by
  funext i
  obtain ⟨r, c, rfl⟩ : ∃ (r : Fin 100000) (c : Fin 128), i = ix2 r c := ⟨i 0, i 1, eq_ix2 i⟩
  have hd := dotGeneral_plain_apply (m := 100000) (n := 128) (k := 128) (φ₁ := .f32) (φ₂ := .f32) none h
    (transpose S128x128 [1, 0] W transposes_S128x128_S128x128_1_0) r c
  have hb := row_bcast_apply (n := 100000) bcast_S1x128_S100000x128_0_1 (broadcastInDim S1x128 ![1] bcast_S128_S1x128_1 b) r c
  exact (congrArg₂ (· + ·) hd hb).symm

theorem lin_mac (h : FT Ideal S10000x128) (W : FT Ideal S128x128) (b : FT Ideal S128) :
    linIdx h (transpose S128x128 [1, 0] W transposes_S128x128_S128x128_1_0)
        (broadcastInDim S1x128 ![1] bcast_S128_S1x128_1 b) = Spec.linMac h W b := by
  funext i
  obtain ⟨r, c, rfl⟩ : ∃ (r : Fin 10000) (c : Fin 128), i = ix2 r c := ⟨i 0, i 1, eq_ix2 i⟩
  have hd := dotGeneral_plain_apply (m := 10000) (n := 128) (k := 128) (φ₁ := .f32) (φ₂ := .f32) none h
    (transpose S128x128 [1, 0] W transposes_S128x128_S128x128_1_0) r c
  have hb := row_bcast_apply (n := 10000) bcast_S1x128_S10000x128_0_1 (broadcastInDim S1x128 ![1] bcast_S128_S1x128_1 b) r c
  exact (congrArg₂ (· + ·) hd hb).symm

end Cert.Bridge

end
-- ==== Proof.Bridge.Sc.lean ====
import proofs.«133871_g61280593379539_cont_9to1c4b_765_12_alg».proof.Proof.Bridge.Proj
import Mathlib.Algebra.BigOperators.Fin
import Mathlib.Logic.Equiv.Fin.Basic

noncomputable section

namespace Cert.Bridge

open Idealize.ShloMosaic Idealize.ShloMosaic.ValueIdx

theorem sum_fin128 {M : Type} [AddCommMonoid M] (f : Fin 128 → M) :
    ∑ d : Fin 128, f d = ∑ q : Fin 4, ∑ k : Fin 32, f ⟨32 * q.val + k.val, by omega⟩ := by
  rw [← Fintype.sum_prod_type']
  refine (Fintype.sum_equiv (finProdFinEquiv (m := 4) (n := 32)) _ (f : Fin (4 * 32) → M) fun x => ?_).symm
  refine congrArg f (Fin.ext ?_)
  show 32 * x.1.val + x.2.val = x.2.val + 32 * x.1.val
  omega

theorem projects_of_column {n : Nat} (lin : (⟨2, ![n, 128]⟩ : Shape).Idx → EReal)
    (a : (⟨2, ![128, 16]⟩ : Shape).Idx → EReal) (g : Fin 4) (att : (⟨2, ![4, 65]⟩ : Shape).Idx → EReal)
    (half : Fin 2) (hc : ColumnOf a g att half) : Projects lin (scIdx lin a) g att half := by
  intro r h
  show ∑ d : Fin 128, lin (ix2 r d) * a (ix2 d ⟨4 * g.val + h.val, by omega⟩) = _
  rw [sum_fin128, Finset.sum_eq_single h]
  · refine Finset.sum_congr rfl fun k _ => ?_
    rw [hc, if_pos (show (32 * h.val + k.val) / 32 = h.val by omega)]
    refine congrArg (fun j => lin (ix2 r ⟨32 * h.val + k.val, by omega⟩) * att (ix2 h j)) (Fin.ext ?_)
    show 32 * half.val + (32 * h.val + k.val) % 32 = 32 * half.val + k.val
    omega
  · intro q _ hq
    refine Finset.sum_eq_zero fun k _ => ?_
    rw [hc, if_neg (show ¬ (32 * q.val + k.val) / 32 = h.val from fun e => hq (Fin.ext (by omega))), mul_zero]
  · intro h'; exact absurd (Finset.mem_univ _) h'

end Cert.Bridge

end
-- ==== Proof.Bridge.Tail.lean ====
import proofs.«133871_g61280593379539_cont_9to1c4b_765_12_alg».proof.Proof.Spec
import proofs.«133871_g61280593379539_cont_9to1c4b_765_12_alg».proof.Proof.KI.EdgeDefs
import Idealize.ShloMosaic.Lib.ValueIdx
import Idealize.ShloMosaic.Lib.Pipeline.Value
import Idealize.ShloMosaic.PureOps.Ideal

noncomputable section

namespace Cert.Bridge

open Idealize.ShloMosaic Idealize.ShloMosaic.ValueIdx
open Cert.ReferenceIdeal.Spec (FT IT)
open Cert.KernelIdeal.Hand (edgeTail wrapIdxK)
open Cert.ReferenceIdeal (S30000x4 S100000x128 S100000x4x32 S10000x128 S10000x4x32)

variable [Cert.KernelIdeal.Facts] [Cert.ReferenceIdeal.Facts]

-- `resultIdx?` is `some p` exactly when start plus window is `p` on every axis; it is then in range.
theorem resultIdx?_eq_some_iff {s si u : Shape} (d : ScatterDims s si u) {w : Nat} (j : u.Idx) (idx : IVec si w)
    (p : s.Idx) :
    d.resultIdx? j idx = some p ↔ ∀ a, d.start j idx a + (d.window j a : Int) = ((p a).val : Int) := by
  unfold ScatterDims.resultIdx?
  split
  · rename_i h
    rw [Option.some.injEq, funext_iff]
    refine forall_congr' fun a => ?_
    have := h a
    rw [Fin.ext_iff]
    show (d.start j idx a + d.window j a).toNat = (p a).val ↔ _
    omega
  · rename_i h
    exact iff_of_false (by simp) fun e => h fun a => by have := e a; have := (p a).isLt; omega

abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

-- Axis 0 carries the start index and no window, the other axes a window coordinate and no start.
theorem rowScatter_lands {N E C w : Nat} (wf) (j : (⟨2, ![E, C]⟩ : Shape).Idx) (idx : IVec ⟨2, ![E, 1]⟩ w)
    (p : (⟨2, ![N, C]⟩ : Shape).Idx) :
    (rowScatter N E C wf).resultIdx? j idx = some p
      ↔ (idx (ix2 (j 0) 0)).toInt = ((p 0).val : Int) ∧ (j 1).val = (p 1).val := by
  have h0 : (rowScatter N E C wf).start j idx 0 = (idx (ix2 (j 0) 0)).toInt :=
    congrArg (fun i => (idx i).toInt) (funext fun b => match b with | ⟨0, _⟩ => rfl | ⟨1, _⟩ => rfl)
  rw [resultIdx?_eq_some_iff, Fin.forall_fin_two, h0]
  show (_ + ((0 : Nat) : Int) = _ ∧ (0 : Int) + ((j 1).val : Nat) = (p 1).val) ↔ _
  omega

abbrev cubeScatter (N E H K : Nat)
    (wf : ScatterDims.WF ⟨3, ![N, H, K]⟩ ⟨2, ![E, 1]⟩ ⟨3, ![E, H, K]⟩ [1, 2] [0] [0] 1) :
    ScatterDims ⟨3, ![N, H, K]⟩ ⟨2, ![E, 1]⟩ ⟨3, ![E, H, K]⟩ where
  updateWindowDims := [1, 2]
  insertedWindowDims := [0]
  scatterDimsToOperandDims := [0]
  indexVectorDim := 1
  wf := wf

theorem cubeScatter_lands {N E H K w : Nat} (wf) (j : (⟨3, ![E, H, K]⟩ : Shape).Idx) (idx : IVec ⟨2, ![E, 1]⟩ w)
    (p : (⟨3, ![N, H, K]⟩ : Shape).Idx) :
    (cubeScatter N E H K wf).resultIdx? j idx = some p
      ↔ (idx (ix2 (j 0) 0)).toInt = ((p 0).val : Int) ∧ (j 1).val = (p 1).val ∧ (j 2).val = (p 2).val := by
  have h0 : (cubeScatter N E H K wf).start j idx 0 = (idx (ix2 (j 0) 0)).toInt :=
    congrArg (fun i => (idx i).toInt) (funext fun b => match b with | ⟨0, _⟩ => rfl | ⟨1, _⟩ => rfl)
  rw [resultIdx?_eq_some_iff, Fin.forall_fin_succ, Fin.forall_fin_two, h0]
  show (_ + ((0 : Nat) : Int) = _ ∧ (0 : Int) + ((j 1).val : Nat) = (p 1).val ∧ (0 : Int) + ((j 2).val : Nat) = (p 2).val) ↔ _
  omega

-- A start index read signed and clamped into `0 … N − 1`.
noncomputable def clampRow {w : Nat} (N : Nat) (hN : 0 < N) (v : BitVec w) : Fin N := ⟨min v.toInt.toNat (N - 1), by omega⟩

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- Axis 0 is the clamped start (the slice has one row), the other axes the offset coordinates.
theorem rowGather_apply {α : Type} {N E C w : Nat} (hN : 0 < N) (wf) (x : (⟨2, ![N, C]⟩ : Shape).Idx → α)
    (idx : IVec ⟨2, ![E, 1]⟩ w) (j : (⟨2, ![E, C]⟩ : Shape).Idx) :
    Host.gather (rowGather N E C wf) x idx j = x (ix2 (clampRow N hN (idx (ix2 (j 0) 0))) (j 1)) := by
  have h0 : (rowGather N E C wf).start j idx 0 = (clampRow N hN (idx (ix2 (j 0) 0))).val :=
    congrArg (fun i => min (idx i).toInt.toNat (N - 1)) (funext fun b => match b with | ⟨0, _⟩ => rfl | ⟨1, _⟩ => rfl)
  refine congrArg x (funext fun a => Fin.ext ?_)
  match a with
  | ⟨0, _⟩ => exact h0
  | ⟨1, _⟩ => exact Nat.zero_add _

abbrev cubeGather (N E H K : Nat)
    (wf : GatherDims.WF ⟨3, ![N, H, K]⟩ ⟨2, ![E, 1]⟩ ⟨3, ![E, H, K]⟩ [1, 2] [0] [] [0] [] 1 ![1, H, K]) :
    GatherDims ⟨3, ![N, H, K]⟩ ⟨2, ![E, 1]⟩ ⟨3, ![E, H, K]⟩ where
  offsetDims := [1, 2]
  collapsedSliceDims := [0]
  operandBatchingDims := []
  startIndicesBatchingDims := []
  startIndexMap := [0]
  indexVectorDim := 1
  sliceSizes := ![1, H, K]
  wf := wf

theorem cubeGather_apply {α : Type} {N E H K w : Nat} (hN : 0 < N) (wf) (x : (⟨3, ![N, H, K]⟩ : Shape).Idx → α)
    (idx : IVec ⟨2, ![E, 1]⟩ w) (j : (⟨3, ![E, H, K]⟩ : Shape).Idx) :
    Host.gather (cubeGather N E H K wf) x idx j = x (ix3 (clampRow N hN (idx (ix2 (j 0) 0))) (j 1) (j 2)) := by
  have h0 : (cubeGather N E H K wf).start j idx 0 = (clampRow N hN (idx (ix2 (j 0) 0))).val :=
    congrArg (fun i => min (idx i).toInt.toNat (N - 1)) (funext fun b => match b with | ⟨0, _⟩ => rfl | ⟨1, _⟩ => rfl)
  refine congrArg x (funext fun a => Fin.ext ?_)
  match a with
  | ⟨0, _⟩ => exact h0
  | ⟨1, _⟩ => exact Nat.zero_add _
  | ⟨2, _⟩ => exact Nat.zero_add _

-- Column `d` of 128 is head `d / 32`, feature `d % 32`.
noncomputable def unflat {E : Nat} (j : (⟨2, ![E, 128]⟩ : Shape).Idx) : (⟨3, ![E, 4, 32]⟩ : Shape).Idx :=
  ix3 (n0 := E) (j 0) (⟨(j 1).val / 32, by have := idx2_lt1 j; omega⟩ : Fin 4)
    (⟨(j 1).val % 32, Nat.mod_lt _ (by decide)⟩ : Fin 32)

theorem rowMajor_unflat {E : Nat} (j : (⟨2, ![E, 128]⟩ : Shape).Idx) :
    ((⟨3, ![E, 4, 32]⟩ : Shape).rowMajor (unflat j)).val = ((⟨2, ![E, 128]⟩ : Shape).rowMajor j).val := by
  rw [Shape.rowMajor_val_three, Shape.rowMajor_val_two]
  show ((j 0).val * 4 + (j 1).val / 32) * 32 + (j 1).val % 32 = (j 0).val * 128 + (j 1).val
  omega

open Cert.ReferenceIdeal.Spec (attnTail)

theorem scatterAdd_apply {s si u : Shape} {w : Nat} (d : ScatterDims s si u) (x : FVec Ideal s .f32)
    (idx : IVec si w) (upd : FVec Ideal u .f32) (i : s.Idx) :
    Host.scatterAdd d x idx upd i
      = x i + ∑ j ∈ Finset.univ.filter (fun j => d.resultIdx? j idx = some i), upd j := rfl

-- Reshaping pairs the updates landing on `(n, d)` with those landing on `(n, d / 32, d % 32)`, and paired updates are equal.
theorem tail_core {N : Nat} (wf2) (wfg) (wf128) (wf3) (hb4) (hb128) (hb3)
    (hc : (⟨3, ![N, 4, 32]⟩ : Shape).ShapeCasts ⟨2, ![N, 128]⟩)
    (hsK : FT Ideal ⟨2, ![30000, 128]⟩) (hsR : FT Ideal ⟨3, ![30000, 4, 32]⟩)
    (hhs : ∀ j, hsK j = hsR (unflat j))
    (idst : IT Ideal ⟨2, ![30000, 1]⟩) (a : FT Ideal ⟨2, ![30000, 4]⟩) :
    edgeTail (rowScatter N 30000 4 wf2) (rowGather N 30000 4 wfg) (rowScatter N 30000 128 wf128) hb4 hb128 hsK idst a
      = shapeCast ⟨2, ![N, 128]⟩
          (attnTail (rowScatter N 30000 4 wf2) (rowGather N 30000 4 wfg) (cubeScatter N 30000 4 32 wf3) hb4 hb3
            hsR idst a) hc := by
  funext i
  have he : ∀ j, Shape.reshapeEquiv Cert.KernelIdeal.Facts₀.shapeCasts_S30000x4x32_S30000x128 j = unflat j :=
    fun j => Shape.reshapeEquiv_eq_of_rowMajor _ (rowMajor_unflat j)
  rw [shapeCast_apply _ hc i (unflat i) (rowMajor_unflat i)]
  unfold edgeTail attnTail
  dsimp only
  rw [scatterAdd_apply, scatterAdd_apply]
  refine congrArg₂ (· + ·) rfl (Finset.sum_equiv (Shape.reshapeEquiv Cert.KernelIdeal.Facts₀.shapeCasts_S30000x4x32_S30000x128)
    (fun j => ?_) fun j _ => ?_)
  · rw [Finset.mem_filter_univ, Finset.mem_filter_univ, he, rowScatter_lands, cubeScatter_lands]
    show (?A ∧ (j 1).val = (i 1).val) ↔ (?A ∧ (j 1).val / 32 = (i 1).val / 32 ∧ (j 1).val % 32 = (i 1).val % 32)
    omega
  · rw [he, mulf_apply, mulf_apply, hhs j]
    refine congrArg (_ * ·) (((shapeCast_apply _ _ j (unflat j) (rowMajor_unflat j)).trans
      (broadcastInDim_apply _ _ _ _ (ix2 (n0 := 30000) (j 0) (unflat j 1)) (Fin.forall_fin_two.2 ⟨rfl, rfl⟩))).trans
      ((broadcastInDim_apply _ _ _ _ (ix3 (n0 := 30000) (j 0) (unflat j 1) (0 : Fin 1))
        (Fin.forall_fin_succ.2 ⟨rfl, Fin.forall_fin_two.2 ⟨rfl, rfl⟩⟩)).trans
      (broadcastInDim_apply _ _ _ _ (ix2 (n0 := 30000) (j 0) (unflat j 1)) (Fin.forall_fin_two.2 ⟨rfl, rfl⟩))).symm)

-- Both gathers read the clamped row, and reading a table commutes with reshaping it.
theorem gather_flat {Ns : Nat} (hNs : 0 < Ns) (wfK) (wfR)
    (hc : (⟨2, ![Ns, 128]⟩ : Shape).ShapeCasts ⟨3, ![Ns, 4, 32]⟩)
    (lin : FT Ideal ⟨2, ![Ns, 128]⟩) (idx : IT Ideal ⟨2, ![30000, 1]⟩) (j : (⟨2, ![30000, 128]⟩ : Shape).Idx) :
    Host.gather (rowGather Ns 30000 128 wfK) lin idx j
      = Host.gather (cubeGather Ns 30000 4 32 wfR) (shapeCast ⟨3, ![Ns, 4, 32]⟩ lin hc) idx (unflat j) :=
  (rowGather_apply hNs wfK lin idx j).trans ((cubeGather_apply hNs wfR _ idx (unflat j)).trans
    (shapeCast_apply lin hc _ _ (rowMajor_unflat (ix2 (clampRow Ns hNs (idx (ix2 (j 0) 0))) (j 1))).symm)).symm

section Relations

variable (A : Cert.ReferenceIdeal.Spec.Args Ideal) (a : FT Ideal S30000x4)

theorem tail_seq :
    edgeTail Cert.KernelIdeal.scatter_S100000x4_S30000x1_S30000x4_1_0_0_1
        Cert.KernelIdeal.gather_S100000x4_S30000x1_S30000x4_1_0_n_n_0_1_14
        Cert.KernelIdeal.scatter_S100000x128_S30000x1_S30000x128_1_0_0_1
        Cert.KernelIdeal.Facts₀.bcast_S_S100000x4 Cert.KernelIdeal.Facts₀.bcast_S_S100000x128
        (Host.gather Cert.KernelIdeal.gather_S100000x128_S30000x1_S30000x128_1_0_n_n_0_1_1128
          (Cert.ReferenceIdeal.Spec.lOp A) (wrapIdxK 100000#32 A.seqSrc))
        (wrapIdxK 100000#32 A.seqDst) a
      = shapeCast S100000x128
          (Cert.ReferenceIdeal.Spec.attnTail Cert.ReferenceIdeal.scatter_S100000x4_S30000x1_S30000x4_1_0_0_1
            Cert.ReferenceIdeal.gather_S100000x4_S30000x1_S30000x4_1_0_n_n_0_1_14
            Cert.ReferenceIdeal.scatter_S100000x4x32_S30000x1_S30000x4x32_12_0_0_1
            Cert.ReferenceIdeal.Facts₀.bcast_S_S100000x4 Cert.ReferenceIdeal.Facts₀.bcast_S_S100000x4x32
            (Host.gather Cert.ReferenceIdeal.gather_S100000x4x32_S30000x1_S30000x4x32_12_0_n_n_0_1_1432
              (Cert.ReferenceIdeal.Spec.zOp A) (Cert.ReferenceIdeal.Spec.wrapIdx 100000#32 A.seqSrc))
            (Cert.ReferenceIdeal.Spec.wrapIdx 100000#32 A.seqDst) a)
          Cert.ReferenceIdeal.Facts₀.shapeCasts_S100000x4x32_S100000x128 :=
  tail_core _ _ _ _ _ _ _ _ _ _ (fun j => gather_flat (Ns := 100000) (by omega) _ _ _ (Cert.ReferenceIdeal.Spec.lOp A) _ j) _ a

theorem tail_mo :
    edgeTail Cert.KernelIdeal.scatter_S100000x4_S30000x1_S30000x4_1_0_0_1
        Cert.KernelIdeal.gather_S100000x4_S30000x1_S30000x4_1_0_n_n_0_1_14
        Cert.KernelIdeal.scatter_S100000x128_S30000x1_S30000x128_1_0_0_1
        Cert.KernelIdeal.Facts₀.bcast_S_S100000x4 Cert.KernelIdeal.Facts₀.bcast_S_S100000x128
        (Host.gather Cert.KernelIdeal.gather_S10000x128_S30000x1_S30000x128_1_0_n_n_0_1_1128
          (Cert.ReferenceIdeal.Spec.lMac A) (wrapIdxK 10000#32 A.moSrc))
        (wrapIdxK 100000#32 A.moDst) a
      = shapeCast S100000x128
          (Cert.ReferenceIdeal.Spec.attnTail Cert.ReferenceIdeal.scatter_S100000x4_S30000x1_S30000x4_1_0_0_1
            Cert.ReferenceIdeal.gather_S100000x4_S30000x1_S30000x4_1_0_n_n_0_1_14
            Cert.ReferenceIdeal.scatter_S100000x4x32_S30000x1_S30000x4x32_12_0_0_1
            Cert.ReferenceIdeal.Facts₀.bcast_S_S100000x4 Cert.ReferenceIdeal.Facts₀.bcast_S_S100000x4x32
            (Host.gather Cert.ReferenceIdeal.gather_S10000x4x32_S30000x1_S30000x4x32_12_0_n_n_0_1_1432
              (Cert.ReferenceIdeal.Spec.zMac A) (Cert.ReferenceIdeal.Spec.wrapIdx 10000#32 A.moSrc))
            (Cert.ReferenceIdeal.Spec.wrapIdx 100000#32 A.moDst) a)
          Cert.ReferenceIdeal.Facts₀.shapeCasts_S100000x4x32_S100000x128 :=
  tail_core _ _ _ _ _ _ _ _ _ _ (fun j => gather_flat (Ns := 10000) (by omega) _ _ _ (Cert.ReferenceIdeal.Spec.lMac A) _ j) _ a

theorem tail_om :
    edgeTail Cert.KernelIdeal.scatter_S10000x4_S30000x1_S30000x4_1_0_0_1
        Cert.KernelIdeal.gather_S10000x4_S30000x1_S30000x4_1_0_n_n_0_1_14
        Cert.KernelIdeal.scatter_S10000x128_S30000x1_S30000x128_1_0_0_1
        Cert.KernelIdeal.Facts₀.bcast_S_S10000x4 Cert.KernelIdeal.Facts₀.bcast_S_S10000x128
        (Host.gather Cert.KernelIdeal.gather_S100000x128_S30000x1_S30000x128_1_0_n_n_0_1_1128
          (Cert.ReferenceIdeal.Spec.lOp A) (wrapIdxK 100000#32 A.omSrc))
        (wrapIdxK 10000#32 A.omDst) a
      = shapeCast S10000x128
          (Cert.ReferenceIdeal.Spec.attnTail Cert.ReferenceIdeal.scatter_S10000x4_S30000x1_S30000x4_1_0_0_1
            Cert.ReferenceIdeal.gather_S10000x4_S30000x1_S30000x4_1_0_n_n_0_1_14
            Cert.ReferenceIdeal.scatter_S10000x4x32_S30000x1_S30000x4x32_12_0_0_1
            Cert.ReferenceIdeal.Facts₀.bcast_S_S10000x4 Cert.ReferenceIdeal.Facts₀.bcast_S_S10000x4x32
            (Host.gather Cert.ReferenceIdeal.gather_S100000x4x32_S30000x1_S30000x4x32_12_0_n_n_0_1_1432
              (Cert.ReferenceIdeal.Spec.zOp A) (Cert.ReferenceIdeal.Spec.wrapIdx 100000#32 A.omSrc))
            (Cert.ReferenceIdeal.Spec.wrapIdx 10000#32 A.omDst) a)
          Cert.ReferenceIdeal.Facts₀.shapeCasts_S10000x4x32_S10000x128 :=
  tail_core _ _ _ _ _ _ _ _ _ _ (fun j => gather_flat (Ns := 100000) (by omega) _ _ _ (Cert.ReferenceIdeal.Spec.lOp A) _ j) _ a

end Relations

theorem flat_add (x y : FT Ideal S100000x4x32) :
    shapeCast S100000x128 (addf (F := Ideal) (φ := .f32) x y)
        Cert.ReferenceIdeal.Facts₀.shapeCasts_S100000x4x32_S100000x128
      = addf (F := Ideal) (φ := .f32)
          (shapeCast S100000x128 x Cert.ReferenceIdeal.Facts₀.shapeCasts_S100000x4x32_S100000x128)
          (shapeCast S100000x128 y Cert.ReferenceIdeal.Facts₀.shapeCasts_S100000x4x32_S100000x128) := rfl

end Cert.Bridge

end
-- ==== Proof.Bridge.Scores.lean ====
import proofs.«133871_g61280593379539_cont_9to1c4b_765_12_alg».proof.Proof.Spec
import proofs.«133871_g61280593379539_cont_9to1c4b_765_12_alg».proof.Proof.KI.EdgeDefs
import proofs.«133871_g61280593379539_cont_9to1c4b_765_12_alg».proof.Proof.Bridge.Proj
import proofs.«133871_g61280593379539_cont_9to1c4b_765_12_alg».proof.Proof.Bridge.Tail
import Idealize.ShloMosaic.Lib.IdealHost
import Idealize.ShloMosaic.Lib.Pipeline.Value

noncomputable section

namespace Cert.Bridge

open Idealize.ShloMosaic Idealize.ShloMosaic.ValueIdx
open Cert.KernelIdeal.Hand (scoresK tabIdx wrapIdxK)
open Cert.ReferenceIdeal

variable [Cert.ReferenceIdeal.Facts] [Cert.KernelIdeal.Facts]

-- 65 = 32 + 32 + 1.
theorem sum65 (f : Fin 65 → EReal) :
    ∑ k : Fin 65, f k
      = (∑ k : Fin 32, f ⟨k.val, by omega⟩) + (∑ k : Fin 32, f ⟨32 + k.val, by omega⟩) + f ⟨64, by omega⟩ := by
  rw [Fin.sum_univ_castSucc, Fin.sum_univ_add (fun i : Fin (32 + 32) => f (Fin.castSucc i))]
  rfl

section Pieces
variable (hs hd : (⟨3, ![30000, 4, 32]⟩ : Shape).Idx → EReal) (f3 : (⟨3, ![30000, 4, 1]⟩ : Shape).Idx → EReal)
  (hc : Shape.Concatenates [(⟨3, ![30000, 4, 32]⟩ : Shape), ⟨3, ![30000, 4, 32]⟩, ⟨3, ![30000, 4, 1]⟩] ⟨3, ![30000, 4, 65]⟩ 2)
  (e : Fin 30000) (h : Fin 4)

-- The concatenation read inside each of its three pieces.
theorem cat_lo (k : Fin 32) :
    concatenate (⟨3, ![30000, 4, 65]⟩ : Shape) 2 [⟨_, hs⟩, ⟨_, hd⟩, ⟨_, f3⟩] hc (ix3 e h ⟨k.val, by omega⟩) = hs (ix3 e h k) :=
  concatenate_apply_piece (t := ⟨3, ![30000, 4, 65]⟩) 2 [⟨_, hs⟩, ⟨_, hd⟩, ⟨_, f3⟩] hc _ 0 (by show 0 < 3; omega) _ hs rfl rfl 0 rfl (ix3 e h k)
    (fun b hb => match b with | ⟨0, _⟩ => rfl | ⟨1, _⟩ => rfl | ⟨2, _⟩ => absurd rfl hb) (Nat.zero_add _)

theorem cat_mid (k : Fin 32) :
    concatenate (⟨3, ![30000, 4, 65]⟩ : Shape) 2 [⟨_, hs⟩, ⟨_, hd⟩, ⟨_, f3⟩] hc (ix3 e h ⟨32 + k.val, by omega⟩) = hd (ix3 e h k) :=
  concatenate_apply_piece (t := ⟨3, ![30000, 4, 65]⟩) 2 [⟨_, hs⟩, ⟨_, hd⟩, ⟨_, f3⟩] hc _ 1 (by show 1 < 3; omega) _ hd rfl rfl 32 rfl (ix3 e h k)
    (fun b hb => match b with | ⟨0, _⟩ => rfl | ⟨1, _⟩ => rfl | ⟨2, _⟩ => absurd rfl hb) rfl

theorem cat_hi :
    concatenate (⟨3, ![30000, 4, 65]⟩ : Shape) 2 [⟨_, hs⟩, ⟨_, hd⟩, ⟨_, f3⟩] hc (ix3 e h ⟨64, by omega⟩) = f3 (ix3 e h 0) :=
  concatenate_apply_piece (t := ⟨3, ![30000, 4, 65]⟩) 2 [⟨_, hs⟩, ⟨_, hd⟩, ⟨_, f3⟩] hc _ 2 (by show 2 < 3; omega) _ f3 rfl rfl 64 rfl (ix3 e h 0)
    (fun b hb => match b with | ⟨0, _⟩ => rfl | ⟨1, _⟩ => rfl | ⟨2, _⟩ => absurd rfl hb) rfl

end Pieces

theorem reduce65 (h' : (⟨3, ![30000, 4, 65]⟩ : Shape).ReducesTo [2] ⟨2, ![30000, 4]⟩)
    (X : (⟨3, ![30000, 4, 65]⟩ : Shape).Idx → EReal) (init : EReal) (e : Fin 30000) (h : Fin 4) :
    Ideal.hostReduceAdd h' X init (ix2 e h) = init + ∑ k : Fin 65, X (ix3 e h k) := by
  rw [Ideal.hostReduceAdd_single h' (by decide : (⟨3, ![30000, 4, 65]⟩ : Shape).Reduces [2] ⟨2, ![30000, 4]⟩)]
  exact congrArg (init + ·) (Finset.sum_congr rfl fun k _ => congrArg X
    (funext fun c => match c with | ⟨0, _⟩ => Fin.ext rfl | ⟨1, _⟩ => Fin.ext rfl | ⟨2, _⟩ => Fin.ext rfl))

section Reads
variable (feat : (⟨2, ![30000, 1]⟩ : Shape).Idx → EReal) (att : (⟨2, ![4, 65]⟩ : Shape).Idx → EReal)
  (e : Fin 30000) (h : Fin 4)

theorem att_bcast (hb1) (hb2) (k : Fin 65) :
    broadcastInDim (⟨3, ![30000, 4, 65]⟩ : Shape) ![0, 1, 2] hb1
      (broadcastInDim (⟨3, ![1, 4, 65]⟩ : Shape) ![1, 2] hb2 att) (ix3 e h k) = att (ix2 h k) :=
  (broadcastInDim_apply _ hb1 _ _ (ix3 (0 : Fin 1) h k) (Fin.forall_fin_succ.2 ⟨rfl, Fin.forall_fin_two.2 ⟨rfl, rfl⟩⟩)).trans
    (broadcastInDim_apply _ hb2 _ _ (ix2 h k) (Fin.forall_fin_two.2 ⟨rfl, rfl⟩))

theorem feat_bcast3 (hb1) (hb2) :
    broadcastInDim (⟨3, ![30000, 4, 1]⟩ : Shape) ![0, 1, 2] hb1
      (broadcastInDim (⟨3, ![30000, 1, 1]⟩ : Shape) ![0, 2] hb2 feat) (ix3 e h (0 : Fin 1)) = feat (ix2 e (0 : Fin 1)) :=
  (broadcastInDim_apply _ hb1 _ _ (ix3 e (0 : Fin 1) (0 : Fin 1)) (Fin.forall_fin_succ.2 ⟨rfl, Fin.forall_fin_two.2 ⟨rfl, rfl⟩⟩)).trans
    (broadcastInDim_apply _ hb2 _ _ (ix2 e (0 : Fin 1)) (Fin.forall_fin_two.2 ⟨rfl, rfl⟩))

theorem feat_bcast2 (hb) :
    broadcastInDim (⟨2, ![30000, 4]⟩ : Shape) ![0, 1] hb feat (ix2 e h) = feat (ix2 e (0 : Fin 1)) :=
  broadcastInDim_apply _ hb _ _ (ix2 e (0 : Fin 1)) (Fin.forall_fin_two.2 ⟨rfl, rfl⟩)

theorem attF_bcast (hb1) (hb2) :
    broadcastInDim (⟨2, ![30000, 4]⟩ : Shape) ![0, 1] hb1
      (broadcastInDim (⟨2, ![1, 4]⟩ : Shape) ![1] hb2 (Cert.KernelIdeal.Hand.attF (F := Ideal) att)) (ix2 e h)
      = att (ix2 h ⟨64, by omega⟩) :=
  (broadcastInDim_apply _ hb1 _ _ (ix2 (0 : Fin 1) h) (Fin.forall_fin_two.2 ⟨rfl, rfl⟩)).trans
    ((broadcastInDim_apply _ hb2 _ _ (ix1 h) (Fin.forall_fin_one.2 rfl)).trans
      ((shapeCast_apply _ _ _ (ix2 h (0 : Fin 1)) (by
          rw [Shape.rowMajor_val_two, Shape.rowMajor_val_one]; exact Nat.mul_one _)).trans
        (extractStridedSlice_apply _ _ _ _ (ix2 h ⟨64, by omega⟩) (Fin.forall_fin_two.2 ⟨(Nat.zero_add _).symm, rfl⟩))))

end Reads

-- Splitting the 65-sum along the three pieces turns the reference's logit into the three-term one.
theorem scores_core (ss sd : Spec.FT Ideal S30000x4) (hs hd : Spec.FT Ideal S30000x4x32)
    (feat : Spec.FT Ideal S30000x1) (att : Spec.FT Ideal S4x65)
    (Hs : ∀ (e : Fin 30000) (h : Fin 4),
      ss (ix2 e h) = ∑ k : Fin 32, hs (ix3 e h k) * att (ix2 h ⟨k.val, by omega⟩))
    (Hd : ∀ (e : Fin 30000) (h : Fin 4),
      sd (ix2 e h) = ∑ k : Fin 32, hd (ix3 e h k) * att (ix2 h ⟨32 + k.val, by omega⟩)) :
    scoresK ss sd feat att = Spec.scores hs hd feat att := by
  funext j
  obtain ⟨e, h, rfl⟩ : ∃ (e : Fin 30000) (h : Fin 4), j = ix2 e h := ⟨j 0, j 1, eq_ix2 j⟩
  unfold scoresK Spec.scores
  rw [hostReduceAdd_apply, reduce65, sum65]
  simp only [mulf_apply, addf_apply, constant_apply, Ideal.ofBits_zero_f32, zero_add, Hs, Hd, att_bcast att e h,
    cat_lo, cat_mid, cat_hi]
  rw [feat_bcast2 feat e h, attF_bcast att e h, feat_bcast3 feat e h]

abbrev tabDims (n : Nat)
    (wf : GatherDims.WF ⟨2, ![n, 16]⟩ ⟨2, ![30000, 2]⟩ ⟨2, ![30000, 4]⟩ [1] [0] [] [0, 1] [] 1 ![1, 4]) :
    GatherDims ⟨2, ![n, 16]⟩ ⟨2, ![30000, 2]⟩ ⟨2, ![30000, 4]⟩ where
  offsetDims := [1]
  collapsedSliceDims := [0]
  operandBatchingDims := []
  startIndicesBatchingDims := []
  startIndexMap := [0, 1]
  indexVectorDim := 1
  sliceSizes := ![1, 4]
  wf := wf

theorem tabIdx_row (col : BitVec 32) (i : Spec.IT Ideal S30000x1) (e : Fin 30000) :
    tabIdx (F := Ideal) col i (ix2 e (0 : Fin 2)) = i (ix2 e (0 : Fin 1)) :=
  concatenate_pair_apply_left (t := Cert.KernelIdeal.S30000x2) (s₁ := Cert.KernelIdeal.S30000x1)
    (s₂ := Cert.KernelIdeal.S30000x1) 1 i _ _ (ix2 e (0 : Fin 2)) rfl (ix2 e (0 : Fin 1)) (Fin.forall_fin_two.2 ⟨rfl, rfl⟩)

theorem tabIdx_col (col : BitVec 32) (i : Spec.IT Ideal S30000x1) (e : Fin 30000) :
    tabIdx (F := Ideal) col i (ix2 e (1 : Fin 2)) = col :=
  (concatenate_pair_apply_right (t := Cert.KernelIdeal.S30000x2) (s₁ := Cert.KernelIdeal.S30000x1)
    (s₂ := Cert.KernelIdeal.S30000x1) 1 i _ _ (ix2 e (1 : Fin 2)) rfl rfl (ix2 e (0 : Fin 1))
    (fun b hb => match b with | ⟨0, _⟩ => rfl | ⟨1, _⟩ => absurd rfl hb) rfl).trans (broadcastInDim_scalar_apply _ _ _)

-- Row: the clamped node index. Column: `4g` plus the head, as a start column `4g ≤ 12` is not clamped.
theorem tab_read {n : Nat} (hn : 0 < n) (wf) (x : (⟨2, ![n, 16]⟩ : Shape).Idx → EReal) (g : Fin 4) (col : BitVec 32)
    (hcol : col.toInt.toNat = 4 * g.val) (i : Spec.IT Ideal S30000x1) (e : Fin 30000) (h : Fin 4) :
    Host.gather (tabDims n wf) x (tabIdx (F := Ideal) col i) (ix2 e h)
      = x (ix2 (clampRow n hn (i (ix2 e (0 : Fin 1)))) ⟨4 * g.val + h.val, by omega⟩) := by
  have hi : ∀ c : Fin 2, (tabDims n wf).siIdx (ix2 e h) c = ix2 e c :=
    fun c => funext fun b => match b with | ⟨0, _⟩ => rfl | ⟨1, _⟩ => rfl
  refine congrArg x (funext fun a => Fin.ext ?_)
  match a with
  | ⟨0, _⟩ =>
    show min (tabIdx (F := Ideal) col i ((tabDims n wf).siIdx (ix2 e h) 0)).toInt.toNat (n - 1) + 0 + 0 = min _ (n - 1)
    rw [hi, tabIdx_row]
    rfl
  | ⟨1, _⟩ =>
    show min (tabIdx (F := Ideal) col i ((tabDims n wf).siIdx (ix2 e h) 1)).toInt.toNat 12 + 0 + h.val = 4 * g.val + h.val
    rw [hi, tabIdx_col, hcol]
    omega

-- Both gathers read the same clamped row, and the table's column group projects that row onto a half of the attention vector.
theorem proj_read {n : Nat} (hn : 0 < n) (wf) (wz) (hc) (lin : (⟨2, ![n, 128]⟩ : Shape).Idx → EReal)
    (sc : (⟨2, ![n, 16]⟩ : Shape).Idx → EReal) (g : Fin 4) (col : BitVec 32) (hcol : col.toInt.toNat = 4 * g.val)
    (i : Spec.IT Ideal S30000x1) (att : Spec.FT Ideal S4x65) (half : Fin 2) (p : Projects lin sc g att half)
    (e : Fin 30000) (h : Fin 4) :
    Host.gather (tabDims n wf) sc (tabIdx col i) (ix2 e h)
      = ∑ k : Fin 32, Host.gather (cubeGather n 30000 4 32 wz) (shapeCast ⟨3, ![n, 4, 32]⟩ lin hc) i (ix3 e h k)
          * att (ix2 h ⟨32 * half.val + k.val, by omega⟩) := by
  rw [tab_read hn wf sc g col hcol, p]
  refine Finset.sum_congr rfl fun k _ => congrArg (· * _) (((cubeGather_apply hn wz _ i (ix3 e h k)).trans
    (shapeCast_apply _ _ _ _ ?_)).symm)
  rw [Shape.rowMajor_val_two, Shape.rowMajor_val_three]
  show (clampRow n hn (i (ix2 e 0))).val * 128 + (32 * h.val + k.val) = ((clampRow n hn (i (ix2 e 0))).val * 4 + h.val) * 32 + k.val
  omega

-- The source table gives the first 32 terms of the 65-sum, the destination table the next 32.
theorem scores_rel {ns nd : Nat} (hns : 0 < ns) (hnd : 0 < nd) (wfs) (wfd) (wzs) (wzd) (hcs) (hcd)
    (linS : (⟨2, ![ns, 128]⟩ : Shape).Idx → EReal) (scS : (⟨2, ![ns, 16]⟩ : Shape).Idx → EReal)
    (linD : (⟨2, ![nd, 128]⟩ : Shape).Idx → EReal) (scD : (⟨2, ![nd, 16]⟩ : Shape).Idx → EReal)
    (gs gd : Fin 4) (cs cd : BitVec 32) (hgs : cs.toInt.toNat = 4 * gs.val) (hgd : cd.toInt.toNat = 4 * gd.val)
    (isrc idst : Spec.IT Ideal S30000x1) (feat : Spec.FT Ideal S30000x1) (att : Spec.FT Ideal S4x65)
    (ps : Projects linS scS gs att 0) (pd : Projects linD scD gd att 1) :
    scoresK (Host.gather (tabDims ns wfs) scS (tabIdx cs isrc)) (Host.gather (tabDims nd wfd) scD (tabIdx cd idst)) feat att
      = Spec.scores (Host.gather (cubeGather ns 30000 4 32 wzs) (shapeCast ⟨3, ![ns, 4, 32]⟩ linS hcs) isrc)
          (Host.gather (cubeGather nd 30000 4 32 wzd) (shapeCast ⟨3, ![nd, 4, 32]⟩ linD hcd) idst) feat att :=
  scores_core _ _ _ _ _ _
    (fun e h => (proj_read hns wfs wzs hcs linS scS gs cs hgs isrc att 0 ps e h).trans
      (Finset.sum_congr rfl fun k _ => by rw [show (⟨32 * (0 : Fin 2).val + k.val, by omega⟩ : Fin 65) = ⟨k.val, by omega⟩ from Fin.ext (Nat.zero_add _)]))
    (fun e h => proj_read hnd wfd wzd hcd linD scD gd cd hgd idst att 1 pd e h)

theorem scores_seq (A : Spec.Args Ideal) (scOp : Spec.FT Ideal Cert.KernelIdeal.S100000x16)
    (p0 : Projects (Spec.lOp A) scOp 0 A.attSeq 0) (p1 : Projects (Spec.lOp A) scOp 1 A.attSeq 1) :
    scoresK (Host.gather Cert.KernelIdeal.gather_S100000x16_S30000x2_S30000x4_1_0_n_n_01_1_14 scOp (tabIdx 0#32 (wrapIdxK 100000#32 A.seqSrc)))
        (Host.gather Cert.KernelIdeal.gather_S100000x16_S30000x2_S30000x4_1_0_n_n_01_1_14 scOp (tabIdx 4#32 (wrapIdxK 100000#32 A.seqDst)))
        A.featSeq A.attSeq
      = Spec.scores (Host.gather Cert.ReferenceIdeal.gather_S100000x4x32_S30000x1_S30000x4x32_12_0_n_n_0_1_1432 (Spec.zOp A) (Spec.wrapIdx 100000#32 A.seqSrc))
          (Host.gather Cert.ReferenceIdeal.gather_S100000x4x32_S30000x1_S30000x4x32_12_0_n_n_0_1_1432 (Spec.zOp A) (Spec.wrapIdx 100000#32 A.seqDst))
          A.featSeq A.attSeq :=
  scores_rel (ns := 100000) (nd := 100000) (by omega) (by omega) _ _ _ _ _ _ (Spec.lOp A) scOp (Spec.lOp A) scOp 0 1 0#32 4#32
    (by decide) (by decide) (wrapIdxK 100000#32 A.seqSrc) (wrapIdxK 100000#32 A.seqDst) _ _ p0 p1

theorem scores_mo (A : Spec.Args Ideal) (scOp : Spec.FT Ideal Cert.KernelIdeal.S100000x16) (scMac : Spec.FT Ideal Cert.KernelIdeal.S10000x16)
    (q1 : Projects (Spec.lMac A) scMac 1 A.attMo 0) (p3 : Projects (Spec.lOp A) scOp 3 A.attMo 1) :
    scoresK (Host.gather Cert.KernelIdeal.gather_S10000x16_S30000x2_S30000x4_1_0_n_n_01_1_14 scMac (tabIdx 4#32 (wrapIdxK 10000#32 A.moSrc)))
        (Host.gather Cert.KernelIdeal.gather_S100000x16_S30000x2_S30000x4_1_0_n_n_01_1_14 scOp (tabIdx 12#32 (wrapIdxK 100000#32 A.moDst)))
        A.featMo A.attMo
      = Spec.scores (Host.gather Cert.ReferenceIdeal.gather_S10000x4x32_S30000x1_S30000x4x32_12_0_n_n_0_1_1432 (Spec.zMac A) (Spec.wrapIdx 10000#32 A.moSrc))
          (Host.gather Cert.ReferenceIdeal.gather_S100000x4x32_S30000x1_S30000x4x32_12_0_n_n_0_1_1432 (Spec.zOp A) (Spec.wrapIdx 100000#32 A.moDst))
          A.featMo A.attMo :=
  scores_rel (ns := 10000) (nd := 100000) (by omega) (by omega) _ _ _ _ _ _ (Spec.lMac A) scMac (Spec.lOp A) scOp 1 3 4#32 12#32
    (by decide) (by decide) (wrapIdxK 10000#32 A.moSrc) (wrapIdxK 100000#32 A.moDst) _ _ q1 p3

theorem scores_om (A : Spec.Args Ideal) (scOp : Spec.FT Ideal Cert.KernelIdeal.S100000x16) (scMac : Spec.FT Ideal Cert.KernelIdeal.S10000x16)
    (p2 : Projects (Spec.lOp A) scOp 2 A.attOm 0) (q0 : Projects (Spec.lMac A) scMac 0 A.attOm 1) :
    scoresK (Host.gather Cert.KernelIdeal.gather_S100000x16_S30000x2_S30000x4_1_0_n_n_01_1_14 scOp (tabIdx 8#32 (wrapIdxK 100000#32 A.omSrc)))
        (Host.gather Cert.KernelIdeal.gather_S10000x16_S30000x2_S30000x4_1_0_n_n_01_1_14 scMac (tabIdx 0#32 (wrapIdxK 10000#32 A.omDst)))
        A.featOm A.attOm
      = Spec.scores (Host.gather Cert.ReferenceIdeal.gather_S100000x4x32_S30000x1_S30000x4x32_12_0_n_n_0_1_1432 (Spec.zOp A) (Spec.wrapIdx 100000#32 A.omSrc))
          (Host.gather Cert.ReferenceIdeal.gather_S10000x4x32_S30000x1_S30000x4x32_12_0_n_n_0_1_1432 (Spec.zMac A) (Spec.wrapIdx 10000#32 A.omDst))
          A.featOm A.attOm :=
  scores_rel (ns := 100000) (nd := 10000) (by omega) (by omega) _ _ _ _ _ _ (Spec.lOp A) scOp (Spec.lMac A) scMac 2 0 8#32 0#32
    (by decide) (by decide) (wrapIdxK 100000#32 A.omSrc) (wrapIdxK 10000#32 A.omDst) _ _ p2 q0

end Cert.Bridge

end
-- ==== Proof.Bridge.Edge.lean ====
import proofs.«133871_g61280593379539_cont_9to1c4b_765_12_alg».proof.Proof.Bridge.Scores
import proofs.«133871_g61280593379539_cont_9to1c4b_765_12_alg».proof.Proof.Bridge.Tail

noncomputable section

namespace Cert.Bridge

open Idealize.ShloMosaic Cert.ReferenceIdeal Cert.ReferenceIdeal.Spec
open Cert.KernelIdeal.Hand (scoresK tabIdx wrapIdxK alphaK edgeTail edgePhase edgeSeq edgeMo edgeOm kOutOp kOutMac ArgsK)

variable [Cert.ReferenceIdeal.Facts] [Cert.KernelIdeal.Facts]

noncomputable def toK (A : Spec.Args Ideal) : ArgsK Ideal :=
  ⟨A.hOp, A.hMac, A.seqSrc, A.seqDst, A.omSrc, A.omDst, A.moSrc, A.moDst, A.featSeq, A.featOm, A.featMo,
   A.wOp, A.bOp, A.wMac, A.bMac, A.attSeq, A.attOm, A.attMo, A.lnOpS, A.lnOpB, A.lnMacS, A.lnMacB⟩

theorem alphaK_eq (s : Spec.FT Ideal S30000x4) : alphaK s = Spec.alphaOf s := rfl

theorem kOutOp_eq (A : Spec.Args Ideal) (scOp : Spec.FT Ideal Cert.KernelIdeal.S100000x16) (scMac : Spec.FT Ideal Cert.KernelIdeal.S10000x16)
    (p0 : Projects (Spec.lOp A) scOp 0 A.attSeq 0) (p1 : Projects (Spec.lOp A) scOp 1 A.attSeq 1)
    (p3 : Projects (Spec.lOp A) scOp 3 A.attMo 1) (q1 : Projects (Spec.lMac A) scMac 1 A.attMo 0) :
    kOutOp (toK A) (Spec.lOp A) scOp (Spec.lMac A) scMac = Spec.outOp A := by
  unfold kOutOp edgeSeq edgeMo edgePhase Spec.outOp Spec.attnSeq Spec.attnMo Spec.attn
  rw [flat_add]
  dsimp only [toK]
  rw [scores_seq A scOp p0 p1, scores_mo A scOp scMac q1 p3, alphaK_eq, alphaK_eq]
  exact congrArg₂ addf (tail_seq A _) (tail_mo A _)

theorem kOutMac_eq (A : Spec.Args Ideal) (scOp : Spec.FT Ideal Cert.KernelIdeal.S100000x16) (scMac : Spec.FT Ideal Cert.KernelIdeal.S10000x16)
    (p2 : Projects (Spec.lOp A) scOp 2 A.attOm 0) (q0 : Projects (Spec.lMac A) scMac 0 A.attOm 1) :
    kOutMac (toK A) (Spec.lOp A) scOp scMac = Spec.outMac A := by
  unfold kOutMac edgeOm edgePhase Spec.outMac Spec.attnOm Spec.attn
  dsimp only [toK]
  rw [scores_om A scOp scMac p2 q0, alphaK_eq]
  exact tail_om A _

end Cert.Bridge

end
-- ==== Proof.Bridge.Epi.lean ====
import proofs.«133871_g61280593379539_cont_9to1c4b_765_12_alg».proof.Proof.KI.Val23
import proofs.«133871_g61280593379539_cont_9to1c4b_765_12_alg».proof.Proof.Spec
import Idealize.ShloMosaic.Lib.IdealHost
import Idealize.ShloMosaic.Lib.Pipeline.Value
import Idealize.ShloMosaic.Lib.ValueIdx

noncomputable section

namespace Cert.Bridge

open Idealize.ShloMosaic Idealize.ShloMosaic.ValueIdx
open Cert.ReferenceIdeal Cert.ReferenceIdeal.Facts₀ Cert.ReferenceIdeal.Facts Cert.ReferenceIdeal.Spec
open Cert.KernelIdeal.Hand (epiIdx epiRow lift_row)

theorem mul_self_nonneg_ereal (a : EReal) : 0 ≤ a * a :=
  EReal.mul_nonneg_iff.mpr ((le_total 0 a).imp (fun h => ⟨h, h⟩) (fun h => ⟨h, h⟩))

theorem ofBits_128 : Ideal.ofBits .f32 0x43000000#32 = ((128 : ℝ) : EReal) := by
  simp [Ideal.ofBits, Ideal.ieee, -EReal.coe_mul]; norm_num

theorem ofBits_eps_pos : 0 < Ideal.ofBits .f32 0x3727C5AC#32 := by
  have e : Ideal.ofBits .f32 0x3727C5AC#32 = (((10995116 : ℝ) / 2 ^ 40 : ℝ) : EReal) := by
    simp [Ideal.ofBits, Ideal.ieee, -EReal.coe_mul]; norm_num
  rw [e]; exact_mod_cast (by positivity : (0 : ℝ) < 10995116 / 2 ^ 40)

theorem div_128_nonneg {S : EReal} (hS : 0 ≤ S) : 0 ≤ Ideal.div S (Ideal.ofBits .f32 0x43000000#32) := by
  rw [ofBits_128]
  unfold Ideal.div
  rw [if_neg (by exact_mod_cast (by norm_num : (128 : ℝ) ≠ 0))]
  exact EReal.mul_nonneg hS (EReal.inv_nonneg_of_nonneg (by exact_mod_cast (by norm_num : (0 : ℝ) ≤ 128)))

-- For positive `v` the reciprocal root is the inverse of the root; at `⊤` both sides vanish.
theorem mul_rsqrt_eq_div_sqrt (a : EReal) {v : EReal} (hv : 0 < v) : a * Ideal.rsqrt v = Ideal.div a (Ideal.sqrt v) := by
  induction v using EReal.rec with
  | bot => exact absurd hv (not_lt_bot)
  | coe r =>
    have hr : 0 < r := by exact_mod_cast hv
    have hs : 0 < Real.sqrt r := Real.sqrt_pos.mpr hr
    show a * (if r < 0 then (⊥ : EReal) else if r = 0 then (⊤ : EReal) else (((Real.sqrt r)⁻¹ : ℝ) : EReal))
      = Ideal.div a (if r < 0 then (⊥ : EReal) else ((Real.sqrt r : ℝ) : EReal))
    rw [if_neg (not_lt.mpr hr.le), if_neg hr.ne', if_neg (not_lt.mpr hr.le)]
    unfold Ideal.div
    rw [if_neg (by exact_mod_cast hs.ne'), EReal.coe_inv]
  | top =>
    show a * 0 = Ideal.div a ⊤
    unfold Ideal.div
    rw [if_neg EReal.top_ne_zero, EReal.inv_top]

-- Where `y ≤ 0`, `min y 0` is `y`; where `y > 0` that branch is not taken.
theorem elu_eq (y : EReal) :
    Scalar.select (Ideal.cmp .ogt y 0) y (Ideal.exp (min y 0) - 1)
      = Scalar.select (Ideal.cmp .ogt y 0) y (1 * (Ideal.exp (Scalar.select (Ideal.cmp .ogt y 0) 0 y) - 1)) := by
  by_cases h : 0 < y
  · have e : Ideal.cmp .ogt y 0 = 1#1 := by simp [Ideal.cmp, h]
    rw [e, select_one, select_one]
  · have e : Ideal.cmp .ogt y 0 = 0#1 := by simp [Ideal.cmp, h]
    rw [e, select_zero, select_zero, select_zero, one_mul, min_eq_left (not_lt.mp h)]

-- A sum of squares is nonnegative, and the added constant is positive.
theorem var_eps_pos (z : Fin 128 → EReal) (M : EReal) :
    0 < Ideal.div (∑ l : Fin 128, (z l - M) * (z l - M)) (Ideal.ofBits .f32 0x43000000#32) + Ideal.ofBits .f32 0x3727C5AC#32 := by
  have h1 : 0 ≤ ∑ l : Fin 128, (z l - M) * (z l - M) := Finset.sum_nonneg fun l _ => mul_self_nonneg_ereal _
  have h2 := div_128_nonneg h1
  rw [add_comm]; exact EReal.add_pos_of_pos_of_nonneg ofBits_eps_pos h2

theorem bcCol_host {α : Type} {n : Nat} (h : (⟨2, ![n, 1]⟩ : Shape).BroadcastsInDim (⟨2, ![n, 128]⟩ : Shape) ![0, 1])
    (M : (⟨2, ![n, 1]⟩ : Shape).Idx → α) (r : Fin n) (k : Fin 128) :
    broadcastInDim (⟨2, ![n, 128]⟩ : Shape) ![0, 1] h M (ix2 r k) = M (ix2 r (0 : Fin 1)) :=
  broadcastInDim_apply _ h M (ix2 r k) (ix2 r (0 : Fin 1))
    (Fin.forall_fin_two.2 ⟨by show r.val = if n = 1 then 0 else r.val; split <;> omega, rfl⟩)

theorem bcVecCol_host {α : Type} {n : Nat} (h : (⟨1, ![n]⟩ : Shape).BroadcastsInDim (⟨2, ![n, 1]⟩ : Shape) ![0])
    (R : (⟨1, ![n]⟩ : Shape).Idx → α) (r : Fin n) (u : Fin 1) :
    broadcastInDim (⟨2, ![n, 1]⟩ : Shape) ![0] h R (ix2 r u) = R (ix1 r) :=
  broadcastInDim_apply _ h R (ix2 r u) (ix1 r)
    (Fin.forall_fin_one.2 (by show r.val = if n = 1 then 0 else r.val; split <;> omega))

theorem bcRow_host {α : Type} {n : Nat} (h : S1x128.BroadcastsInDim (⟨2, ![n, 128]⟩ : Shape) ![0, 1])
    (S' : S1x128.Idx → α) (r : Fin n) (k : Fin 128) :
    broadcastInDim (⟨2, ![n, 128]⟩ : Shape) ![0, 1] h S' (ix2 r k) = S' (ix2 (0 : Fin 1) k) :=
  broadcastInDim_apply _ h S' (ix2 r k) (ix2 (0 : Fin 1) k) (Fin.forall_fin_two.2 ⟨rfl, rfl⟩)

variable [Cert.ReferenceIdeal.Facts]

theorem expm1_apply' {s : Shape} (v : FVec Ideal s .f32) (i : s.Idx) : Host.expm1 v i = Ideal.exp (v i) - 1 := rfl
theorem sqrt_apply' {s : Shape} (v : FVec Ideal s .f32) (i : s.Idx) : Host.sqrt v i = Ideal.sqrt (v i) := rfl

theorem rowSum_host {n : Nat} (hred : (⟨2, ![n, 128]⟩ : Shape).ReducesTo [1] ⟨1, ![n]⟩) (hR : (⟨2, ![n, 128]⟩ : Shape).Reduces [1] ⟨1, ![n]⟩)
    (v : FVec Ideal (⟨2, ![n, 128]⟩ : Shape) .f32) (r : Fin n) :
    Host.reduceAdd v (constant S_ .f32 0x00000000#32) hred h_S_ (ix1 r) = ∑ l : Fin 128, v (ix2 r l) := by
  rw [hostReduceAdd_apply, Ideal.hostReduceAdd_single hred hR, constant_apply, Ideal.ofBits_zero_f32, zero_add]
  exact Finset.sum_congr rfl fun k _ => congrArg v (lift_row hR _ k)

theorem bcScalar_const {T : Shape} (h : S_.BroadcastsInDim T (![] : Fin 0 → Fin T.rank)) (bits : BitVec 32) (j : T.Idx) :
    broadcastInDim T ![] h (constant (F := Ideal) S_ .f32 bits) j = Ideal.ofBits .f32 bits := by
  rw [broadcastInDim_scalar_apply, constant_apply]

-- Read at an entry, the reference's stages are one row's mean, second moment about it, normalisation and unit.
theorem epi_eq {n : Nat} (hred) (hcol) (hs1) (hrow) (hvec) (hsx) (hR : (⟨2, ![n, 128]⟩ : Shape).Reduces [1] ⟨1, ![n]⟩)
    (x lin : FVec Ideal (⟨2, ![n, 128]⟩ : Shape) .f32) (s b : FVec Ideal S128 .f32) :
    epiIdx x lin (broadcastInDim S1x128 ![1] bcast_S128_S1x128_1 s) (broadcastInDim S1x128 ![1] bcast_S128_S1x128_1 b)
      = Spec.lnElu (F := Ideal) n hred hcol hs1 hrow hvec hsx (addf x lin) s b := by
  funext i
  obtain ⟨r, k, rfl⟩ : ∃ (r : Fin n) (k : Fin 128), i = ix2 r k := ⟨i 0, i 1, eq_ix2 i⟩
  unfold Spec.lnElu
  dsimp only
  simp only [select_apply, cmpf_apply, mulf_apply, addf_apply, subf_apply, hostDivf_apply, expm1_apply', sqrt_apply', id_eq,
    bcCol_host hrow, bcVecCol_host hcol, bcRow_host hvec, rowSum_host hred hR, bcScalar_const hs1, bcScalar_const hsx,
    Ideal.ofBits_zero_f32, Ideal.ofBits_one_f32, Ideal.cmpf_def]
  show epiRow (fun l => x (ix2 r l) + lin (ix2 r l)) _ _ k = _
  unfold epiRow
  simp only [Ideal.ofBits_zero_f32, Ideal.ofBits_one_f32]
  rw [mul_rsqrt_eq_div_sqrt _ (var_eps_pos (fun l => x (ix2 r l) + lin (ix2 r l)) _)]
  exact elu_eq _

theorem epi_eq100k (x lin : FVec Ideal S100000x128 .f32) (s b : FVec Ideal S128 .f32) :
    epiIdx x lin (broadcastInDim S1x128 ![1] bcast_S128_S1x128_1 s) (broadcastInDim S1x128 ![1] bcast_S128_S1x128_1 b)
      = Spec.lnElu (F := Ideal) 100000 reducesTo_S100000x128_S100000_d1 bcast_S100000_S100000x1_0 bcast_S_S100000x1
          bcast_S100000x1_S100000x128_0_1 bcast_S1x128_S100000x128_0_1 bcast_S_S100000x128 (addf x lin) s b :=
  epi_eq reducesTo_S100000x128_S100000_d1 bcast_S100000_S100000x1_0 bcast_S_S100000x1
    bcast_S100000x1_S100000x128_0_1 bcast_S1x128_S100000x128_0_1 bcast_S_S100000x128 (by decide) x lin s b

theorem epi_eq10k (x lin : FVec Ideal S10000x128 .f32) (s b : FVec Ideal S128 .f32) :
    epiIdx x lin (broadcastInDim S1x128 ![1] bcast_S128_S1x128_1 s) (broadcastInDim S1x128 ![1] bcast_S128_S1x128_1 b)
      = Spec.lnElu (F := Ideal) 10000 reducesTo_S10000x128_S10000_d1 bcast_S10000_S10000x1_0 bcast_S_S10000x1
          bcast_S10000x1_S10000x128_0_1 bcast_S1x128_S10000x128_0_1 bcast_S_S10000x128 (addf x lin) s b :=
  epi_eq reducesTo_S10000x128_S10000_d1 bcast_S10000_S10000x1_0 bcast_S_S10000x1
    bcast_S10000x1_S10000x128_0_1 bcast_S1x128_S10000x128_0_1 bcast_S_S10000x128 (by decide) x lin s b

end Cert.Bridge

end
-- ==== Proof.KI.Value.lean ====
import proofs.«133871_g61280593379539_cont_9to1c4b_765_12_alg».proof.Proof.KI.Run
import proofs.«133871_g61280593379539_cont_9to1c4b_765_12_alg».proof.Proof.KI.Val01
import proofs.«133871_g61280593379539_cont_9to1c4b_765_12_alg».proof.Proof.KI.Val23
import proofs.«133871_g61280593379539_cont_9to1c4b_765_12_alg».proof.Proof.KI.ValHost
import proofs.«133871_g61280593379539_cont_9to1c4b_765_12_alg».proof.Proof.KI.ValEdge
import proofs.«133871_g61280593379539_cont_9to1c4b_765_12_alg».proof.Proof.KI.EdgeDefs
import proofs.«133871_g61280593379539_cont_9to1c4b_765_12_alg».proof.Proof.KI.ValHostCol
import proofs.«133871_g61280593379539_cont_9to1c4b_765_12_alg».proof.Proof.Spec
import proofs.«133871_g61280593379539_cont_9to1c4b_765_12_alg».proof.Proof.Bridge.Proj
import proofs.«133871_g61280593379539_cont_9to1c4b_765_12_alg».proof.Proof.Bridge.Lin
import proofs.«133871_g61280593379539_cont_9to1c4b_765_12_alg».proof.Proof.Bridge.Sc
import proofs.«133871_g61280593379539_cont_9to1c4b_765_12_alg».proof.Proof.Bridge.Edge
import proofs.«133871_g61280593379539_cont_9to1c4b_765_12_alg».proof.Proof.Bridge.Epi
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.Pipeline (Dat Cfg Window)

section Assembly
open Cert.Bridge (toK linIdx scIdx ColumnOf Projects)
variable [Cert.KernelIdeal.Facts] [Cert.ReferenceIdeal.Facts]
variable (m : (ℓ : Loc nD τ sig) → Buf (Elt Ideal) ℓ) (ρ : Dev nD → PrngReg) (c : Dev nD)

noncomputable def argsS : Cert.ReferenceIdeal.Spec.Args Ideal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

theorem v162_W1 : W1 m ρ c (Proc.devRef .tc main_v162)
    = transpose S128x128 [1, 0] (argsS m c).wOp Cert.KernelIdeal.Facts₀.transposes_S128x128_S128x128_1_0 :=
  h0_v162 (W0 m ρ c)

theorem v163_W1 : W1 m ρ c (Proc.devRef .tc main_v163)
    = broadcastInDim S1x128 ![1] Cert.KernelIdeal.Facts₀.bcast_S128_S1x128_1 (argsS m c).bOp :=
  h0_v163 (W0 m ρ c)

theorem lin_op_W2 : W2 m ρ c (Proc.devRef .tc main_v164_0) = Cert.ReferenceIdeal.Spec.lOp (argsS m c) := by
  refine (W2_arr m ρ c 4).trans ((arr0_4 (V1 m ρ) c).trans ?_)
  show linIdx (n := 100000) (W1 m ρ c (Proc.devRef .tc main_arg0)) (W1 m ρ c (Proc.devRef .tc main_v162)) (W1 m ρ c (Proc.devRef .tc main_v163)) = _
  rw [W1_arg m ρ c main_arg0 (by decide), v162_W1, v163_W1]
  exact Cert.Bridge.lin_op _ _ _

theorem sc_op_W2 : W2 m ρ c (Proc.devRef .tc main_v164_1)
    = scIdx (n := 100000) (Cert.ReferenceIdeal.Spec.lOp (argsS m c)) (W1 m ρ c (Proc.devRef .tc main_v144)) := by
  refine (W2_arr m ρ c 5).trans ((arr0_5 (V1 m ρ) c).trans ?_)
  show scIdx (n := 100000) (lin0 (V1 m ρ) c) (W1 m ρ c (Proc.devRef .tc main_v144)) = _
  rw [← arr0_4 (V1 m ρ) c, ← W2_arr m ρ c 4]
  exact congrArg (fun l => scIdx (n := 100000) l (W1 m ρ c (Proc.devRef .tc main_v144))) (lin_op_W2 m ρ c)

theorem lin_op_W4 : W4 m ρ c (Proc.devRef .tc main_v164_0) = Cert.ReferenceIdeal.Spec.lOp (argsS m c) :=
  (W4_of_ne m ρ c main_v164_0 (by decide)).trans ((h1_keep (W2 m ρ c) main_v164_0 (by decide)).trans (lin_op_W2 m ρ c))

theorem sc_op_W4 : W4 m ρ c (Proc.devRef .tc main_v164_1)
    = scIdx (n := 100000) (Cert.ReferenceIdeal.Spec.lOp (argsS m c)) (W1 m ρ c (Proc.devRef .tc main_v144)) :=
  (W4_of_ne m ρ c main_v164_1 (by decide)).trans ((h1_keep (W2 m ρ c) main_v164_1 (by decide)).trans (sc_op_W2 m ρ c))

theorem proj_op (g : Fin 4) (att : (⟨2, ![4, 65]⟩ : Shape).Idx → EReal) (half : Fin 2)
    (hc : ColumnOf (W1 m ρ c (Proc.devRef .tc main_v144)) g att half) :
    Projects (n := 100000) (Cert.ReferenceIdeal.Spec.lOp (argsS m c)) (W4 m ρ c (Proc.devRef .tc main_v164_1)) g att half := by
  rw [sc_op_W4]
  exact Cert.Bridge.projects_of_column _ _ g att half hc

theorem v165_W3 : W3 m ρ c (Proc.devRef .tc main_v165)
    = transpose S128x128 [1, 0] (argsS m c).wMac Cert.KernelIdeal.Facts₀.transposes_S128x128_S128x128_1_0 :=
  (h1_v165 (W2 m ρ c)).trans (by rw [W2_arg m ρ c main_arg13 (by decide)]; rfl)

theorem v166_W3 : W3 m ρ c (Proc.devRef .tc main_v166)
    = broadcastInDim S1x128 ![1] Cert.KernelIdeal.Facts₀.bcast_S128_S1x128_1 (argsS m c).bMac :=
  (h1_v166 (W2 m ρ c)).trans (by rw [W2_arg m ρ c main_arg14 (by decide)]; rfl)

theorem v161_W3 : W3 m ρ c (Proc.devRef .tc main_v161) = W1 m ρ c (Proc.devRef .tc main_v161) :=
  (h1_keep (W2 m ρ c) main_v161 (by decide)).trans (W2_of_ne m ρ c main_v161 (by decide))

theorem lin_mac_W4 : W4 m ρ c (Proc.devRef .tc main_v167_0) = Cert.ReferenceIdeal.Spec.lMac (argsS m c) := by
  refine (W4_arr m ρ c 4).trans ((arr1_4 (V3 m ρ) c).trans ?_)
  show linIdx (n := 10000) (W3 m ρ c (Proc.devRef .tc main_arg1)) (W3 m ρ c (Proc.devRef .tc main_v165)) (W3 m ρ c (Proc.devRef .tc main_v166)) = _
  rw [W3_arg m ρ c main_arg1 (by decide), v165_W3, v166_W3]
  exact Cert.Bridge.lin_mac _ _ _

theorem sc_mac_W4 : W4 m ρ c (Proc.devRef .tc main_v167_1)
    = scIdx (n := 10000) (Cert.ReferenceIdeal.Spec.lMac (argsS m c)) (W1 m ρ c (Proc.devRef .tc main_v161)) := by
  refine (W4_arr m ρ c 5).trans ((arr1_5 (V3 m ρ) c).trans ?_)
  show scIdx (n := 10000) (lin1 (V3 m ρ) c) (W3 m ρ c (Proc.devRef .tc main_v161)) = _
  rw [← arr1_4 (V3 m ρ) c, ← W4_arr m ρ c 4, v161_W3]
  exact congrArg (fun l => scIdx (n := 10000) l (W1 m ρ c (Proc.devRef .tc main_v161))) (lin_mac_W4 m ρ c)

theorem proj_mac (g : Fin 4) (att : (⟨2, ![4, 65]⟩ : Shape).Idx → EReal) (half : Fin 2)
    (hc : ColumnOf (W1 m ρ c (Proc.devRef .tc main_v161)) g att half) :
    Projects (n := 10000) (Cert.ReferenceIdeal.Spec.lMac (argsS m c)) (W4 m ρ c (Proc.devRef .tc main_v167_1)) g att half := by
  rw [sc_mac_W4]
  exact Cert.Bridge.projects_of_column _ _ g att half hc

theorem argsK_W4 : argsK (W4 m ρ c) = toK (argsS m c) := by
  unfold argsK Cert.Bridge.toK argsS
  rw [ArgsK.mk.injEq]
  repeat' apply And.intro
  all_goals exact W4_arg m ρ c _ (by decide)

theorem out_op_W17 : W17 m ρ c (Proc.devRef .tc main_v306) = Cert.ReferenceIdeal.Spec.outOp (argsS m c) := by
  refine (edge_v306 (W4 m ρ c)).trans ?_
  rw [argsK_W4, lin_op_W4, lin_mac_W4]
  exact Cert.Bridge.kOutOp_eq (argsS m c) _ _
    (proj_op m ρ c 0 _ 0 (h0_v144_col0 (W0 m ρ c))) (proj_op m ρ c 1 _ 1 (h0_v144_col1 (W0 m ρ c)))
    (proj_op m ρ c 3 _ 1 (h0_v144_col3 (W0 m ρ c))) (proj_mac m ρ c 1 _ 0 (h0_v161_col1 (W0 m ρ c)))

theorem out_mac_W17 : W17 m ρ c (Proc.devRef .tc main_v375) = Cert.ReferenceIdeal.Spec.outMac (argsS m c) := by
  refine (edge_v375 (W4 m ρ c)).trans ?_
  rw [argsK_W4, lin_op_W4]
  exact Cert.Bridge.kOutMac_eq (argsS m c) _ _
    (proj_op m ρ c 2 _ 0 (h0_v144_col2 (W0 m ρ c))) (proj_mac m ρ c 0 _ 1 (h0_v161_col0 (W0 m ρ c)))

theorem lin_op_W17 : W17 m ρ c (Proc.devRef .tc main_v164_0) = Cert.ReferenceIdeal.Spec.lOp (argsS m c) :=
  (edge_keep (W4 m ρ c) main_v164_0 out_v164_0).trans (lin_op_W4 m ρ c)

theorem lin_mac_W17 : W17 m ρ c (Proc.devRef .tc main_v167_0) = Cert.ReferenceIdeal.Spec.lMac (argsS m c) :=
  (edge_keep (W4 m ρ c) main_v167_0 out_v167_0).trans (lin_mac_W4 m ρ c)

theorem v376_W17 : W17 m ρ c (Proc.devRef .tc main_v376)
    = broadcastInDim S1x128 ![1] Cert.KernelIdeal.Facts₀.bcast_S128_S1x128_1 (argsS m c).lnOpS :=
  (edge_v376 (W4 m ρ c)).trans (by rw [W4_arg m ρ c main_arg18 (by decide)]; rfl)

theorem v377_W17 : W17 m ρ c (Proc.devRef .tc main_v377)
    = broadcastInDim S1x128 ![1] Cert.KernelIdeal.Facts₀.bcast_S128_S1x128_1 (argsS m c).lnOpB :=
  (edge_v377 (W4 m ρ c)).trans (by rw [W4_arg m ρ c main_arg19 (by decide)]; rfl)

theorem res0_val : W20 m ρ c (Proc.devRef .tc main_v378) = Cert.ReferenceIdeal.Spec.res0 (argsS m c) := by
  refine (W20_res0 m ρ c).trans ((arr2_4 (V17 m ρ) c).trans ?_)
  show epiIdx (n := 100000) (W17 m ρ c (Proc.devRef .tc main_v306)) (W17 m ρ c (Proc.devRef .tc main_v164_0)) (W17 m ρ c (Proc.devRef .tc main_v376))
    (W17 m ρ c (Proc.devRef .tc main_v377)) = _
  rw [out_op_W17 m ρ c, lin_op_W17, v376_W17, v377_W17]
  exact Cert.Bridge.epi_eq100k _ _ _ _

theorem out_mac_W19 : W19 m ρ c (Proc.devRef .tc main_v375) = Cert.ReferenceIdeal.Spec.outMac (argsS m c) :=
  (h3_keep (W18 m ρ c) main_v375 (by decide)).trans ((W18_of_ne m ρ c main_v375 (by decide)).trans (out_mac_W17 m ρ c))

theorem lin_mac_W19 : W19 m ρ c (Proc.devRef .tc main_v167_0) = Cert.ReferenceIdeal.Spec.lMac (argsS m c) :=
  (h3_keep (W18 m ρ c) main_v167_0 (by decide)).trans ((W18_of_ne m ρ c main_v167_0 (by decide)).trans (lin_mac_W17 m ρ c))

theorem v379_W19 : W19 m ρ c (Proc.devRef .tc main_v379)
    = broadcastInDim S1x128 ![1] Cert.KernelIdeal.Facts₀.bcast_S128_S1x128_1 (argsS m c).lnMacS :=
  (h3_v379 (W18 m ρ c)).trans (by rw [W18_arg m ρ c main_arg20 (by decide)]; rfl)

theorem v380_W19 : W19 m ρ c (Proc.devRef .tc main_v380)
    = broadcastInDim S1x128 ![1] Cert.KernelIdeal.Facts₀.bcast_S128_S1x128_1 (argsS m c).lnMacB :=
  (h3_v380 (W18 m ρ c)).trans (by rw [W18_arg m ρ c main_arg21 (by decide)]; rfl)

theorem res1_val : W20 m ρ c (Proc.devRef .tc main_v381) = Cert.ReferenceIdeal.Spec.res1 (argsS m c) := by
  refine (W20_res1 m ρ c).trans ((arr3_4 (V19 m ρ) c).trans ?_)
  show epiIdx (n := 10000) (W19 m ρ c (Proc.devRef .tc main_v375)) (W19 m ρ c (Proc.devRef .tc main_v167_0)) (W19 m ρ c (Proc.devRef .tc main_v379))
    (W19 m ρ c (Proc.devRef .tc main_v380)) = _
  rw [out_mac_W19 m ρ c, lin_mac_W19, v379_W19, v380_W19]
  exact Cert.Bridge.epi_eq10k _ _ _ _

end Assembly

end Cert.KernelIdeal.Hand
end
-- ==== Proof.Final.lean ====
import proofs.«133871_g61280593379539_cont_9to1c4b_765_12_alg».proof.Defs
import proofs.«133871_g61280593379539_cont_9to1c4b_765_12_alg».proof.Proof.Spec
import proofs.«133871_g61280593379539_cont_9to1c4b_765_12_alg».proof.Proof.KI.Value
import proofs.«133871_g61280593379539_cont_9to1c4b_765_12_alg».proof.Proof.Ref.Run
import proofs.«133871_g61280593379539_cont_9to1c4b_765_12_alg».proof.Proof.Ref.Val

noncomputable section

namespace Cert.Proof.Final

open Idealize.ShloMosaic Idealize.ShloMosaic.TcCoe Idealize.SL.Sem Idealize.ShloMosaic.StableHlo

theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m g m' g' _ hag
  have args_eq : ∀ c, Cert.ReferenceIdeal.Hand.argsOf m' c = Cert.KernelIdeal.Hand.argsS m c := fun c => by
    unfold Cert.ReferenceIdeal.Hand.argsOf Cert.KernelIdeal.Hand.argsS
    rw [Cert.ReferenceIdeal.Spec.Args.mk.injEq]
    exact hag c
  refine ⟨fun c => Cert.ReferenceIdeal.Spec.res0 (Cert.KernelIdeal.Hand.argsS m c),
    fun c => Cert.ReferenceIdeal.Spec.res1 (Cert.KernelIdeal.Hand.argsS m c), ?_, ?_⟩
  · exact (θ_run _ _ _).mono
      (fun _ h c => ⟨(h c).1.trans (Cert.KernelIdeal.Hand.res0_val m g c),
        (h c).2.1.trans (Cert.KernelIdeal.Hand.res1_val m g c), (h c).2.2⟩)
      (Cert.KernelIdeal.Hand.run_full m g)
  · exact (θ_run _ _ _).mono
      (fun _ h c => ⟨(h c).1.1.trans ((Cert.ReferenceIdeal.Hand.Wref_res0 m' c).trans
          (congrArg Cert.ReferenceIdeal.Spec.res0 (args_eq c))),
        (h c).1.2.trans ((Cert.ReferenceIdeal.Hand.Wref_res1 m' c).trans
          (congrArg Cert.ReferenceIdeal.Spec.res1 (args_eq c))), (h c).2⟩)
      (Cert.ReferenceIdeal.Hand.run m' g')

end Cert.Proof.Final

end
-- ==== Proof.lean ====
import proofs.«133871_g61280593379539_cont_9to1c4b_765_12_alg».proof.Defs
import proofs.«133871_g61280593379539_cont_9to1c4b_765_12_alg».proof.Proof.Gen.Kernel
import proofs.«133871_g61280593379539_cont_9to1c4b_765_12_alg».proof.Proof.Gen.Kernel.Skeleton
import proofs.«133871_g61280593379539_cont_9to1c4b_765_12_alg».proof.Proof.Gen.Kernel.Launch
import proofs.«133871_g61280593379539_cont_9to1c4b_765_12_alg».proof.Proof.Gen.Kernel.Regions
import proofs.«133871_g61280593379539_cont_9to1c4b_765_12_alg».proof.Proof.Gen.Kernel.Points
import proofs.«133871_g61280593379539_cont_9to1c4b_765_12_alg».proof.Proof.Gen.KernelIdeal
import proofs.«133871_g61280593379539_cont_9to1c4b_765_12_alg».proof.Proof.Gen.KernelIdeal.Skeleton
import proofs.«133871_g61280593379539_cont_9to1c4b_765_12_alg».proof.Proof.Gen.KernelIdeal.Launch
import proofs.«133871_g61280593379539_cont_9to1c4b_765_12_alg».proof.Proof.Gen.KernelIdeal.Regions
import proofs.«133871_g61280593379539_cont_9to1c4b_765_12_alg».proof.Proof.Gen.KernelIdeal.Points
import proofs.«133871_g61280593379539_cont_9to1c4b_765_12_alg».proof.Proof.Gen.ReferenceIdeal
import proofs.«133871_g61280593379539_cont_9to1c4b_765_12_alg».proof.Proof.Gen.Pre_finite_inputs
import proofs.«133871_g61280593379539_cont_9to1c4b_765_12_alg».proof.Proof.K.Run
import proofs.«133871_g61280593379539_cont_9to1c4b_765_12_alg».proof.Proof.KI.Run
import proofs.«133871_g61280593379539_cont_9to1c4b_765_12_alg».proof.Proof.Ref.Run
import proofs.«133871_g61280593379539_cont_9to1c4b_765_12_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => Cert.ReferenceIdeal.Hand.frame (F := Ideal) m ρ,
  trivial,
  Cert.Proof.Final.algebraic⟩

end Cert.Proof

end
